-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_40000" .f32 0x37D1B717#32 ((1 / 40000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v87_0)) (v1 : (c : Dev Cert.KernelIdeal.nD) → Buf (Elt Ideal) ((c.tc : Thread Cert.KernelIdeal.nD Cert.KernelIdeal.τ).loc Cert.KernelIdeal.main_v87_1)) (v2 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87_0) = v0 c
          ∧ r.2.mem ((c.tc : Thread Cert.KernelIdeal.nD Cert.KernelIdeal.τ).loc Cert.KernelIdeal.main_v87_1) = v1 c
          ∧ r.2.mem ((c.tc : Thread Cert.KernelIdeal.nD Cert.KernelIdeal.τ).loc Cert.KernelIdeal.main_v89) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v152) = v1 c
          ∧ r.2.mem ((c.tc : Thread Cert.ReferenceIdeal.nD Cert.ReferenceIdeal.τ).loc Cert.ReferenceIdeal.main_v154) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x7 : Shape := ⟨2, ![40000, 7]⟩
abbrev S2x640000 : Shape := ⟨2, ![2, 640000]⟩
abbrev S640000 : Shape := ⟨1, ![640000]⟩
abbrev S128x7 : Shape := ⟨2, ![128, 7]⟩
abbrev S128 : Shape := ⟨1, ![128]⟩
abbrev S5x128x128 : Shape := ⟨3, ![5, 128, 128]⟩
abbrev S5x128 : Shape := ⟨2, ![5, 128]⟩
abbrev S3x128 : Shape := ⟨2, ![3, 128]⟩
abbrev S3 : Shape := ⟨1, ![3]⟩
abbrev S1x128 : Shape := ⟨2, ![1, 128]⟩
abbrev S1 : Shape := ⟨1, ![1]⟩
abbrev S_ : Shape := ⟨0, ![]⟩
abbrev S1x640000 : Shape := ⟨2, ![1, 640000]⟩

class Facts : Prop where
  bcast_S_S40000x7 : S_.BroadcastsInDim S40000x7 (![] : Fin 0 → Fin S40000x7.rank)
  reducesTo_S40000x7_S_d0_1 : S40000x7.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x7 : S_.BroadcastsInDim S128x7 (![] : Fin 0 → Fin S128x7.rank)
  reducesTo_S128x7_S_d0_1 : S128x7.ReducesTo [0, 1] S_
  bcast_S_S128 : S_.BroadcastsInDim S128 (![] : Fin 0 → Fin S128.rank)
  reducesTo_S128_S_d0 : S128.ReducesTo [0] S_
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  slices_S2x640000_S1x640000_0_0 : S2x640000.Slices ![0, 0] S1x640000
  shapeCasts_S1x640000_S640000 : S1x640000.ShapeCasts S640000

variable [Facts]

def fn_part3 {F : FTy → Type} [FloatOps F] (main_arg1 : IVec S2x640000 32) (main_v48 : IVec S_ 1) (main_v50 : IVec S640000 32) (main_c_18 : IVec S_ 32) : IVec S_ 1 :=
  let main_v51 : IVec S640000 32 := broadcastInDim S640000 ![] bcast_S_S640000 main_c_18
  let main_v52 : IVec S640000 1 := cmpi .sge main_v50 main_v51
  let main_c_19 : IVec S_ 1 := constantI S_ 1 1#1
  let main_v53 : IVec S_ 1 := (fun x v => Host.reduce IntOp.andi x v reducesTo_S640000_S_d0 h_S_) main_v52 main_c_19
  let main_v54 : IVec S_ 1 := andi main_v48 main_v53
  let main_v55 : IVec S1x640000 32 := (extractStridedSlice S1x640000 ![0, 0] · slices_S2x640000_S1x640000_0_0) main_arg1
  let main_v56 : IVec S640000 32 := shapeCast S640000 main_v55 shapeCasts_S1x640000_S640000
  let main_c_20 : IVec S_ 32 := constantI S_ 32 40000#32
  let main_v57 : IVec S640000 32 := broadcastInDim S640000 ![] bcast_S_S640000 main_c_20
  let main_v58 : IVec S640000 1 := cmpi .slt main_v56 main_v57
  let main_c_21 : IVec S_ 1 := constantI S_ 1 1#1
  let main_v59 : IVec S_ 1 := (fun x v => Host.reduce IntOp.andi x v reducesTo_S640000_S_d0 h_S_) main_v58 main_c_21
  let main_v60 : IVec S_ 1 := andi main_v54 main_v59
  main_v60

def fn_part2 {F : FTy → Type} [FloatOps F] (main_arg1 : IVec S2x640000 32) (main_arg8 : FVec F S3 .f32) (main_arg9 : FVec F S1x128 .f32) (main_arg10 : FVec F S1 .f32) (main_v33 : IVec S_ 1) : IVec S_ 1 :=
  let main_v34 : FVec F S3 .f32 := Host.absf main_arg8
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  let main_v39 : FVec F S1x128 .f32 := Host.absf main_arg9
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : IVec S1x640000 32 := (extractStridedSlice S1x640000 ![0, 0] · slices_S2x640000_S1x640000_0_0) main_arg1
  let main_v50 : IVec S640000 32 := shapeCast S640000 main_v49 shapeCasts_S1x640000_S640000
  let main_c_18 : IVec S_ 32 := constantI S_ 32 0#32
  fn_part3 (F := F) main_arg1 main_v48 main_v50 main_c_18

def fn_part1 {F : FTy → Type} [FloatOps F] (main_arg1 : IVec S2x640000 32) (main_arg5 : FVec F S5x128x128 .f32) (main_arg6 : FVec F S5x128 .f32) (main_arg7 : FVec F S3x128 .f32) (main_arg8 : FVec F S3 .f32) (main_arg9 : FVec F S1x128 .f32) (main_arg10 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S5x128x128 .f32 := Host.absf main_arg5
  let main_cst_6 : FVec F S_ .f32 := constant S_ .f32 0x7F800000#32
  let main_v20 : FVec F S5x128x128 .f32 := broadcastInDim S5x128x128 ![] bcast_S_S5x128x128 main_cst_6
  let main_v21 : IVec S5x128x128 1 := cmpf .olt main_v19 main_v20
  let main_c_7 : IVec S_ 1 := constantI S_ 1 1#1
  let main_v22 : IVec S_ 1 := (fun x v => Host.reduce IntOp.andi x v reducesTo_S5x128x128_S_d0_1_2 h_S_) main_v21 main_c_7
  let main_v23 : IVec S_ 1 := andi main_v18 main_v22
  let main_v24 : FVec F S5x128 .f32 := Host.absf main_arg6
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S40000x7 .f32) (main_arg1 : IVec S2x640000 32) (main_arg2 : FVec F S640000 .f32) (main_arg3 : FVec F S128x7 .f32) (main_arg4 : FVec F S128 .f32) (main_arg5 : FVec F S5x128x128 .f32) (main_arg6 : FVec F S5x128 .f32) (main_arg7 : FVec F S3x128 .f32) (main_arg8 : FVec F S3 .f32) (main_arg9 : FVec F S1x128 .f32) (main_arg10 : FVec F S1 .f32) : IVec S_ 1 :=
  let main_v0 : FVec F S40000x7 .f32 := Host.absf main_arg0
  let main_cst : FVec F S_ .f32 := constant S_ .f32 0x7F800000#32
  let main_v1 : FVec F S40000x7 .f32 := broadcastInDim S40000x7 ![] bcast_S_S40000x7 main_cst
  let main_v2 : IVec S40000x7 1 := cmpf .olt main_v0 main_v1
  let main_c : IVec S_ 1 := constantI S_ 1 1#1
  let main_v3 : IVec S_ 1 := (fun x v => Host.reduce IntOp.andi x v reducesTo_S40000x7_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x7 .f32 := Host.absf main_arg3
  let main_cst_2 : FVec F S_ .f32 := constant S_ .f32 0x7F800000#32
  let main_v10 : FVec F S128x7 .f32 := broadcastInDim S128x7 ![] bcast_S_S128x7 main_cst_2
  let main_v11 : IVec S128x7 1 := cmpf .olt main_v9 main_v10
  let main_c_3 : IVec S_ 1 := constantI S_ 1 1#1
  let main_v12 : IVec S_ 1 := (fun x v => Host.reduce IntOp.andi x v reducesTo_S128x7_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_v13 main_v16
-- ==== Kernel.lean ====
abbrev S40000x7 : Shape := ⟨2, ![40000, 7]⟩
abbrev S2x640000 : Shape := ⟨2, ![2, 640000]⟩
abbrev S640000 : Shape := ⟨1, ![640000]⟩
abbrev S128x7 : Shape := ⟨2, ![128, 7]⟩
abbrev S128 : Shape := ⟨1, ![128]⟩
abbrev S5x128x128 : Shape := ⟨3, ![5, 128, 128]⟩
abbrev S5x128 : Shape := ⟨2, ![5, 128]⟩
abbrev S3x128 : Shape := ⟨2, ![3, 128]⟩
abbrev S3 : Shape := ⟨1, ![3]⟩
abbrev S1x128 : Shape := ⟨2, ![1, 128]⟩
abbrev S1 : Shape := ⟨1, ![1]⟩
abbrev S1x640000 : Shape := ⟨2, ![1, 640000]⟩
abbrev S_ : Shape := ⟨0, ![]⟩
abbrev S7x128 : Shape := ⟨2, ![7, 128]⟩
abbrev S40000x128 : Shape := ⟨2, ![40000, 128]⟩
abbrev S5000x7 : Shape := ⟨2, ![5000, 7]⟩
abbrev S5000x128 : Shape := ⟨2, ![5000, 128]⟩
abbrev S1x128x128 : Shape := ⟨3, ![1, 128, 128]⟩
abbrev S128x128 : Shape := ⟨2, ![128, 128]⟩
abbrev S640000x1 : Shape := ⟨2, ![640000, 1]⟩
abbrev S1x1 : Shape := ⟨2, ![1, 1]⟩
abbrev S640000x128 : Shape := ⟨2, ![640000, 128]⟩
abbrev S128x3 : Shape := ⟨2, ![128, 3]⟩
abbrev S1x3 : Shape := ⟨2, ![1, 3]⟩
abbrev S128x1 : Shape := ⟨2, ![128, 1]⟩
abbrev S40000x3 : Shape := ⟨2, ![40000, 3]⟩
abbrev S5000x3 : Shape := ⟨2, ![5000, 3]⟩
abbrev S5000 : Shape := ⟨1, ![5000]⟩
abbrev S5000x1 : Shape := ⟨2, ![5000, 1]⟩

abbrev nBuf : Space → Nat
  | .hbm => 230
  | .vmem => 46
  | .smem => 0
  | _ => 0

abbrev hbmTy0_0 (i : Nat) : BufTy := match i % 128 with
  | 0 => ⟨S40000x7, .f32⟩
  | 1 => ⟨S2x640000, .i32⟩
  | 2 => ⟨S640000, .f32⟩
  | 3 => ⟨S128x7, .f32⟩
  | 4 => ⟨S128, .f32⟩
  | 5 => ⟨S5x128x128, .f32⟩
  | 6 => ⟨S5x128, .f32⟩
  | 7 => ⟨S3x128, .f32⟩
  | 8 => ⟨S3, .f32⟩
  | 9 => ⟨S1x128, .f32⟩
  | 10 => ⟨S1, .f32⟩
  | 11 => ⟨S1x640000, .i32⟩
  | 12 => ⟨S640000, .i32⟩
  | 13 => ⟨S1x640000, .i32⟩
  | 14 => ⟨S640000, .i32⟩
  | 15 => ⟨S_, .f32⟩
  | 16 => ⟨S640000, .f32⟩
  | 17 => ⟨S640000, .f32⟩
  | 18 => ⟨S640000, .f32⟩
  | 19 => ⟨S_, .f32⟩
  | 20 => ⟨S640000, .f32⟩
  | 21 => ⟨S640000, .f32⟩
  | 22 => ⟨S7x128, .f32⟩
  | 23 => ⟨S1x128, .f32⟩
  | 24 => ⟨S40000x128, .f32⟩
  | 25 => ⟨S5x128x128, .f32⟩
  | 26 => ⟨S1x128x128, .f32⟩
  | 27 => ⟨S128x128, .f32⟩
  | 28 => ⟨S1x128, .f32⟩
  | 29 => ⟨S128, .f32⟩
  | 30 => ⟨S1x128, .f32⟩
  | 31 => ⟨S40000x128, .f32⟩
  | 32 => ⟨S_, .i32⟩
  | 33 => ⟨S640000, .i32⟩
  | 34 => ⟨S640000, .i1⟩
  | 35 => ⟨S_, .i32⟩
  | 36 => ⟨S640000, .i32⟩
  | 37 => ⟨S640000, .i32⟩
  | 38 => ⟨S640000, .i32⟩
  | 39 => ⟨S640000x1, .i32⟩
  | 40 => ⟨S1, .i32⟩
  | 41 => ⟨S_, .i32⟩
  | 42 => ⟨S640000x1, .i32⟩
  | 43 => ⟨S640000x1, .i1⟩
  | 44 => ⟨S1x1, .i32⟩
  | 45 => ⟨S640000x1, .i32⟩
  | 46 => ⟨S640000x1, .i1⟩
  | 47 => ⟨S640000x1, .i1⟩
  | 48 => ⟨S_, .i1⟩
  | 49 => ⟨S640000, .i1⟩
  | 50 => ⟨S640000x128, .f32⟩
  | 51 => ⟨S640000x128, .i1⟩
  | 52 => ⟨S_, .f32⟩
  | 53 => ⟨S640000x128, .f32⟩
  | 54 => ⟨S640000x128, .f32⟩
  | 55 => ⟨S640000x1, .f32⟩
  | 56 => ⟨S640000x128, .f32⟩
  | 57 => ⟨S640000x128, .f32⟩
  | 58 => ⟨S_, .f32⟩
  | 59 => ⟨S40000x128, .f32⟩
  | 60 => ⟨S640000x1, .i32⟩
  | 61 => ⟨S40000x128, .f32⟩
  | 62 => ⟨S_, .f32⟩
  | 63 => ⟨S40000x128, .f32⟩
  | 64 => ⟨S40000x128, .f32⟩
  | 65 => ⟨S1x128x128, .f32⟩
  | 66 => ⟨S128x128, .f32⟩
  | 67 => ⟨S1x128, .f32⟩
  | 68 => ⟨S128, .f32⟩
  | 69 => ⟨S1x128, .f32⟩
  | 70 => ⟨S40000x128, .f32⟩
  | 71 => ⟨S_, .i32⟩
  | 72 => ⟨S640000, .i32⟩
  | 73 => ⟨S640000, .i1⟩
  | 74 => ⟨S_, .i32⟩
  | 75 => ⟨S640000, .i32⟩
  | 76 => ⟨S640000, .i32⟩
  | 77 => ⟨S640000, .i32⟩
  | 78 => ⟨S640000x1, .i32⟩
  | 79 => ⟨S1, .i32⟩
  | 80 => ⟨S_, .i32⟩
  | 81 => ⟨S640000x1, .i32⟩
  | 82 => ⟨S640000x1, .i1⟩
  | 83 => ⟨S1x1, .i32⟩
  | 84 => ⟨S640000x1, .i32⟩
  | 85 => ⟨S640000x1, .i1⟩
  | 86 => ⟨S640000x1, .i1⟩
  | 87 => ⟨S_, .i1⟩
  | 88 => ⟨S640000, .i1⟩
  | 89 => ⟨S640000x128, .f32⟩
  | 90 => ⟨S640000x128, .i1⟩
  | 91 => ⟨S_, .f32⟩
  | 92 => ⟨S640000x128, .f32⟩
  | 93 => ⟨S640000x128, .f32⟩
  | 94 => ⟨S640000x1, .f32⟩
  | 95 => ⟨S640000x128, .f32⟩
  | 96 => ⟨S640000x128, .f32⟩
  | 97 => ⟨S_, .f32⟩
  | 98 => ⟨S40000x128, .f32⟩
  | 99 => ⟨S640000x1, .i32⟩
  | 100 => ⟨S40000x128, .f32⟩
  | 101 => ⟨S_, .f32⟩
  | 102 => ⟨S40000x128, .f32⟩
  | 103 => ⟨S40000x128, .f32⟩
  | 104 => ⟨S1x128x128, .f32⟩
  | 105 => ⟨S128x128, .f32⟩
  | 106 => ⟨S1x128, .f32⟩
  | 107 => ⟨S128, .f32⟩
  | 108 => ⟨S1x128, .f32⟩
  | 109 => ⟨S40000x128, .f32⟩
  | 110 => ⟨S_, .i32⟩
  | 111 => ⟨S640000, .i32⟩
  | 112 => ⟨S640000, .i1⟩
  | 113 => ⟨S_, .i32⟩
  | 114 => ⟨S640000, .i32⟩
  | 115 => ⟨S640000, .i32⟩
  | 116 => ⟨S640000, .i32⟩
  | 117 => ⟨S640000x1, .i32⟩
  | 118 => ⟨S1, .i32⟩
  | 119 => ⟨S_, .i32⟩
  | 120 => ⟨S640000x1, .i32⟩
  | 121 => ⟨S640000x1, .i1⟩
  | 122 => ⟨S1x1, .i32⟩
  | 123 => ⟨S640000x1, .i32⟩
  | 124 => ⟨S640000x1, .i1⟩
  | 125 => ⟨S640000x1, .i1⟩
  | 126 => ⟨S_, .i1⟩
  | 127 => ⟨S640000, .i1⟩
  | _ => ⟨S40000x7, .f32⟩

abbrev hbmTy0_1 (i : Nat) : BufTy := match i % 128 with
  | 0 => ⟨S640000x128, .f32⟩
  | 1 => ⟨S640000x128, .i1⟩
  | 2 => ⟨S_, .f32⟩
  | 3 => ⟨S640000x128, .f32⟩
  | 4 => ⟨S640000x128, .f32⟩
  | 5 => ⟨S640000x1, .f32⟩
  | 6 => ⟨S640000x128, .f32⟩
  | 7 => ⟨S640000x128, .f32⟩
  | 8 => ⟨S_, .f32⟩
  | 9 => ⟨S40000x128, .f32⟩
  | 10 => ⟨S640000x1, .i32⟩
  | 11 => ⟨S40000x128, .f32⟩
  | 12 => ⟨S_, .f32⟩
  | 13 => ⟨S40000x128, .f32⟩
  | 14 => ⟨S40000x128, .f32⟩
  | 15 => ⟨S1x128x128, .f32⟩
  | 16 => ⟨S128x128, .f32⟩
  | 17 => ⟨S1x128, .f32⟩
  | 18 => ⟨S128, .f32⟩
  | 19 => ⟨S1x128, .f32⟩
  | 20 => ⟨S40000x128, .f32⟩
  | 21 => ⟨S_, .i32⟩
  | 22 => ⟨S640000, .i32⟩
  | 23 => ⟨S640000, .i1⟩
  | 24 => ⟨S_, .i32⟩
  | 25 => ⟨S640000, .i32⟩
  | 26 => ⟨S640000, .i32⟩
  | 27 => ⟨S640000, .i32⟩
  | 28 => ⟨S640000x1, .i32⟩
  | 29 => ⟨S1, .i32⟩
  | 30 => ⟨S_, .i32⟩
  | 31 => ⟨S640000x1, .i32⟩
  | 32 => ⟨S640000x1, .i1⟩
  | 33 => ⟨S1x1, .i32⟩
  | 34 => ⟨S640000x1, .i32⟩
  | 35 => ⟨S640000x1, .i1⟩
  | 36 => ⟨S640000x1, .i1⟩
  | 37 => ⟨S_, .i1⟩
  | 38 => ⟨S640000, .i1⟩
  | 39 => ⟨S640000x128, .f32⟩
  | 40 => ⟨S640000x128, .i1⟩
  | 41 => ⟨S_, .f32⟩
  | 42 => ⟨S640000x128, .f32⟩
  | 43 => ⟨S640000x128, .f32⟩
  | 44 => ⟨S640000x1, .f32⟩
  | 45 => ⟨S640000x128, .f32⟩
  | 46 => ⟨S640000x128, .f32⟩
  | 47 => ⟨S_, .f32⟩
  | 48 => ⟨S40000x128, .f32⟩
  | 49 => ⟨S640000x1, .i32⟩
  | 50 => ⟨S40000x128, .f32⟩
  | 51 => ⟨S_, .f32⟩
  | 52 => ⟨S40000x128, .f32⟩
  | 53 => ⟨S40000x128, .f32⟩
  | 54 => ⟨S1x128x128, .f32⟩
  | 55 => ⟨S128x128, .f32⟩
  | 56 => ⟨S1x128, .f32⟩
  | 57 => ⟨S128, .f32⟩
  | 58 => ⟨S1x128, .f32⟩
  | 59 => ⟨S40000x128, .f32⟩
  | 60 => ⟨S_, .i32⟩
  | 61 => ⟨S640000, .i32⟩
  | 62 => ⟨S640000, .i1⟩
  | 63 => ⟨S_, .i32⟩
  | 64 => ⟨S640000, .i32⟩
  | 65 => ⟨S640000, .i32⟩
  | 66 => ⟨S640000, .i32⟩
  | 67 => ⟨S640000x1, .i32⟩
  | 68 => ⟨S1, .i32⟩
  | 69 => ⟨S_, .i32⟩
  | 70 => ⟨S640000x1, .i32⟩
  | 71 => ⟨S640000x1, .i1⟩
  | 72 => ⟨S1x1, .i32⟩
  | 73 => ⟨S640000x1, .i32⟩
  | 74 => ⟨S640000x1, .i1⟩
  | 75 => ⟨S640000x1, .i1⟩
  | 76 => ⟨S_, .i1⟩
  | 77 => ⟨S640000, .i1⟩
  | 78 => ⟨S640000x128, .f32⟩
  | 79 => ⟨S640000x128, .i1⟩
  | 80 => ⟨S_, .f32⟩
  | 81 => ⟨S640000x128, .f32⟩
  | 82 => ⟨S640000x128, .f32⟩
  | 83 => ⟨S640000x1, .f32⟩
  | 84 => ⟨S640000x128, .f32⟩
  | 85 => ⟨S640000x128, .f32⟩
  | 86 => ⟨S_, .f32⟩
  | 87 => ⟨S40000x128, .f32⟩
  | 88 => ⟨S640000x1, .i32⟩
  | 89 => ⟨S40000x128, .f32⟩
  | 90 => ⟨S_, .f32⟩
  | 91 => ⟨S40000x128, .f32⟩
  | 92 => ⟨S40000x128, .f32⟩
  | 93 => ⟨S128x3, .f32⟩
  | 94 => ⟨S1x3, .f32⟩
  | 95 => ⟨S128x1, .f32⟩
  | 96 => ⟨S1x1, .f32⟩
  | 97 => ⟨S40000x3, .f32⟩
  | 98 => ⟨S1x1, .f32⟩
  | 99 => ⟨S_, .f32⟩
  | 100 => ⟨S1x1, .f32⟩
  | 101 => ⟨S1x1, .i1⟩
  | _ => ⟨S40000x7, .f32⟩

abbrev hbmTy (i : Nat) : BufTy := match i / 128 with
  | 0 => hbmTy0_0 i
  | 1 => hbmTy0_1 i
  | _ => ⟨S40000x7, .f32⟩

abbrev bufTy : (tb : Table) → Fin (tcTables nBuf tb) → BufTy
  | .hbm, ⟨i, _⟩ => hbmTy i
  | .local _ .vmem, ⟨0, _⟩ => ⟨S5000x7, .f32⟩
  | .local _ .vmem, ⟨1, _⟩ => ⟨S5000x7, .f32⟩
  | .local _ .vmem, ⟨2, _⟩ => ⟨S7x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x3, .f32⟩
  | .local _ .vmem, ⟨39, _⟩ => ⟨S1x3, .f32⟩
  | .local _ .vmem, ⟨40, _⟩ => ⟨S128x1, .f32⟩
  | .local _ .vmem, ⟨41, _⟩ => ⟨S1x1, .f32⟩
  | .local _ .vmem, ⟨42, _⟩ => ⟨S5000x3, .f32⟩
  | .local _ .vmem, ⟨43, _⟩ => ⟨S5000x3, .f32⟩
  | .local _ .vmem, ⟨44, _⟩ => ⟨S1x1, .f32⟩
  | .local _ .vmem, ⟨45, _⟩ => ⟨S1x128, .f32⟩
  | _, _ => ⟨S40000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_call0_cst : Ref sig .tc := ⟨.hbm, 52, rfl⟩
abbrev main_call0_v15 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_1 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_call1_cst : Ref sig .tc := ⟨.hbm, 62, rfl⟩
abbrev main_call1_v0 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_cst_2 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_call3_cst : Ref sig .tc := ⟨.hbm, 101, rfl⟩
abbrev main_call3_v0 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_call4_c : Ref sig .tc := ⟨.hbm, 110, rfl⟩
abbrev main_call4_v0 : Ref sig .tc := ⟨.hbm, 111, rfl⟩
abbrev main_call4_v1 : Ref sig .tc := ⟨.hbm, 112, rfl⟩
abbrev main_call4_c_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_c_1 : Ref sig .tc := ⟨.hbm, 118, rfl⟩
abbrev main_call4_c_2 : Ref sig .tc := ⟨.hbm, 119, rfl⟩
abbrev main_call4_v6 : Ref sig .tc := ⟨.hbm, 120, rfl⟩
abbrev main_call4_v7 : Ref sig .tc := ⟨.hbm, 121, rfl⟩
abbrev main_call4_v8 : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_c_3 : Ref sig .tc := ⟨.hbm, 126, rfl⟩
abbrev main_call4_v12 : Ref sig .tc := ⟨.hbm, 127, rfl⟩
abbrev main_call4_v13 : Ref sig .tc := ⟨.hbm, 128, rfl⟩
abbrev main_call4_v14 : Ref sig .tc := ⟨.hbm, 129, rfl⟩
abbrev main_call4_cst : Ref sig .tc := ⟨.hbm, 130, rfl⟩
abbrev main_call4_v15 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_cst_3 : Ref sig .tc := ⟨.hbm, 136, rfl⟩
abbrev main_v51 : Ref sig .tc := ⟨.hbm, 137, rfl⟩
abbrev main_v52 : Ref sig .tc := ⟨.hbm, 138, rfl⟩
abbrev main_v53 : Ref sig .tc := ⟨.hbm, 139, rfl⟩
abbrev main_call5_cst : Ref sig .tc := ⟨.hbm, 140, rfl⟩
abbrev main_call5_v0 : Ref sig .tc := ⟨.hbm, 141, rfl⟩
abbrev main_v54 : Ref sig .tc := ⟨.hbm, 142, rfl⟩
abbrev main_v55 : Ref sig .tc := ⟨.hbm, 143, rfl⟩
abbrev main_v56 : Ref sig .tc := ⟨.hbm, 144, rfl⟩
abbrev main_v57 : Ref sig .tc := ⟨.hbm, 145, rfl⟩
abbrev main_v58 : Ref sig .tc := ⟨.hbm, 146, rfl⟩
abbrev main_v59 : Ref sig .tc := ⟨.hbm, 147, rfl⟩
abbrev main_v60 : Ref sig .tc := ⟨.hbm, 148, rfl⟩
abbrev main_call6_c : Ref sig .tc := ⟨.hbm, 149, rfl⟩
abbrev main_call6_v0 : Ref sig .tc := ⟨.hbm, 150, rfl⟩
abbrev main_call6_v1 : Ref sig .tc := ⟨.hbm, 151, rfl⟩
abbrev main_call6_c_0 : Ref sig .tc := ⟨.hbm, 152, rfl⟩
abbrev main_call6_v2 : Ref sig .tc := ⟨.hbm, 153, rfl⟩
abbrev main_call6_v3 : Ref sig .tc := ⟨.hbm, 154, rfl⟩
abbrev main_call6_v4 : Ref sig .tc := ⟨.hbm, 155, rfl⟩
abbrev main_call6_v5 : Ref sig .tc := ⟨.hbm, 156, rfl⟩
abbrev main_call6_c_1 : Ref sig .tc := ⟨.hbm, 157, rfl⟩
abbrev main_call6_c_2 : Ref sig .tc := ⟨.hbm, 158, rfl⟩
abbrev main_call6_v6 : Ref sig .tc := ⟨.hbm, 159, rfl⟩
abbrev main_call6_v7 : Ref sig .tc := ⟨.hbm, 160, rfl⟩
abbrev main_call6_v8 : Ref sig .tc := ⟨.hbm, 161, rfl⟩
abbrev main_call6_v9 : Ref sig .tc := ⟨.hbm, 162, rfl⟩
abbrev main_call6_v10 : Ref sig .tc := ⟨.hbm, 163, rfl⟩
abbrev main_call6_v11 : Ref sig .tc := ⟨.hbm, 164, rfl⟩
abbrev main_call6_c_3 : Ref sig .tc := ⟨.hbm, 165, rfl⟩
abbrev main_call6_v12 : Ref sig .tc := ⟨.hbm, 166, rfl⟩
abbrev main_call6_v13 : Ref sig .tc := ⟨.hbm, 167, rfl⟩
abbrev main_call6_v14 : Ref sig .tc := ⟨.hbm, 168, rfl⟩
abbrev main_call6_cst : Ref sig .tc := ⟨.hbm, 169, rfl⟩
abbrev main_call6_v15 : Ref sig .tc := ⟨.hbm, 170, rfl⟩
abbrev main_v61 : Ref sig .tc := ⟨.hbm, 171, rfl⟩
abbrev main_v62 : Ref sig .tc := ⟨.hbm, 172, rfl⟩
abbrev main_v63 : Ref sig .tc := ⟨.hbm, 173, rfl⟩
abbrev main_v64 : Ref sig .tc := ⟨.hbm, 174, rfl⟩
abbrev main_cst_4 : Ref sig .tc := ⟨.hbm, 175, rfl⟩
abbrev main_v65 : Ref sig .tc := ⟨.hbm, 176, rfl⟩
abbrev main_v66 : Ref sig .tc := ⟨.hbm, 177, rfl⟩
abbrev main_v67 : Ref sig .tc := ⟨.hbm, 178, rfl⟩
abbrev main_call7_cst : Ref sig .tc := ⟨.hbm, 179, rfl⟩
abbrev main_call7_v0 : Ref sig .tc := ⟨.hbm, 180, rfl⟩
abbrev main_v68 : Ref sig .tc := ⟨.hbm, 181, rfl⟩
abbrev main_v69 : Ref sig .tc := ⟨.hbm, 182, rfl⟩
abbrev main_v70 : Ref sig .tc := ⟨.hbm, 183, rfl⟩
abbrev main_v71 : Ref sig .tc := ⟨.hbm, 184, rfl⟩
abbrev main_v72 : Ref sig .tc := ⟨.hbm, 185, rfl⟩
abbrev main_v73 : Ref sig .tc := ⟨.hbm, 186, rfl⟩
abbrev main_v74 : Ref sig .tc := ⟨.hbm, 187, rfl⟩
abbrev main_call8_c : Ref sig .tc := ⟨.hbm, 188, rfl⟩
abbrev main_call8_v0 : Ref sig .tc := ⟨.hbm, 189, rfl⟩
abbrev main_call8_v1 : Ref sig .tc := ⟨.hbm, 190, rfl⟩
abbrev main_call8_c_0 : Ref sig .tc := ⟨.hbm, 191, rfl⟩
abbrev main_call8_v2 : Ref sig .tc := ⟨.hbm, 192, rfl⟩
abbrev main_call8_v3 : Ref sig .tc := ⟨.hbm, 193, rfl⟩
abbrev main_call8_v4 : Ref sig .tc := ⟨.hbm, 194, rfl⟩
abbrev main_call8_v5 : Ref sig .tc := ⟨.hbm, 195, rfl⟩
abbrev main_call8_c_1 : Ref sig .tc := ⟨.hbm, 196, rfl⟩
abbrev main_call8_c_2 : Ref sig .tc := ⟨.hbm, 197, rfl⟩
abbrev main_call8_v6 : Ref sig .tc := ⟨.hbm, 198, rfl⟩
abbrev main_call8_v7 : Ref sig .tc := ⟨.hbm, 199, rfl⟩
abbrev main_call8_v8 : Ref sig .tc := ⟨.hbm, 200, rfl⟩
abbrev main_call8_v9 : Ref sig .tc := ⟨.hbm, 201, rfl⟩
abbrev main_call8_v10 : Ref sig .tc := ⟨.hbm, 202, rfl⟩
abbrev main_call8_v11 : Ref sig .tc := ⟨.hbm, 203, rfl⟩
abbrev main_call8_c_3 : Ref sig .tc := ⟨.hbm, 204, rfl⟩
abbrev main_call8_v12 : Ref sig .tc := ⟨.hbm, 205, rfl⟩
abbrev main_call8_v13 : Ref sig .tc := ⟨.hbm, 206, rfl⟩
abbrev main_call8_v14 : Ref sig .tc := ⟨.hbm, 207, rfl⟩
abbrev main_call8_cst : Ref sig .tc := ⟨.hbm, 208, rfl⟩
abbrev main_call8_v15 : Ref sig .tc := ⟨.hbm, 209, rfl⟩
abbrev main_v75 : Ref sig .tc := ⟨.hbm, 210, rfl⟩
abbrev main_v76 : Ref sig .tc := ⟨.hbm, 211, rfl⟩
abbrev main_v77 : Ref sig .tc := ⟨.hbm, 212, rfl⟩
abbrev main_v78 : Ref sig .tc := ⟨.hbm, 213, rfl⟩
abbrev main_cst_5 : Ref sig .tc := ⟨.hbm, 214, rfl⟩
abbrev main_v79 : Ref sig .tc := ⟨.hbm, 215, rfl⟩
abbrev main_v80 : Ref sig .tc := ⟨.hbm, 216, rfl⟩
abbrev main_v81 : Ref sig .tc := ⟨.hbm, 217, rfl⟩
abbrev main_call9_cst : Ref sig .tc := ⟨.hbm, 218, rfl⟩
abbrev main_call9_v0 : Ref sig .tc := ⟨.hbm, 219, rfl⟩
abbrev main_v82 : Ref sig .tc := ⟨.hbm, 220, rfl⟩
abbrev main_v83 : Ref sig .tc := ⟨.hbm, 221, rfl⟩
abbrev main_v84 : Ref sig .tc := ⟨.hbm, 222, rfl⟩
abbrev main_v85 : Ref sig .tc := ⟨.hbm, 223, rfl⟩
abbrev main_v86 : Ref sig .tc := ⟨.hbm, 224, rfl⟩
abbrev main_v87_0 : Ref sig .tc := ⟨.hbm, 225, rfl⟩
abbrev main_v87_1 : Ref sig .tc := ⟨.hbm, 226, rfl⟩
abbrev main_cst_6 : Ref sig .tc := ⟨.hbm, 227, rfl⟩
abbrev main_v88 : Ref sig .tc := ⟨.hbm, 228, rfl⟩
abbrev main_v89 : Ref sig .tc := ⟨.hbm, 229, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg4_0 : Ref sig .tc := ⟨.vmem, 41, rfl⟩
abbrev cc6_stg5_0 : Ref sig .tc := ⟨.vmem, 42, rfl⟩
abbrev cc6_stg5_1 : Ref sig .tc := ⟨.vmem, 43, rfl⟩
abbrev cc6_stg6_0 : Ref sig .tc := ⟨.vmem, 44, rfl⟩
abbrev cc6_scratch0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem4_0 : DmaSem sig := 41
abbrev cc6_sem5_0 : DmaSem sig := 42
abbrev cc6_sem5_1 : DmaSem sig := 43
abbrev cc6_sem6_0 : DmaSem sig := 44

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8], ![false]⟩

def k6_cond2 (i : grid6.Coords) : BitVec 1 :=
  let arg0 : BitVec 32 := BitVec.ofNat 32 (i 0).val
  let c7_i32 : BitVec 32 := 7#32
  let v31 : BitVec 1 := Scalar.cmpi .eq arg0 c7_i32
  let v32 : BitVec 32 := Scalar.extui v31
  let c0_i32_16 : BitVec 32 := 0#32
  let v33 : BitVec 1 := Scalar.cmpi .ne v32 c0_i32_16
  v33

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x3 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x3 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x3 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  transposes_S128x7_S7x128_1_0 : S128x7.Transposes [1, 0] S7x128
  shapeCasts_S128_S1x128 : S128.ShapeCasts S1x128
  inb_S5000x7_S5000x7_0_0 : ∀ a, (![0, 0] : Fin 2 → Nat) a + S5000x7.size a ≤ S5000x7.size a
  h_S5000x7 : 0 < S5000x7.numel
  inb_S7x128_S7x128_0_0 : ∀ a, (![0, 0] : Fin 2 → Nat) a + S7x128.size a ≤ S7x128.size a
  h_S7x128 : 0 < S7x128.numel
  shapeCasts_S7x128_S7x128 : S7x128.ShapeCasts S7x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  transposes_S5x128x128_S5x128x128_0_2_1 : S5x128x128.Transposes [0, 2, 1] S5x128x128
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  transposes_S3x128_S128x3_1_0 : S3x128.Transposes [1, 0] S128x3
  shapeCasts_S3_S1x3 : S3.ShapeCasts S1x3
  transposes_S1x128_S128x1_1_0 : S1x128.Transposes [1, 0] S128x1
  shapeCasts_S1_S1x1 : S1.ShapeCasts S1x1
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  reduces_S5000x3_S5000 : S5000x3.Reduces [1] S5000
  shapeCasts_S5000_S5000x1 : S5000.ShapeCasts S5000x1
  broadcasts_S5000x1_S5000x3 : S5000x1.Broadcasts S5000x3
  inb_S5000x3_S5000x3_0_0 : ∀ a, (![0, 0] : Fin 2 → Nat) a + S5000x3.size a ≤ S5000x3.size a
  h_S5000x3 : 0 < S5000x3.numel
  reduces_S5000x128_S128 : S5000x128.Reduces [0] S128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  bcast_S_S1x1 : S_.BroadcastsInDim S1x1 (![] : Fin 0 → Fin S1x1.rank)
  dot_S5000x7_S7x128_S5000x128_1_0_0_1_n_n_wf : DotDims.WF S5000x7 S7x128 S5000x128 [1] [0] [0] [1] [] []
  dot_S5000x128_S128x128_S5000x128_1_0_0_1_n_n_wf : DotDims.WF S5000x128 S128x128 S5000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S5000x128_S128x3_S5000x3_1_0_0_1_n_n_wf : DotDims.WF S5000x128 S128x3 S5000x3 [1] [0] [0] [1] [] []
  dot_S1x128_S128x1_S1x1_1_0_0_1_n_n_wf : DotDims.WF S1x128 S128x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x7.size a ≤ S40000x7.size a
  hwx0_0 : ∀ i : grid0.Coords, EltTy.bits .f32 = 32 ∨ (Rect.block (s := S40000x7) S5000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x128.size a ≤ S7x128.size a
  hwx0_1 : ∀ i : grid0.Coords, EltTy.bits .f32 = 32 ∨ (Rect.block (s := S7x128) S7x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S40000x128.size a
  hwx0_3 : ∀ i : grid0.Coords, EltTy.bits .f32 = 32 ∨ (Rect.block (s := S40000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S40000x128.size a
  hwx1_3 : ∀ i : grid1.Coords, EltTy.bits .f32 = 32 ∨ (Rect.block (s := S40000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S40000x128.size a
  hwx2_3 : ∀ i : grid2.Coords, EltTy.bits .f32 = 32 ∨ (Rect.block (s := S40000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S40000x128.size a
  hwx3_0 : ∀ i : grid3.Coords, EltTy.bits .f32 = 32 ∨ (Rect.block (s := S40000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S40000x128.size a
  hwx3_3 : ∀ i : grid3.Coords, EltTy.bits .f32 = 32 ∨ (Rect.block (s := S40000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S40000x128.size a
  hwx4_0 : ∀ i : grid4.Coords, EltTy.bits .f32 = 32 ∨ (Rect.block (s := S40000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S40000x128.size a
  hwx4_3 : ∀ i : grid4.Coords, EltTy.bits .f32 = 32 ∨ (Rect.block (s := S40000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S40000x128.size a
  hwx5_0 : ∀ i : grid5.Coords, EltTy.bits .f32 = 32 ∨ (Rect.block (s := S40000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S40000x128.size a
  hwx5_3 : ∀ i : grid5.Coords, EltTy.bits .f32 = 32 ∨ (Rect.block (s := S40000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S40000x128.size a
  hwx6_0 : ∀ i : grid6.Coords, EltTy.bits .f32 = 32 ∨ (Rect.block (s := S40000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x3.size a ≤ S128x3.size a
  hwx6_1 : ∀ i : grid6.Coords, EltTy.bits .f32 = 32 ∨ (Rect.block (s := S128x3) S128x3.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x3.size a ≤ S1x3.size a
  hwx6_2 : ∀ i : grid6.Coords, EltTy.bits .f32 = 32 ∨ (Rect.block (s := S1x3) S1x3.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x1.size a ≤ S128x1.size a
  hwx6_3 : ∀ i : grid6.Coords, EltTy.bits .f32 = 32 ∨ (Rect.block (s := S128x1) S128x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x3.size a ≤ S40000x3.size a
  hwx6_5 : ∀ i : grid6.Coords, EltTy.bits .f32 = 32 ∨ (Rect.block (s := S40000x3) S5000x3.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)

variable [Facts₀]

def dot_S5000x7_S7x128_S5000x128_1_0_0_1_n_n : DotDims S5000x7 S7x128 S5000x128 where
  lhsContracting := [1]
  rhsContracting := [0]
  lhsNonContracting := [0]
  rhsNonContracting := [1]
  lhsBatch := []
  rhsBatch := []
  wf := dot_S5000x7_S7x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

abbrev win0_0 : Pipeline.Window sig grid0 :=
  Pipeline.Window.ofSpec (Memref.whole main_arg0) S5000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S7x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v54) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v68) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v73) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v74) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v82) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v83) S128x3.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v84) S1x3.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v85) S128x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v86) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v87_0) S5000x3.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v87_1) S1x1.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev idle6 : Fin 7 → grid6.Coords → Bool := fun | 0 => fun _ => false | 1 => fun _ => false | 2 => fun _ => false | 3 => fun _ => false | 4 => fun _ => false | 5 => fun _ => false | 6 => fun i => !(k6_cond2 i == 1#1) | ⟨_ + 7, h⟩ => absurd h (Nat.not_lt.2 (Nat.le_add_left _ _))

class Facts : Prop extends Facts₀ where

variable [Facts]
-- ==== ReferenceIdeal.lean ====
abbrev S40000x7 : Shape := ⟨2, ![40000, 7]⟩
abbrev S2x640000 : Shape := ⟨2, ![2, 640000]⟩
abbrev S640000 : Shape := ⟨1, ![640000]⟩
abbrev S128x7 : Shape := ⟨2, ![128, 7]⟩
abbrev S128 : Shape := ⟨1, ![128]⟩
abbrev S5x128x128 : Shape := ⟨3, ![5, 128, 128]⟩
abbrev S5x128 : Shape := ⟨2, ![5, 128]⟩
abbrev S3x128 : Shape := ⟨2, ![3, 128]⟩
abbrev S3 : Shape := ⟨1, ![3]⟩
abbrev S1x128 : Shape := ⟨2, ![1, 128]⟩
abbrev S1 : Shape := ⟨1, ![1]⟩
abbrev S1x640000 : Shape := ⟨2, ![1, 640000]⟩
abbrev S_ : Shape := ⟨0, ![]⟩
abbrev S7x128 : Shape := ⟨2, ![7, 128]⟩
abbrev S40000x128 : Shape := ⟨2, ![40000, 128]⟩
abbrev S640000x1 : Shape := ⟨2, ![640000, 1]⟩
abbrev S640000x128 : Shape := ⟨2, ![640000, 128]⟩
abbrev S1x128x128 : Shape := ⟨3, ![1, 128, 128]⟩
abbrev S128x128 : Shape := ⟨2, ![128, 128]⟩
abbrev S128x3 : Shape := ⟨2, ![128, 3]⟩
abbrev S40000x3 : Shape := ⟨2, ![40000, 3]⟩
abbrev S1x3 : Shape := ⟨2, ![1, 3]⟩
abbrev S40000 : Shape := ⟨1, ![40000]⟩
abbrev S40000x1 : Shape := ⟨2, ![40000, 1]⟩
abbrev S128x1 : Shape := ⟨2, ![128, 1]⟩
abbrev S1x1 : Shape := ⟨2, ![1, 1]⟩

abbrev nBuf : Space → Nat
  | .hbm => 199
  | .vmem => 0
  | .smem => 0
  | _ => 0

abbrev hbmTy0_0 (i : Nat) : BufTy := match i % 128 with
  | 0 => ⟨S40000x7, .f32⟩
  | 1 => ⟨S2x640000, .i32⟩
  | 2 => ⟨S640000, .f32⟩
  | 3 => ⟨S128x7, .f32⟩
  | 4 => ⟨S128, .f32⟩
  | 5 => ⟨S5x128x128, .f32⟩
  | 6 => ⟨S5x128, .f32⟩
  | 7 => ⟨S3x128, .f32⟩
  | 8 => ⟨S3, .f32⟩
  | 9 => ⟨S1x128, .f32⟩
  | 10 => ⟨S1, .f32⟩
  | 11 => ⟨S1x640000, .i32⟩
  | 12 => ⟨S640000, .i32⟩
  | 13 => ⟨S1x640000, .i32⟩
  | 14 => ⟨S640000, .i32⟩
  | 15 => ⟨S_, .f32⟩
  | 16 => ⟨S640000, .f32⟩
  | 17 => ⟨S640000, .f32⟩
  | 18 => ⟨S640000, .f32⟩
  | 19 => ⟨S_, .f32⟩
  | 20 => ⟨S640000, .f32⟩
  | 21 => ⟨S640000, .f32⟩
  | 22 => ⟨S7x128, .f32⟩
  | 23 => ⟨S40000x128, .f32⟩
  | 24 => ⟨S1x128, .f32⟩
  | 25 => ⟨S40000x128, .f32⟩
  | 26 => ⟨S40000x128, .f32⟩
  | 27 => ⟨S_, .i32⟩
  | 28 => ⟨S640000, .i32⟩
  | 29 => ⟨S640000, .i1⟩
  | 30 => ⟨S_, .i32⟩
  | 31 => ⟨S640000, .i32⟩
  | 32 => ⟨S640000, .i32⟩
  | 33 => ⟨S640000, .i32⟩
  | 34 => ⟨S640000x1, .i32⟩
  | 35 => ⟨S640000x128, .f32⟩
  | 36 => ⟨S1x128x128, .f32⟩
  | 37 => ⟨S128x128, .f32⟩
  | 38 => ⟨S128x128, .f32⟩
  | 39 => ⟨S640000x128, .f32⟩
  | 40 => ⟨S1x128, .f32⟩
  | 41 => ⟨S128, .f32⟩
  | 42 => ⟨S1x128, .f32⟩
  | 43 => ⟨S640000x128, .f32⟩
  | 44 => ⟨S640000x128, .f32⟩
  | 45 => ⟨S640000x1, .f32⟩
  | 46 => ⟨S640000x128, .f32⟩
  | 47 => ⟨S640000x128, .f32⟩
  | 48 => ⟨S_, .f32⟩
  | 49 => ⟨S40000x128, .f32⟩
  | 50 => ⟨S640000x1, .i32⟩
  | 51 => ⟨S40000x128, .f32⟩
  | 52 => ⟨S_, .f32⟩
  | 53 => ⟨S40000x128, .f32⟩
  | 54 => ⟨S40000x128, .f32⟩
  | 55 => ⟨S_, .i32⟩
  | 56 => ⟨S640000, .i32⟩
  | 57 => ⟨S640000, .i1⟩
  | 58 => ⟨S_, .i32⟩
  | 59 => ⟨S640000, .i32⟩
  | 60 => ⟨S640000, .i32⟩
  | 61 => ⟨S640000, .i32⟩
  | 62 => ⟨S640000x1, .i32⟩
  | 63 => ⟨S640000x128, .f32⟩
  | 64 => ⟨S1x128x128, .f32⟩
  | 65 => ⟨S128x128, .f32⟩
  | 66 => ⟨S128x128, .f32⟩
  | 67 => ⟨S640000x128, .f32⟩
  | 68 => ⟨S1x128, .f32⟩
  | 69 => ⟨S128, .f32⟩
  | 70 => ⟨S1x128, .f32⟩
  | 71 => ⟨S640000x128, .f32⟩
  | 72 => ⟨S640000x128, .f32⟩
  | 73 => ⟨S640000x1, .f32⟩
  | 74 => ⟨S640000x128, .f32⟩
  | 75 => ⟨S640000x128, .f32⟩
  | 76 => ⟨S_, .f32⟩
  | 77 => ⟨S40000x128, .f32⟩
  | 78 => ⟨S640000x1, .i32⟩
  | 79 => ⟨S40000x128, .f32⟩
  | 80 => ⟨S_, .f32⟩
  | 81 => ⟨S40000x128, .f32⟩
  | 82 => ⟨S40000x128, .f32⟩
  | 83 => ⟨S_, .i32⟩
  | 84 => ⟨S640000, .i32⟩
  | 85 => ⟨S640000, .i1⟩
  | 86 => ⟨S_, .i32⟩
  | 87 => ⟨S640000, .i32⟩
  | 88 => ⟨S640000, .i32⟩
  | 89 => ⟨S640000, .i32⟩
  | 90 => ⟨S640000x1, .i32⟩
  | 91 => ⟨S640000x128, .f32⟩
  | 92 => ⟨S1x128x128, .f32⟩
  | 93 => ⟨S128x128, .f32⟩
  | 94 => ⟨S128x128, .f32⟩
  | 95 => ⟨S640000x128, .f32⟩
  | 96 => ⟨S1x128, .f32⟩
  | 97 => ⟨S128, .f32⟩
  | 98 => ⟨S1x128, .f32⟩
  | 99 => ⟨S640000x128, .f32⟩
  | 100 => ⟨S640000x128, .f32⟩
  | 101 => ⟨S640000x1, .f32⟩
  | 102 => ⟨S640000x128, .f32⟩
  | 103 => ⟨S640000x128, .f32⟩
  | 104 => ⟨S_, .f32⟩
  | 105 => ⟨S40000x128, .f32⟩
  | 106 => ⟨S640000x1, .i32⟩
  | 107 => ⟨S40000x128, .f32⟩
  | 108 => ⟨S_, .f32⟩
  | 109 => ⟨S40000x128, .f32⟩
  | 110 => ⟨S40000x128, .f32⟩
  | 111 => ⟨S_, .i32⟩
  | 112 => ⟨S640000, .i32⟩
  | 113 => ⟨S640000, .i1⟩
  | 114 => ⟨S_, .i32⟩
  | 115 => ⟨S640000, .i32⟩
  | 116 => ⟨S640000, .i32⟩
  | 117 => ⟨S640000, .i32⟩
  | 118 => ⟨S640000x1, .i32⟩
  | 119 => ⟨S640000x128, .f32⟩
  | 120 => ⟨S1x128x128, .f32⟩
  | 121 => ⟨S128x128, .f32⟩
  | 122 => ⟨S128x128, .f32⟩
  | 123 => ⟨S640000x128, .f32⟩
  | 124 => ⟨S1x128, .f32⟩
  | 125 => ⟨S128, .f32⟩
  | 126 => ⟨S1x128, .f32⟩
  | 127 => ⟨S640000x128, .f32⟩
  | _ => ⟨S40000x7, .f32⟩

abbrev hbmTy0_1 (i : Nat) : BufTy := match i % 128 with
  | 0 => ⟨S640000x128, .f32⟩
  | 1 => ⟨S640000x1, .f32⟩
  | 2 => ⟨S640000x128, .f32⟩
  | 3 => ⟨S640000x128, .f32⟩
  | 4 => ⟨S_, .f32⟩
  | 5 => ⟨S40000x128, .f32⟩
  | 6 => ⟨S640000x1, .i32⟩
  | 7 => ⟨S40000x128, .f32⟩
  | 8 => ⟨S_, .f32⟩
  | 9 => ⟨S40000x128, .f32⟩
  | 10 => ⟨S40000x128, .f32⟩
  | 11 => ⟨S_, .i32⟩
  | 12 => ⟨S640000, .i32⟩
  | 13 => ⟨S640000, .i1⟩
  | 14 => ⟨S_, .i32⟩
  | 15 => ⟨S640000, .i32⟩
  | 16 => ⟨S640000, .i32⟩
  | 17 => ⟨S640000, .i32⟩
  | 18 => ⟨S640000x1, .i32⟩
  | 19 => ⟨S640000x128, .f32⟩
  | 20 => ⟨S1x128x128, .f32⟩
  | 21 => ⟨S128x128, .f32⟩
  | 22 => ⟨S128x128, .f32⟩
  | 23 => ⟨S640000x128, .f32⟩
  | 24 => ⟨S1x128, .f32⟩
  | 25 => ⟨S128, .f32⟩
  | 26 => ⟨S1x128, .f32⟩
  | 27 => ⟨S640000x128, .f32⟩
  | 28 => ⟨S640000x128, .f32⟩
  | 29 => ⟨S640000x1, .f32⟩
  | 30 => ⟨S640000x128, .f32⟩
  | 31 => ⟨S640000x128, .f32⟩
  | 32 => ⟨S_, .f32⟩
  | 33 => ⟨S40000x128, .f32⟩
  | 34 => ⟨S640000x1, .i32⟩
  | 35 => ⟨S40000x128, .f32⟩
  | 36 => ⟨S_, .f32⟩
  | 37 => ⟨S40000x128, .f32⟩
  | 38 => ⟨S40000x128, .f32⟩
  | 39 => ⟨S128x3, .f32⟩
  | 40 => ⟨S40000x3, .f32⟩
  | 41 => ⟨S1x3, .f32⟩
  | 42 => ⟨S40000x3, .f32⟩
  | 43 => ⟨S40000x3, .f32⟩
  | 44 => ⟨S_, .f32⟩
  | 45 => ⟨S40000, .f32⟩
  | 46 => ⟨S_, .f32⟩
  | 47 => ⟨S40000, .f32⟩
  | 48 => ⟨S40000, .f32⟩
  | 49 => ⟨S40000x1, .f32⟩
  | 50 => ⟨S40000x3, .f32⟩
  | 51 => ⟨S40000x3, .f32⟩
  | 52 => ⟨S40000x3, .f32⟩
  | 53 => ⟨S_, .f32⟩
  | 54 => ⟨S40000, .f32⟩
  | 55 => ⟨S40000x1, .f32⟩
  | 56 => ⟨S40000x3, .f32⟩
  | 57 => ⟨S40000x3, .f32⟩
  | 58 => ⟨S_, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S128x1, .f32⟩
  | 65 => ⟨S1x1, .f32⟩
  | 66 => ⟨S1x1, .f32⟩
  | 67 => ⟨S1x1, .f32⟩
  | 68 => ⟨S_, .f32⟩
  | 69 => ⟨S1x1, .f32⟩
  | 70 => ⟨S1x1, .i1⟩
  | _ => ⟨S40000x7, .f32⟩

abbrev hbmTy (i : Nat) : BufTy := match i / 128 with
  | 0 => hbmTy0_0 i
  | 1 => hbmTy0_1 i
  | _ => ⟨S40000x7, .f32⟩

abbrev bufTy : (tb : Table) → Fin (tcTables nBuf tb) → BufTy
  | .hbm, ⟨i, _⟩ => hbmTy i
  | _, _ => ⟨S40000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_cst : Ref sig .tc := ⟨.hbm, 52, rfl⟩
abbrev main_call0_v0 : Ref sig .tc := ⟨.hbm, 53, rfl⟩
abbrev main_v36 : Ref sig .tc := ⟨.hbm, 54, rfl⟩
abbrev main_c_3 : Ref sig .tc := ⟨.hbm, 55, rfl⟩
abbrev main_v37 : Ref sig .tc := ⟨.hbm, 56, rfl⟩
abbrev main_v38 : Ref sig .tc := ⟨.hbm, 57, rfl⟩
abbrev main_c_4 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_call1_cst : Ref sig .tc := ⟨.hbm, 80, rfl⟩
abbrev main_call1_v0 : Ref sig .tc := ⟨.hbm, 81, rfl⟩
abbrev main_v59 : Ref sig .tc := ⟨.hbm, 82, rfl⟩
abbrev main_c_6 : Ref sig .tc := ⟨.hbm, 83, rfl⟩
abbrev main_v60 : Ref sig .tc := ⟨.hbm, 84, rfl⟩
abbrev main_v61 : Ref sig .tc := ⟨.hbm, 85, rfl⟩
abbrev main_c_7 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_8 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_call2_cst : Ref sig .tc := ⟨.hbm, 108, rfl⟩
abbrev main_call2_v0 : Ref sig .tc := ⟨.hbm, 109, rfl⟩
abbrev main_v82 : Ref sig .tc := ⟨.hbm, 110, rfl⟩
abbrev main_c_9 : Ref sig .tc := ⟨.hbm, 111, rfl⟩
abbrev main_v83 : Ref sig .tc := ⟨.hbm, 112, rfl⟩
abbrev main_v84 : Ref sig .tc := ⟨.hbm, 113, rfl⟩
abbrev main_c_10 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_11 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_call3_cst : Ref sig .tc := ⟨.hbm, 136, rfl⟩
abbrev main_call3_v0 : Ref sig .tc := ⟨.hbm, 137, rfl⟩
abbrev main_v105 : Ref sig .tc := ⟨.hbm, 138, rfl⟩
abbrev main_c_12 : Ref sig .tc := ⟨.hbm, 139, rfl⟩
abbrev main_v106 : Ref sig .tc := ⟨.hbm, 140, rfl⟩
abbrev main_v107 : Ref sig .tc := ⟨.hbm, 141, rfl⟩
abbrev main_c_13 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_14 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_call4_cst : Ref sig .tc := ⟨.hbm, 164, rfl⟩
abbrev main_call4_v0 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_cst_15 : Ref sig .tc := ⟨.hbm, 172, rfl⟩
abbrev main_v134 : Ref sig .tc := ⟨.hbm, 173, rfl⟩
abbrev main_cst_16 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_17 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_18 : Ref sig .tc := ⟨.hbm, 186, rfl⟩
abbrev main_v145 : Ref sig .tc := ⟨.hbm, 187, rfl⟩
abbrev main_v146 : Ref sig .tc := ⟨.hbm, 188, rfl⟩
abbrev main_cst_19 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_cst_20 : Ref sig .tc := ⟨.hbm, 196, rfl⟩
abbrev main_v153 : Ref sig .tc := ⟨.hbm, 197, rfl⟩
abbrev main_v154 : Ref sig .tc := ⟨.hbm, 198, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  transposes_S128x7_S7x128_1_0 : S128x7.Transposes [1, 0] S7x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S640000_S640000x1_0 : S640000.BroadcastsInDim S640000x1 (![0] : Fin 1 → Fin S640000x1.rank)
  slices_S5x128x128_S1x128x128_0_0_0 : S5x128x128.Slices ![0, 0, 0] S1x128x128
  shapeCasts_S1x128x128_S128x128 : S1x128x128.ShapeCasts S128x128
  transposes_S128x128_S128x128_1_0 : S128x128.Transposes [1, 0] S128x128
  slices_S5x128_S1x128_0_0 : S5x128.Slices ![0, 0] S1x128
  shapeCasts_S1x128_S128 : S1x128.ShapeCasts S128
  bcast_S1x128_S640000x128_0_1 : S1x128.BroadcastsInDim S640000x128 (![0, 1] : Fin 2 → Fin S640000x128.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  transposes_S3x128_S128x3_1_0 : S3x128.Transposes [1, 0] S128x3
  bcast_S3_S1x3_1 : S3.BroadcastsInDim S1x3 (![1] : Fin 1 → Fin S1x3.rank)
  bcast_S1x3_S40000x3_0_1 : S1x3.BroadcastsInDim S40000x3 (![0, 1] : Fin 2 → Fin S40000x3.rank)
  reducesTo_S40000x3_S40000_d1 : S40000x3.ReducesTo [1] S40000
  h_S_ : 0 < S_.numel
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x3_0_1 : S40000x1.BroadcastsInDim S40000x3 (![0, 1] : Fin 2 → Fin S40000x3.rank)
  reducesTo_S40000x128_S128_d0 : S40000x128.ReducesTo [0] S128
  bcast_S_S1x128 : S_.BroadcastsInDim S1x128 (![] : Fin 0 → Fin S1x128.rank)
  transposes_S1x128_S128x1_1_0 : S1x128.Transposes [1, 0] S128x1
  bcast_S1_S1x1_1 : S1.BroadcastsInDim S1x1 (![1] : Fin 1 → Fin S1x1.rank)
  bcast_S_S1x1 : S_.BroadcastsInDim S1x1 (![] : Fin 0 → Fin S1x1.rank)
  dot_S40000x7_S7x128_S40000x128_1_0_0_1_n_n_wf : DotDims.WF S40000x7 S7x128 S40000x128 [1] [0] [0] [1] [] []
  gather_S40000x128_S640000x1_S640000x128_1_0_n_n_0_1_1128_wf : GatherDims.WF S40000x128 S640000x1 S640000x128 [1] [0] [] [0] [] 1 ![1, 128]
  dot_S640000x128_S128x128_S640000x128_1_0_0_1_n_n_wf : DotDims.WF S640000x128 S128x128 S640000x128 [1] [0] [0] [1] [] []
  scatter_S40000x128_S640000x1_S640000x128_1_0_0_1_wf : ScatterDims.WF S40000x128 S640000x1 S640000x128 [1] [0] [0] 1
  dot_S40000x128_S128x3_S40000x3_1_0_0_1_n_n_wf : DotDims.WF S40000x128 S128x3 S40000x3 [1] [0] [0] [1] [] []
  dot_S1x128_S128x1_S1x1_1_0_0_1_n_n_wf : DotDims.WF S1x128 S128x1 S1x1 [1] [0] [0] [1] [] []

variable [Facts₀]

def dot_S40000x7_S7x128_S40000x128_1_0_0_1_n_n : DotDims S40000x7 S7x128 S40000x128 where
  lhsContracting := [1]
  rhsContracting := [0]
  lhsNonContracting := [0]
  rhsNonContracting := [1]
  lhsBatch := []
  rhsBatch := []
  wf := dot_S40000x7_S7x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x3_S40000x3_1_0_0_1_n_n : DotDims S40000x128 S128x3 S40000x3 where
  lhsContracting := [1]
  rhsContracting := [0]
  lhsNonContracting := [0]
  rhsNonContracting := [1]
  lhsBatch := []
  rhsBatch := []
  wf := dot_S40000x128_S128x3_S40000x3_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

class Facts : Prop extends Facts₀ where

variable [Facts]
-- ==== Proof.K.Reg0.lean ====
import proofs.«405767_j7868380086676_1_alg».proof.Proof.Gen.Kernel.Launch
import proofs.«405767_j7868380086676_1_alg».proof.Proof.Gen.Kernel.Skeleton
import proofs.«405767_j7868380086676_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x7 := Rect.unit (s := S5000x7) ![0, 0] S5000x7.size inb_S5000x7_S5000x7_0_0
abbrev r0_1 : Rect S7x128 := Rect.unit (s := S7x128) ![0, 0] S7x128.size inb_S7x128_S7x128_0_0
abbrev r0_2 : Rect S1x128 := Rect.unit (s := S1x128) ![0, 0] S1x128.size inb_S1x128_S1x128_0_0
abbrev r0_3 : Rect S5000x128 := Rect.unit (s := S5000x128) ![0, 0] S5000x128.size inb_S5000x128_S5000x128_0_0

def out0_3 (x0 : Vec F S5000x7 .f32) (x1 : Vec F S7x128 .f32) (x2 : Vec F S1x128 .f32) : Vec F S5000x128 .f32 :=
  View.canon [⟨r0_3, k0_pay1 (View.ld x0 r0_0) (View.ld x1 r0_1) (View.ld x2 r0_2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; rfl) t d).trans rfl

/-- Three whole loads, then one store whose rectangle is the whole shape: the array stored into ends as the canonical view of that one piece; the rest is framed. -/
theorem body_obligation0 (c : Dev nD) : BodyObligation (dat0 (F := F) V c) (defs₀ (F := F)) Variants.none () Set.univ := fun t => by
  rw [bigSep_W0, bigSep_W0]
  simp only [before0_0, before0_1, before0_2, after0_0, after0_1, after0_2, after0_3]
  rw [show (dat0 V c).Φ t.succ = (dat0 V c).Φ t.castSucc from rfl, show (dat0 V c).owesAt () t.succ = (dat0 V c).owesAt () t.castSucc from rfl]
  change _ ⊢ wp _ _ _ (bodyAt0 t) _
  unfold bodyAt0 out0_3 owns
  simp only [cc0__affine_kernel_f32_eq_skeleton]; unfold cc0__affine_kernel_f32_skel
  generalize iblk0 V c 0 t = x0, iblk0 V c 1 t = x1, iblk0 V c 2 t = x2
  iintro ⟨HΦ, Ho, ⟨%_, %f0, %hf0, H0⟩, ⟨%_, %f1, %hf1, H1⟩, ⟨%_, %f2, %hf2, H2⟩, ⟨%_, %f3, -, H3⟩⟩
  subst hf0 hf1 hf2
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled [⟨r0_3, _⟩] S5000x128.size (by rfl))

end Cert.Kernel.Hand

end
-- ==== Proof.K.RegAffine.lean ====
import proofs.«405767_j7868380086676_1_alg».proof.Proof.Gen.Kernel.Launch
import proofs.«405767_j7868380086676_1_alg».proof.Proof.Gen.Kernel.Skeleton
import proofs.«405767_j7868380086676_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.Kernel Cert.Kernel.Gen

variable {F : FTy → Type} [FloatOps F]

local notation "𝕄" => MT nD τ sig Unit (Elt F) ℕ (UR sig nD τ) ℕ

abbrev rX : Rect S5000x128 := Rect.unit (s := S5000x128) ![0, 0] S5000x128.size inb_S5000x128_S5000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- Three whole loads, then one store whose rectangle is the whole shape: the array stored into ends as the canonical view of that one piece; the rest is framed. -/
theorem affine_body {ker pay} (hk : ker = cc1__affine_kernel_bf16_skel (F := F)) (hp : pay = k1_pay1 (F := F)) {c : Dev nD} {i a1 h1 a2 h2 a3 h3 a4 h4}
    {x0 : Vec F S5000x128 .f32} {x1 : Vec F S128x128 .f32} {x2 : Vec F S1x128 .f32} {D0 D1 D2 D3 : Type} {f : D3 → Vec F S5000x128 .f32} {Φ o : sProp 𝕄} :
    iprop(Φ ∗ o ∗ (∃ _d : D0, owns (c : Thread nD τ) a1 fullShare x0) ∗ (∃ _d : D1, owns (c : Thread nD τ) a2 fullShare x1)
        ∗ (∃ _d : D2, owns (c : Thread nD τ) a3 fullShare x2) ∗ (∃ d, owns (c : Thread nD τ) a4 fullShare (f d)))
      ⊢ wp frame (wpE (defs₀ (F := F)) Variants.none c none) Set.univ (ker i a1 h1 a2 h2 a3 h3 a4 h4) fun _ =>
        iprop(Φ ∗ o ∗ owns (c : Thread nD τ) a1 fullShare x0 ∗ owns (c : Thread nD τ) a2 fullShare x1 ∗ owns (c : Thread nD τ) a3 fullShare x2
          ∗ owns (c : Thread nD τ) a4 fullShare (View.canon [⟨rX, pay (View.ld x0 rX) (View.ld x1 rW) (View.ld x2 rB)⟩])) := by
  subst hk hp
  unfold cc1__affine_kernel_bf16_skel owns
  iintro ⟨HΦ, Ho, ⟨%_, %f0, %hf0, H0⟩, ⟨%_, %f1, %hf1, H1⟩, ⟨%_, %f2, %hf2, H2⟩, ⟨%_, %f3, -, H3⟩⟩
  subst hf0 hf1 hf2
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled [⟨rX, _⟩] S5000x128.size (by rfl))

end Cert.Kernel.Hand

end
-- ==== Proof.K.Reg1.lean ====
import proofs.«405767_j7868380086676_1_alg».proof.Proof.K.RegAffine

noncomputable section

namespace Cert.Kernel.Hand

open Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S5000x128 .f32) (x1 : Vec F S128x128 .f32) (x2 : Vec F S1x128 .f32) : Vec F S5000x128 .f32 :=
  View.canon [⟨rX, k1_pay1 (View.ld x0 rX) (View.ld x1 rW) (View.ld x2 rB)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; rfl) t d).trans rfl

theorem body_obligation1 (c : Dev nD) : BodyObligation (dat1 (F := F) V c) (defs₀ (F := F)) Variants.none () Set.univ := fun t => by
  rw [bigSep_W1, bigSep_W1]
  simp only [before1_0, before1_1, before1_2, after1_0, after1_1, after1_2, after1_3]
  change _ ⊢ wp _ _ _ (bodyAt1 t) _
  exact affine_body (F := F) (cc1__affine_kernel_bf16_eq_skeleton.trans rfl) rfl

end Cert.Kernel.Hand

end
-- ==== Proof.K.Reg2.lean ====
import proofs.«405767_j7868380086676_1_alg».proof.Proof.K.RegAffine

noncomputable section

namespace Cert.Kernel.Hand

open Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_3 (x0 : Vec F S5000x128 .f32) (x1 : Vec F S128x128 .f32) (x2 : Vec F S1x128 .f32) : Vec F S5000x128 .f32 :=
  View.canon [⟨rX, k2_pay1 (View.ld x0 rX) (View.ld x1 rW) (View.ld x2 rB)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; rfl) t d).trans rfl

theorem body_obligation2 (c : Dev nD) : BodyObligation (dat2 (F := F) V c) (defs₀ (F := F)) Variants.none () Set.univ := fun t => by
  rw [bigSep_W2, bigSep_W2]
  simp only [before2_0, before2_1, before2_2, after2_0, after2_1, after2_2, after2_3]
  change _ ⊢ wp _ _ _ (bodyAt2 t) _
  exact affine_body (F := F) (cc2__affine_kernel_bf16_eq_skeleton.trans rfl) rfl

end Cert.Kernel.Hand

end
-- ==== Proof.K.Reg3.lean ====
import proofs.«405767_j7868380086676_1_alg».proof.Proof.K.RegAffine

noncomputable section

namespace Cert.Kernel.Hand

open Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_3 (x0 : Vec F S5000x128 .f32) (x1 : Vec F S128x128 .f32) (x2 : Vec F S1x128 .f32) : Vec F S5000x128 .f32 :=
  View.canon [⟨rX, k3_pay1 (View.ld x0 rX) (View.ld x1 rW) (View.ld x2 rB)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; rfl) t d).trans rfl

theorem body_obligation3 (c : Dev nD) : BodyObligation (dat3 (F := F) V c) (defs₀ (F := F)) Variants.none () Set.univ := fun t => by
  rw [bigSep_W3, bigSep_W3]
  simp only [before3_0, before3_1, before3_2, after3_0, after3_1, after3_2, after3_3]
  change _ ⊢ wp _ _ _ (bodyAt3 t) _
  exact affine_body (F := F) (cc3__affine_kernel_bf16_eq_skeleton.trans rfl) rfl

end Cert.Kernel.Hand

end
-- ==== Proof.K.Reg4.lean ====
import proofs.«405767_j7868380086676_1_alg».proof.Proof.K.RegAffine

noncomputable section

namespace Cert.Kernel.Hand

open Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_3 (x0 : Vec F S5000x128 .f32) (x1 : Vec F S128x128 .f32) (x2 : Vec F S1x128 .f32) : Vec F S5000x128 .f32 :=
  View.canon [⟨rX, k4_pay1 (View.ld x0 rX) (View.ld x1 rW) (View.ld x2 rB)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; rfl) t d).trans rfl

theorem body_obligation4 (c : Dev nD) : BodyObligation (dat4 (F := F) V c) (defs₀ (F := F)) Variants.none () Set.univ := fun t => by
  rw [bigSep_W4, bigSep_W4]
  simp only [before4_0, before4_1, before4_2, after4_0, after4_1, after4_2, after4_3]
  change _ ⊢ wp _ _ _ (bodyAt4 t) _
  exact affine_body (F := F) (cc4__affine_kernel_bf16_eq_skeleton.trans rfl) rfl

end Cert.Kernel.Hand

end
-- ==== Proof.K.Reg5.lean ====
import proofs.«405767_j7868380086676_1_alg».proof.Proof.K.RegAffine

noncomputable section

namespace Cert.Kernel.Hand

open Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_3 (x0 : Vec F S5000x128 .f32) (x1 : Vec F S128x128 .f32) (x2 : Vec F S1x128 .f32) : Vec F S5000x128 .f32 :=
  View.canon [⟨rX, k5_pay1 (View.ld x0 rX) (View.ld x1 rW) (View.ld x2 rB)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; rfl) t d).trans rfl

theorem body_obligation5 (c : Dev nD) : BodyObligation (dat5 (F := F) V c) (defs₀ (F := F)) Variants.none () Set.univ := fun t => by
  rw [bigSep_W5, bigSep_W5]
  simp only [before5_0, before5_1, before5_2, after5_0, after5_1, after5_2, after5_3]
  change _ ⊢ wp _ _ _ (bodyAt5 t) _
  exact affine_body (F := F) (cc5__affine_kernel_bf16_eq_skeleton.trans rfl) rfl

end Cert.Kernel.Hand

end
-- ==== Proof.K.Reg6.lean ====
import proofs.«405767_j7868380086676_1_alg».proof.Proof.Gen.Kernel.Launch
import proofs.«405767_j7868380086676_1_alg».proof.Proof.Gen.Kernel.Skeleton
import proofs.«405767_j7868380086676_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S5000x128 := Rect.unit (s := S5000x128) ![0, 0] S5000x128.size inb_S5000x128_S5000x128_0_0
abbrev r6_1 : Rect S128x3 := Rect.unit (s := S128x3) ![0, 0] S128x3.size inb_S128x3_S128x3_0_0
abbrev r6_2 : Rect S1x3 := Rect.unit (s := S1x3) ![0, 0] S1x3.size inb_S1x3_S1x3_0_0
abbrev r6_3 : Rect S128x1 := Rect.unit (s := S128x1) ![0, 0] S128x1.size inb_S128x1_S128x1_0_0
abbrev r6_4 : Rect S1x1 := Rect.unit (s := S1x1) ![0, 0] S1x1.size inb_S1x1_S1x1_0_0
abbrev r6_5 : Rect S5000x3 := Rect.unit (s := S5000x3) ![0, 0] S5000x3.size inb_S5000x3_S5000x3_0_0
abbrev r6_s : Rect S1x128 := Rect.unit (s := S1x128) ![0, 0] S1x128.size inb_S1x128_S1x128_0_0

def out6_5 (x0 : Vec F S5000x128 .f32) (x1 : Vec F S128x3 .f32) (x2 : Vec F S1x3 .f32) : Vec F S5000x3 .f32 :=
  View.canon [⟨r6_5, k6_pay3 (View.ld x0 r6_0) (View.ld x1 r6_1) (View.ld x2 r6_2)⟩]

def out6_6 (s : Vec F S1x128 .f32) (x3 : Vec F S128x1 .f32) (x4 : Vec F S1x1 .f32) : Vec F S1x1 .f32 :=
  View.canon [⟨r6_4, k6_pay5 (View.ld s r6_s) (View.ld x3 r6_3) (View.ld x4 r6_4)⟩]

def acc6_zero : Vec F S1x128 .f32 := View.canon [⟨r6_s, k6_pay1 (F := F)⟩]

def acc6_step (x0 : Vec F S5000x128 .f32) (s : Vec F S1x128 .f32) : Vec F S1x128 .f32 :=
  View.canon [⟨r6_s, k6_pay4 (View.ld x0 r6_0) (View.ld s r6_s)⟩]

theorem cover6_5 (p0 : Vec F S5000x3 .f32) (y : S5000x3.Idx) :
    ∃ pc ∈ ([⟨r6_5, p0⟩] : List (View.Piece (Elt F) S5000x3 .f32)), y ∈ pc.1.set :=
  View.cover_of_tiled [⟨r6_5, p0⟩] S5000x3.size (by rfl) y

theorem cover6_6 (p0 : Vec F S1x1 .f32) (y : S1x1.Idx) :
    ∃ pc ∈ ([⟨r6_4, p0⟩] : List (View.Piece (Elt F) S1x1 .f32)), y ∈ pc.1.set :=
  View.cover_of_tiled [⟨r6_4, p0⟩] S1x1.size (by rfl) y

theorem cover6_s (p0 : Vec F S1x128 .f32) (y : S1x128.Idx) :
    ∃ pc ∈ ([⟨r6_s, p0⟩] : List (View.Piece (Elt F) S1x128 .f32)), y ∈ pc.1.set :=
  View.cover_of_tiled [⟨r6_s, p0⟩] S1x128.size (by rfl) y

theorem cover6_s' (p0 : Vec F S1x128 .f32) (L : List (View.Piece (Elt F) S1x128 .f32)) (y : S1x128.Idx) :
    ∃ pc ∈ (⟨r6_s, p0⟩ :: L : List (View.Piece (Elt F) S1x128 .f32)), y ∈ pc.1.set := by
  obtain ⟨pc, hm, hy⟩ := cover6_s (F := F) p0 y
  rw [List.mem_singleton] at hm; subst hm
  exact ⟨_, List.mem_cons_self, hy⟩

theorem canon6_s_top (p0 : Vec F S1x128 .f32) (L : List (View.Piece (Elt F) S1x128 .f32)) :
    View.canon (⟨r6_s, p0⟩ :: L) = View.canon [⟨r6_s, p0⟩] := by
  funext y
  obtain ⟨pc, hm, hy⟩ := cover6_s (F := F) p0 y
  rw [List.mem_singleton] at hm; subst hm
  obtain ⟨x, rfl⟩ := r6_s.exists_idx_of_mem hy
  exact (View.canon_cons_emb r6_s p0 L x).trans (View.canon_cons_emb r6_s p0 [] x).symm

abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val % 8 = 0 :=
  (by decide +kernel : ∀ t : Fin grid6.N, cond6_0 (grid6.coords t) ↔ t.val % 8 = 0)

abbrev cond6_1 (i : grid6.Coords) : Prop := k6_cond2 i = 1#1
theorem hcond6_1 : ∀ t : Fin cfg6.N, cond6_1 (grid6.coords t) ↔ t.val % 8 = 7 :=
  (by decide +kernel : ∀ t : Fin grid6.N, cond6_1 (grid6.coords t) ↔ t.val % 8 = 7)

section
variable {c : Dev nD} {i : grid6.Coords}
  {a1 : Memref sig .tc .vmem S5000x128 .f32} {h1 : a1.IsWhole} {a2 : Memref sig .tc .vmem S128x3 .f32} {h2 : a2.IsWhole}
  {a3 : Memref sig .tc .vmem S1x3 .f32} {h3 : a3.IsWhole} {a4 : Memref sig .tc .vmem S128x1 .f32} {h4 : a4.IsWhole}
  {a5 : Memref sig .tc .vmem S1x1 .f32} {h5 : a5.IsWhole} {a6 : Memref sig .tc .vmem S5000x3 .f32} {h6 : a6.IsWhole}
  {a7 : Memref sig .tc .vmem S1x1 .f32} {h7 : a7.IsWhole} {a8 : Memref sig .tc .vmem S1x128 .f32} {h8 : a8.IsWhole}

/-- At the first point the accumulator is reset and then stepped; the second output is left as found. -/
theorem head6_first {x0 : Vec F S5000x128 .f32} {x1 : Vec F S128x3 .f32} {x2 : Vec F S1x3 .f32} {x3 : Vec F S128x1 .f32} {x4 : Vec F S1x1 .f32}
    {D0 D1 D2 D3 D4 D5 D6 : Type} {f5 : D5 → Vec F S5000x3 .f32} {f6 : D6 → Vec F S1x1 .f32} {R G o : sProp 𝕄} (hc0 : cond6_0 i) (hc1 : ¬cond6_1 i) :
    iprop(((iprop(∃ d, owns (c : Thread nD τ) a8 fullShare d) ∗ R) ∗ G) ∗ o ∗ (∃ _d : D0, owns (c : Thread nD τ) a1 fullShare x0) ∗ (∃ _d : D1, owns (c : Thread nD τ) a2 fullShare x1) ∗ (∃ _d : D2, owns (c : Thread nD τ) a3 fullShare x2)
        ∗ (∃ _d : D3, owns (c : Thread nD τ) a4 fullShare x3) ∗ (∃ _d : D4, owns (c : Thread nD τ) a5 fullShare x4) ∗ (∃ d, owns (c : Thread nD τ) a6 fullShare (f5 d)) ∗ (∃ d, owns (c : Thread nD τ) a7 fullShare (f6 d)))
      ⊢ wp frame (wpE (defs₀ (F := F)) Variants.none c none) Set.univ (cc6__head_kernel i a1 h1 a2 h2 a3 h3 a4 h4 a5 h5 a6 h6 a7 h7 a8 h8) fun _ =>
        iprop(((owns (c : Thread nD τ) a8 fullShare (acc6_step x0 (acc6_zero (F := F))) ∗ R) ∗ G) ∗ o ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4
          ∗ owns (c : Thread nD τ) a6 fullShare (out6_5 x0 x1 x2) ∗ (∃ d, owns (c : Thread nD τ) a7 fullShare (f6 d))) := by
  simp only [cc6__head_kernel_eq_skeleton]; unfold cc6__head_kernel_skel
  simp only [k6_part1_eq_skeleton]; unfold k6_part1_skel
  unfold owns
  iintro ⟨⟨⟨⟨%ds, %fs, -, HS⟩, HR⟩, Hg⟩, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, -, H5⟩, ⟨%d6, %g6, %hf6, H6⟩⟩
  subst hf0 hf1 hf2 hf3 hf4
  sl_exec (disch := first | sl_exact hc0 | sl_exact hc1)
  sl_step
  isplitl [HS HR Hg]
  · isplitl [HS HR]; swap; · iexact Hg
    isplitl [HS]; swap; · iexact HR
    iexists _; isplitr
    swap; · iexact HS
    ipureintro
    unfold head6_first.sl.v24 head6_first.sl.HS_1
    refine (View.read_writes_eq_canon _ _ _ (cover6_s' _ _)).trans ((canon6_s_top _ _).trans ?_)
    unfold acc6_step acc6_zero
    rw [View.readCov_eq_canon_ld _ _ _ (cover6_s _)]
    rfl
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover6_5 _)
  iexists d6, g6; isplitr; · ipureintro; exact hf6
  iexact H6

/-- At a middle point the accumulator is stepped; the second output is left as found. -/
theorem head6_mid {xs : Vec F S1x128 .f32} {x0 : Vec F S5000x128 .f32} {x1 : Vec F S128x3 .f32} {x2 : Vec F S1x3 .f32} {x3 : Vec F S128x1 .f32} {x4 : Vec F S1x1 .f32}
    {D0 D1 D2 D3 D4 D5 D6 : Type} {f5 : D5 → Vec F S5000x3 .f32} {f6 : D6 → Vec F S1x1 .f32} {R G o : sProp 𝕄} (hc0 : ¬cond6_0 i) (hc1 : ¬cond6_1 i) :
    iprop(((owns (c : Thread nD τ) a8 fullShare xs ∗ R) ∗ G) ∗ o ∗ (∃ _d : D0, owns (c : Thread nD τ) a1 fullShare x0) ∗ (∃ _d : D1, owns (c : Thread nD τ) a2 fullShare x1) ∗ (∃ _d : D2, owns (c : Thread nD τ) a3 fullShare x2)
        ∗ (∃ _d : D3, owns (c : Thread nD τ) a4 fullShare x3) ∗ (∃ _d : D4, owns (c : Thread nD τ) a5 fullShare x4) ∗ (∃ d, owns (c : Thread nD τ) a6 fullShare (f5 d)) ∗ (∃ d, owns (c : Thread nD τ) a7 fullShare (f6 d)))
      ⊢ wp frame (wpE (defs₀ (F := F)) Variants.none c none) Set.univ (cc6__head_kernel i a1 h1 a2 h2 a3 h3 a4 h4 a5 h5 a6 h6 a7 h7 a8 h8) fun _ =>
        iprop(((owns (c : Thread nD τ) a8 fullShare (acc6_step x0 xs) ∗ R) ∗ G) ∗ o ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4
          ∗ owns (c : Thread nD τ) a6 fullShare (out6_5 x0 x1 x2) ∗ (∃ d, owns (c : Thread nD τ) a7 fullShare (f6 d))) := by
  simp only [cc6__head_kernel_eq_skeleton]; unfold cc6__head_kernel_skel
  simp only [k6_part1_eq_skeleton]; unfold k6_part1_skel
  unfold owns
  iintro ⟨⟨⟨⟨%fs, %hfs, HS⟩, HR⟩, Hg⟩, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, -, H5⟩, ⟨%d6, %g6, %hf6, H6⟩⟩
  subst hf0 hf1 hf2 hf3 hf4 hfs
  sl_exec (disch := first | sl_exact hc0 | sl_exact hc1)
  sl_step
  isplitl [HS HR Hg]
  · isplitl [HS HR]; swap; · iexact Hg
    isplitl [HS]; swap; · iexact HR
    iexists _; isplitr
    swap; · iexact HS
    ipureintro
    exact View.read_writes_eq_canon _ _ _ (cover6_s _)
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover6_5 _)
  iexists d6, g6; isplitr; · ipureintro; exact hf6
  iexact H6

/-- At the last point the accumulator is stepped and the second output is computed from it. -/
theorem head6_last {xs : Vec F S1x128 .f32} {x0 : Vec F S5000x128 .f32} {x1 : Vec F S128x3 .f32} {x2 : Vec F S1x3 .f32} {x3 : Vec F S128x1 .f32} {x4 : Vec F S1x1 .f32}
    {D0 D1 D2 D3 D4 D5 D6 : Type} {f5 : D5 → Vec F S5000x3 .f32} {f6 : D6 → Vec F S1x1 .f32} {R G o : sProp 𝕄} (hc0 : ¬cond6_0 i) (hc1 : cond6_1 i) :
    iprop(((owns (c : Thread nD τ) a8 fullShare xs ∗ R) ∗ G) ∗ o ∗ (∃ _d : D0, owns (c : Thread nD τ) a1 fullShare x0) ∗ (∃ _d : D1, owns (c : Thread nD τ) a2 fullShare x1) ∗ (∃ _d : D2, owns (c : Thread nD τ) a3 fullShare x2)
        ∗ (∃ _d : D3, owns (c : Thread nD τ) a4 fullShare x3) ∗ (∃ _d : D4, owns (c : Thread nD τ) a5 fullShare x4) ∗ (∃ d, owns (c : Thread nD τ) a6 fullShare (f5 d)) ∗ (∃ d, owns (c : Thread nD τ) a7 fullShare (f6 d)))
      ⊢ wp frame (wpE (defs₀ (F := F)) Variants.none c none) Set.univ (cc6__head_kernel i a1 h1 a2 h2 a3 h3 a4 h4 a5 h5 a6 h6 a7 h7 a8 h8) fun _ =>
        iprop(((owns (c : Thread nD τ) a8 fullShare (acc6_step x0 xs) ∗ R) ∗ G) ∗ o ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4
          ∗ owns (c : Thread nD τ) a6 fullShare (out6_5 x0 x1 x2) ∗ owns (c : Thread nD τ) a7 fullShare (out6_6 (acc6_step x0 xs) x3 x4)) := by
  simp only [cc6__head_kernel_eq_skeleton]; unfold cc6__head_kernel_skel
  simp only [k6_part1_eq_skeleton]; unfold k6_part1_skel
  unfold owns
  iintro ⟨⟨⟨⟨%fs, %hfs, HS⟩, HR⟩, Hg⟩, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, -, H5⟩, ⟨%d6, %g6, -, H6⟩⟩
  subst hf0 hf1 hf2 hf3 hf4 hfs
  sl_exec (disch := first | sl_exact hc0 | sl_exact hc1)
  sl_step
  isplitl [HS HR Hg]
  · isplitl [HS HR]; swap; · iexact Hg
    isplitl [HS]; swap; · iexact HR
    iexists _; isplitr
    swap; · iexact HS
    ipureintro
    unfold head6_last.sl.HS_1
    exact View.read_writes_eq_canon _ _ _ (cover6_s _)
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover6_5 _)
  iexists _; isplitr
  swap; · iexact H6
  ipureintro
  unfold head6_last.sl.v34 head6_last.sl.HS_1
  refine (View.read_writes_eq_canon _ _ _ (cover6_6 _)).trans ?_
  unfold out6_6 acc6_step
  rw [View.readCov_eq_canon_ld _ _ _ (cover6_s _)]
  rfl

end

def acc6 (c : Dev nD) : ℕ → Vec F S1x128 .f32
  | 0 => acc6_step (iblk6 V c 0 ⟨0, by rw [show cfg6.N = 8 from N_6]; decide⟩) (acc6_zero (F := F))
  | n + 1 => if h : n + 1 < cfg6.N then acc6_step (iblk6 V c 0 ⟨n + 1, h⟩) (acc6 c n) else acc6 c n

theorem acc6_first (c : Dev nD) (t : Fin cfg6.N) (h : t.val = 0) :
    acc6 V c t.val = acc6_step (iblk6 V c 0 t) (acc6_zero (F := F)) := by
  obtain ⟨n, hn⟩ := t
  dsimp only at h; subst h; rfl

theorem acc6_next (c : Dev nD) (t : Fin cfg6.N) (h : t.val ≠ 0) :
    acc6 V c t.val = acc6_step (iblk6 V c 0 t) (acc6 V c (t.val - 1)) := by
  obtain ⟨n, hn⟩ := t
  cases n with
  | zero => exact absurd rfl h
  | succ n => exact dif_pos hn

abbrev scM6 : Memref sig .tc .vmem S1x128 .f32 := Memref.whole cc6_scratch0

def Φ6 (c : Dev nD) : ℕ → sProp 𝕄
  | 0 => Pipeline.ΦA spec6 c
  | n + 1 => iprop((owns (c : Thread nD τ) scM6 fullShare (acc6 V c n) ∗ Pipeline.scopedRestBut (Ix := Unit) (Name := ℕ) (U := UR sig nD τ) (Lvl := ℕ) (Val := Elt F) spec6 c [cc6_scratch0]) ∗ (∃ r, prngReg c r))

theorem Φ6_of_zero (c : Dev nD) (n : ℕ) (h : n = 0) : Φ6 V c n = Pipeline.ΦA spec6 c := by subst h; rfl

theorem Φ6_pos (c : Dev nD) (n : ℕ) (h : n ≠ 0) :
    Φ6 V c n = iprop((owns (c : Thread nD τ) scM6 fullShare (acc6 V c (n - 1)) ∗ Pipeline.scopedRestBut (Ix := Unit) (Name := ℕ) (U := UR sig nD τ) (Lvl := ℕ) (Val := Elt F) spec6 c [cc6_scratch0]) ∗ (∃ r, prngReg c r)) := by
  cases n with
  | zero => exact absurd rfl h
  | succ n => rfl

theorem PhiA6_eq (c : Dev nD) :
    (Pipeline.ΦA spec6 c : sProp 𝕄)
      = iprop((iprop(∃ d, owns (c : Thread nD τ) scM6 fullShare d) ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t)
    | ⟨6, _⟩ => out6_6 (acc6 V c t.val) (iblk6 V c 3 t) (iblk6 V c 4 t)
  Φ t := Φ6 V c t.val
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) := by dsimp only [dat6]
theorem after6_6 (c : Dev nD) (t : Fin cfg6.N) :
    (dat6 V c).after 6 t = out6_6 (acc6 V c t.val) (iblk6 V c 3 t) (iblk6 V c 4 t) := by dsimp only [dat6]

theorem Φ6_castSucc (c : Dev nD) (t : Fin cfg6.N) : (dat6 V c).Φ t.castSucc = Φ6 V c t.val := by
  dsimp only [dat6]; simp only [Fin.coe_castSucc]

theorem Φ6_succ (c : Dev nD) (t : Fin cfg6.N) :
    (dat6 V c).Φ t.succ = iprop((owns (c : Thread nD τ) scM6 fullShare (acc6 V c t.val) ∗ Pipeline.scopedRestBut (Ix := Unit) (Name := ℕ) (U := UR sig nD τ) (Lvl := ℕ) (Val := Elt F) spec6 c [cc6_scratch0]) ∗ (∃ r, prngReg c r)) := rfl

theorem Φ6_last_le (c : Dev nD) : (dat6 V c).Φ (Fin.last cfg6.N) ⊢ Pipeline.ΦA spec6 c := by
  rw [show (dat6 V c).Φ (Fin.last cfg6.N) = Φ6 V c cfg6.N from rfl,
    Φ6_pos V c _ (by rw [show cfg6.N = 8 from N_6]; decide), PhiA6_eq]
  iintro ⟨⟨HS, HR⟩, Hg⟩
  isplitl [HS HR]
  · isplitl [HS]
    · iexists _; iexact HS
    iexact HR
  iexact Hg

theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; rfl) t d).trans rfl
theorem before6_3 (c : Dev nD) (t : Fin cfg6.N) (d) : (dat6 V c).before 3 t d = iblk6 V c 3 t :=
  ((dat6 V c).before_in_eq_fetched 3 rfl (fun _ => rfl) (fun _ _ _ => rfl) (fun t => by rw [after6_3]; rfl) t d).trans rfl
theorem before6_4 (c : Dev nD) (t : Fin cfg6.N) (d) : (dat6 V c).before 4 t d = iblk6 V c 4 t :=
  ((dat6 V c).before_in_eq_fetched 4 rfl (fun _ => rfl) (fun _ _ _ => rfl) (fun t => by rw [after6_4]; rfl) t d).trans rfl

theorem idleAt6_6 : ∀ t : Fin cfg6.N, ¬cond6_1 (grid6.coords t) → cfg6.idle 6 (grid6.coords t) = true := by decide +kernel
theorem noFlush6_6 : ∀ t : Fin cfg6.N, ¬cond6_1 (grid6.coords t) → (cfg6.win 6).flush t = false := by decide +kernel
theorem liveAt6_6 : ∀ t : Fin cfg6.N, cond6_1 (grid6.coords t) → cfg6.idle 6 (grid6.coords t) = false := by decide +kernel

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t)

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).owesAt () t.succ = (dat6 V c).owesAt () t.castSucc from rfl, Φ6_succ V c t, Φ6_castSucc V c t]
  rw [show (dat6 V c).leavesExact 0 t = owns (c : Thread nD τ) (st6_0 t) fullShare ((dat6 V c).after 0 t) from rfl, after6_0, show (dat6 V c).leavesExact 1 t = owns (c : Thread nD τ) (st6_1 t) fullShare ((dat6 V c).after 1 t) from rfl, after6_1,
    show (dat6 V c).leavesExact 2 t = owns (c : Thread nD τ) (st6_2 t) fullShare ((dat6 V c).after 2 t) from rfl, after6_2, show (dat6 V c).leavesExact 3 t = owns (c : Thread nD τ) (st6_3 t) fullShare ((dat6 V c).after 3 t) from rfl, after6_3,
    show (dat6 V c).leavesExact 4 t = owns (c : Thread nD τ) (st6_4 t) fullShare ((dat6 V c).after 4 t) from rfl, after6_4, show (dat6 V c).leavesExact 5 t = owns (c : Thread nD τ) (st6_5 t) fullShare ((dat6 V c).after 5 t) from rfl, after6_5]
  have hN : t.val < 8 := lt_of_lt_of_eq t.isLt (show cfg6.N = 8 from N_6)
  by_cases h0 : t.val % 8 = 0
  ·
    have hz : t.val = 0 := by omega
    have hc0 : cond6_0 (grid6.coords t) := (hcond6_0 t).mpr h0
    have hc1 : ¬cond6_1 (grid6.coords t) := fun h => by have := (hcond6_1 t).mp h; omega
    rw [Dat.leavesExact_idle (dat6 V c) 6 t (idleAt6_6 t hc1) (noFlush6_6 t hc1)]
    rw [Φ6_of_zero V c _ hz, PhiA6_eq, acc6_first V c t hz]
    exact head6_first hc0 hc1
  · have hnz : t.val ≠ 0 := by omega
    have hc0 : ¬cond6_0 (grid6.coords t) := fun h => h0 ((hcond6_0 t).mp h)
    rw [Φ6_pos V c _ hnz, acc6_next V c t hnz]
    by_cases h1 : t.val % 8 = 7
    ·
      have hc1 : cond6_1 (grid6.coords t) := (hcond6_1 t).mpr h1
      rw [show (dat6 V c).leavesExact 6 t = owns (c : Thread nD τ) (st6_6 t) fullShare ((dat6 V c).after 6 t) from by
        unfold Dat.leavesExact; rw [liveAt6_6 t hc1], after6_6, acc6_next V c t hnz]
      exact head6_last hc0 hc1
    ·
      have hc1 : ¬cond6_1 (grid6.coords t) := fun h => h1 ((hcond6_1 t).mp h)
      rw [Dat.leavesExact_idle (dat6 V c) 6 t (idleAt6_6 t hc1) (noFlush6_6 t hc1)]
      exact head6_mid hc0 hc1

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Stages.lean ====
import proofs.«405767_j7868380086676_1_alg».proof.Proof.Gen.Kernel.Regions
import proofs.«405767_j7868380086676_1_alg».proof.Proof.K.Reg0
import proofs.«405767_j7868380086676_1_alg».proof.Proof.K.Reg1
import proofs.«405767_j7868380086676_1_alg».proof.Proof.K.Reg2
import proofs.«405767_j7868380086676_1_alg».proof.Proof.K.Reg3
import proofs.«405767_j7868380086676_1_alg».proof.Proof.K.Reg4
import proofs.«405767_j7868380086676_1_alg».proof.Proof.K.Reg5
import proofs.«405767_j7868380086676_1_alg».proof.Proof.K.Reg6

set_option maxRecDepth 16384

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]
variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

def X0 (c : Dev nD) : Valuation τ sig (Elt F) := V0 m c

def X1 (c : Dev nD) : Valuation τ sig (Elt F) := StableHlo.after hostOps0 (X0 m c)

def o2_main_v11 (c : Dev nD) : Buf (Elt F) ((c : Thread nD τ).loc main_v11) := (dat0 (rd (X1 m)) c).arrAt 3 cfg0.N

def X2 (c : Dev nD) : Valuation τ sig (Elt F) := Function.update (X1 m c) main_v11 (o2_main_v11 m c)

def X3 (c : Dev nD) : Valuation τ sig (Elt F) := StableHlo.after hostOps1 (X2 m c)

def o4_main_v18 (c : Dev nD) : Buf (Elt F) ((c : Thread nD τ).loc main_v18) := (dat1 (rd (X3 m)) c).arrAt 3 cfg1.N

def X4 (c : Dev nD) : Valuation τ sig (Elt F) := Function.update (X3 m c) main_v18 (o4_main_v18 m c)

def X5 (c : Dev nD) : Valuation τ sig (Elt F) := StableHlo.after hostOps2 (X4 m c)

def X6 (c : Dev nD) : Valuation τ sig (Elt F) := StableHlo.after hostOps2_1 (X5 m c)

def X7 (c : Dev nD) : Valuation τ sig (Elt F) := StableHlo.after hostOps2_2 (X6 m c)

def X8 (c : Dev nD) : Valuation τ sig (Elt F) := StableHlo.after hostOps2_3 (X7 m c)

def o9_main_v32 (c : Dev nD) : Buf (Elt F) ((c : Thread nD τ).loc main_v32) := (dat2 (rd (X8 m)) c).arrAt 3 cfg2.N

def X9 (c : Dev nD) : Valuation τ sig (Elt F) := Function.update (X8 m c) main_v32 (o9_main_v32 m c)

def X10 (c : Dev nD) : Valuation τ sig (Elt F) := StableHlo.after hostOps3 (X9 m c)

def X11 (c : Dev nD) : Valuation τ sig (Elt F) := StableHlo.after hostOps3_1 (X10 m c)

def X12 (c : Dev nD) : Valuation τ sig (Elt F) := StableHlo.after hostOps3_2 (X11 m c)

def X13 (c : Dev nD) : Valuation τ sig (Elt F) := StableHlo.after hostOps3_3 (X12 m c)

def o14_main_v46 (c : Dev nD) : Buf (Elt F) ((c : Thread nD τ).loc main_v46) := (dat3 (rd (X13 m)) c).arrAt 3 cfg3.N

def X14 (c : Dev nD) : Valuation τ sig (Elt F) := Function.update (X13 m c) main_v46 (o14_main_v46 m c)

def X15 (c : Dev nD) : Valuation τ sig (Elt F) := StableHlo.after hostOps4 (X14 m c)

def X16 (c : Dev nD) : Valuation τ sig (Elt F) := StableHlo.after hostOps4_1 (X15 m c)

def X17 (c : Dev nD) : Valuation τ sig (Elt F) := StableHlo.after hostOps4_2 (X16 m c)

def X18 (c : Dev nD) : Valuation τ sig (Elt F) := StableHlo.after hostOps4_3 (X17 m c)

def o19_main_v60 (c : Dev nD) : Buf (Elt F) ((c : Thread nD τ).loc main_v60) := (dat4 (rd (X18 m)) c).arrAt 3 cfg4.N

def X19 (c : Dev nD) : Valuation τ sig (Elt F) := Function.update (X18 m c) main_v60 (o19_main_v60 m c)

def X20 (c : Dev nD) : Valuation τ sig (Elt F) := StableHlo.after hostOps5 (X19 m c)

def X21 (c : Dev nD) : Valuation τ sig (Elt F) := StableHlo.after hostOps5_1 (X20 m c)

def X22 (c : Dev nD) : Valuation τ sig (Elt F) := StableHlo.after hostOps5_2 (X21 m c)

def X23 (c : Dev nD) : Valuation τ sig (Elt F) := StableHlo.after hostOps5_3 (X22 m c)

def o24_main_v74 (c : Dev nD) : Buf (Elt F) ((c : Thread nD τ).loc main_v74) := (dat5 (rd (X23 m)) c).arrAt 3 cfg5.N

def X24 (c : Dev nD) : Valuation τ sig (Elt F) := Function.update (X23 m c) main_v74 (o24_main_v74 m c)

def X25 (c : Dev nD) : Valuation τ sig (Elt F) := StableHlo.after hostOps6 (X24 m c)

def X26 (c : Dev nD) : Valuation τ sig (Elt F) := StableHlo.after hostOps6_1 (X25 m c)

def X27 (c : Dev nD) : Valuation τ sig (Elt F) := StableHlo.after hostOps6_2 (X26 m c)

def X28 (c : Dev nD) : Valuation τ sig (Elt F) := StableHlo.after hostOps6_3 (X27 m c)

def o29_main_v87_0 (c : Dev nD) : Buf (Elt F) ((c : Thread nD τ).loc main_v87_0) := (dat6 (rd (X28 m)) c).arrAt 5 cfg6.N

def o29_main_v87_1 (c : Dev nD) : Buf (Elt F) ((c : Thread nD τ).loc main_v87_1) := (dat6 (rd (X28 m)) c).arrAt 6 cfg6.N

def X29 (c : Dev nD) : Valuation τ sig (Elt F) := Function.update (Function.update (X28 m c) main_v87_0 (o29_main_v87_0 m c)) main_v87_1 (o29_main_v87_1 m c)

def X30 (c : Dev nD) : Valuation τ sig (Elt F) := StableHlo.after hostOps7 (X29 m c)

open Classical in

def outs : Outs (F := F) := fun J r c =>
  if h : J = 2 ∧ r = main_v11 then h.2 ▸ o2_main_v11 m c else
  if h : J = 4 ∧ r = main_v18 then h.2 ▸ o4_main_v18 m c else
  if h : J = 9 ∧ r = main_v32 then h.2 ▸ o9_main_v32 m c else
  if h : J = 14 ∧ r = main_v46 then h.2 ▸ o14_main_v46 m c else
  if h : J = 19 ∧ r = main_v60 then h.2 ▸ o19_main_v60 m c else
  if h : J = 24 ∧ r = main_v74 then h.2 ▸ o24_main_v74 m c else
  if h : J = 29 ∧ r = main_v87_0 then h.2 ▸ o29_main_v87_0 m c else
  if h : J = 29 ∧ r = main_v87_1 then h.2 ▸ o29_main_v87_1 m c else
  m ((c : Thread nD τ).loc r)

theorem outs_2_main_v11 (c : Dev nD) : outs m 2 main_v11 c = o2_main_v11 m c := by
  unfold outs; simp <;> (intro h; exact absurd h (by decide))
theorem outs_4_main_v18 (c : Dev nD) : outs m 4 main_v18 c = o4_main_v18 m c := by
  unfold outs; simp <;> (intro h; exact absurd h (by decide))
theorem outs_9_main_v32 (c : Dev nD) : outs m 9 main_v32 c = o9_main_v32 m c := by
  unfold outs; simp <;> (intro h; exact absurd h (by decide))
theorem outs_14_main_v46 (c : Dev nD) : outs m 14 main_v46 c = o14_main_v46 m c := by
  unfold outs; simp <;> (intro h; exact absurd h (by decide))
theorem outs_19_main_v60 (c : Dev nD) : outs m 19 main_v60 c = o19_main_v60 m c := by
  unfold outs; simp <;> (intro h; exact absurd h (by decide))
theorem outs_24_main_v74 (c : Dev nD) : outs m 24 main_v74 c = o24_main_v74 m c := by
  unfold outs; simp <;> (intro h; exact absurd h (by decide))
theorem outs_29_main_v87_0 (c : Dev nD) : outs m 29 main_v87_0 c = o29_main_v87_0 m c := by
  unfold outs; simp <;> (intro h; exact absurd h (by decide))
theorem outs_29_main_v87_1 (c : Dev nD) : outs m 29 main_v87_1 c = o29_main_v87_1 m c := by
  unfold outs; simp <;> (intro h; exact absurd h (by decide))

theorem V1_eq (c : Dev nD) : V1 m c = X1 m c := rfl
theorem V2_eq (c : Dev nD) : V2 m (outs m) c = X2 m c := by
  show Function.update (V1 m c) main_v11 (outs m 2 main_v11 c) = _; rw [V1_eq, outs_2_main_v11]; rfl
theorem V3_eq (c : Dev nD) : V3 m (outs m) c = X3 m c := by
  show StableHlo.after hostOps1 (V2 m (outs m) c) = _; rw [V2_eq]; rfl
theorem V4_eq (c : Dev nD) : V4 m (outs m) c = X4 m c := by
  show Function.update (V3 m (outs m) c) main_v18 (outs m 4 main_v18 c) = _; rw [V3_eq, outs_4_main_v18]; rfl
theorem V8_eq (c : Dev nD) : V8 m (outs m) c = X8 m c := by
  show StableHlo.after hostOps2_3 (StableHlo.after hostOps2_2 (StableHlo.after hostOps2_1 (StableHlo.after hostOps2 (V4 m (outs m) c)))) = _; rw [V4_eq]; rfl
theorem V9_eq (c : Dev nD) : V9 m (outs m) c = X9 m c := by
  show Function.update (V8 m (outs m) c) main_v32 (outs m 9 main_v32 c) = _; rw [V8_eq, outs_9_main_v32]; rfl
theorem V13_eq (c : Dev nD) : V13 m (outs m) c = X13 m c := by
  show StableHlo.after hostOps3_3 (StableHlo.after hostOps3_2 (StableHlo.after hostOps3_1 (StableHlo.after hostOps3 (V9 m (outs m) c)))) = _; rw [V9_eq]; rfl
theorem V14_eq (c : Dev nD) : V14 m (outs m) c = X14 m c := by
  show Function.update (V13 m (outs m) c) main_v46 (outs m 14 main_v46 c) = _; rw [V13_eq, outs_14_main_v46]; rfl
theorem V18_eq (c : Dev nD) : V18 m (outs m) c = X18 m c := by
  show StableHlo.after hostOps4_3 (StableHlo.after hostOps4_2 (StableHlo.after hostOps4_1 (StableHlo.after hostOps4 (V14 m (outs m) c)))) = _; rw [V14_eq]; rfl
theorem V19_eq (c : Dev nD) : V19 m (outs m) c = X19 m c := by
  show Function.update (V18 m (outs m) c) main_v60 (outs m 19 main_v60 c) = _; rw [V18_eq, outs_19_main_v60]; rfl
theorem V23_eq (c : Dev nD) : V23 m (outs m) c = X23 m c := by
  show StableHlo.after hostOps5_3 (StableHlo.after hostOps5_2 (StableHlo.after hostOps5_1 (StableHlo.after hostOps5 (V19 m (outs m) c)))) = _; rw [V19_eq]; rfl
theorem V24_eq (c : Dev nD) : V24 m (outs m) c = X24 m c := by
  show Function.update (V23 m (outs m) c) main_v74 (outs m 24 main_v74 c) = _; rw [V23_eq, outs_24_main_v74]; rfl
theorem V27_eq (c : Dev nD) : V27 m (outs m) c = X27 m c := by
  show StableHlo.after hostOps6_2 (StableHlo.after hostOps6_1 (StableHlo.after hostOps6 (V24 m (outs m) c))) = _; rw [V24_eq]; rfl
theorem V28_eq (c : Dev nD) : V28 m (outs m) c = X28 m c := by
  show StableHlo.after hostOps6_3 (V27 m (outs m) c) = _; rw [V27_eq]; rfl
theorem V29_eq (c : Dev nD) : V29 m (outs m) c = X29 m c := by
  show Function.update (Function.update (V28 m (outs m) c) main_v87_0 (outs m 29 main_v87_0 c)) main_v87_1 (outs m 29 main_v87_1 c) = _; rw [V28_eq, outs_29_main_v87_0, outs_29_main_v87_1]; rfl
theorem V30_eq (c : Dev nD) : V30 m (outs m) c = X30 m c := by
  show StableHlo.after hostOps7 (V29 m (outs m) c) = _; rw [V29_eq]; rfl

end Cert.Kernel.Hand

end
-- ==== Proof.K.SegBase.lean ====
import proofs.«405767_j7868380086676_1_alg».proof.Proof.K.Stages
import Idealize.ShloMosaic.Lib.Pipeline.RegionsLoop
import Idealize.ShloMosaic.Lib.Pipeline.FrameSuffix
import Idealize.ShloMosaic.Lib.Tactic

noncomputable section

namespace Cert.Kernel.Hand

open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat BodyObligation)
open Cert.Kernel Cert.Kernel.Gen

variable {F : FTy → Type} [FloatOps F]
variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0
abbrev R (c : Dev nD) : sProp (MT nD τ sig Unit (Elt F) ℕ (UR sig nD τ) ℕ) := iprop((∃ r, prngReg c r) ∗ ∃ W, owes (c : Thread nD τ) (0 : CellTallies nD τ sig Unit) W)

/-- Each region's proof data, at the contents the region is entered with. -/
def pdats : (p : Fin 7) → (c : Dev nD) → Dat τ (Elt F) Unit ℕ (UR sig nD τ) ℕ (cfgs p) c
  | ⟨0, _⟩ => fun c => dat0 (rd (X1 m)) c
  | ⟨1, _⟩ => fun c => dat1 (rd (X3 m)) c
  | ⟨2, _⟩ => fun c => dat2 (rd (X8 m)) c
  | ⟨3, _⟩ => fun c => dat3 (rd (X13 m)) c
  | ⟨4, _⟩ => fun c => dat4 (rd (X18 m)) c
  | ⟨5, _⟩ => fun c => dat5 (rd (X23 m)) c
  | ⟨6, _⟩ => fun c => dat6 (rd (X28 m)) c

/-- The facts all seven proof data share, each by unfolding. -/
theorem pdats_std (p : Fin 7) (c : Dev nD) : (∀ w, (pdats m p c).q w = fullShare) ∧ (∀ t, (pdats m p c).owed t = 0) ∧
    (∀ x, x ∈ (pdats m p c).recorded 0) ∧ (pdats m p c).Φ 0 = Pipeline.ΦA (cfgs p).spec c := by
  fin_cases p <;> exact ⟨fun _ => rfl, fun _ => rfl, fun _ => trivial, rfl⟩

section
variable {p : Fin 7} {c : Dev nD} (dat : Dat τ (Elt F) Unit ℕ (UR sig nD τ) ℕ (cfgs p) c) (Xin Y : Valuation τ sig (Elt F))
  (Q : Fin (cfgs p).W → Prop)

/-- Y holds the array of each window in Q at its final contents and agrees with Xin at every buffer that is no window's array. -/
def Upd : Prop :=
  (∀ w, Q w → dat.arrAt w (cfgs p).N = Y (Pipeline.arrRef (cfgs p).spec w)) ∧
    ∀ b, b ∉ Finset.univ.image (Pipeline.arrRef (cfgs p).spec) → Y b = Xin b

variable {dat Xin Y Q}

/-- For an input window the contents at every point are the entry contents. -/
theorem Upd.base (hA : ∀ w, dat.A w = Xin (Pipeline.arrRef (cfgs p).spec w)) :
    Upd dat Xin Xin fun w => ((cfgs p).win w).isOut = false :=
  ⟨fun w h => (dat.arrAt_in w h _).trans (hA w), fun _ _ => rfl⟩

/-- The windows' arrays are distinct buffers, so replacing one by its final contents disturbs nothing else. -/
theorem Upd.step (hw : Pipeline.WinFacts (cfgs p).spec) (h : Upd dat Xin Y Q) (wo : Fin (cfgs p).W) :
    Upd dat Xin (Function.update Y (Proc.devRef .tc (Pipeline.arrRef (cfgs p).spec wo)) (dat.arrAt wo (cfgs p).N)) fun w => Q w ∨ w = wo :=
  ⟨fun w hq => by
    by_cases e : w = wo
    · subst e; exact (Function.update_self (α := DevRef τ sig) _ _ Y).symm
    · exact (h.1 w (hq.resolve_right e)).trans (Function.update_of_ne (StableHlo.devRef_ne_of_ne fun h' => e (hw.arr_inj h')) _ _).symm,
  fun b hb => (Function.update_of_ne (StableHlo.devRef_ne_of_ne fun e => hb (Finset.mem_image.mpr ⟨wo, Finset.mem_univ _, e.symm⟩)) _ _).trans (h.2 b hb)⟩

end

set_option backward.isDefEq.respectTransparency.types false in
/-- Region p as one item of the program: entered with every buffer at Xin, left with every buffer at Xout. -/
def regSeg (p : Fin 7) (launch : Pipeline.LaunchFacts (nD := nD) (τ := τ) cfgs p) (Xin Xout : Dev nD → Valuation τ sig (Elt F))
    (hbody : ∀ c, BodyObligation (pdats m p c) (defs₀ (F := F)) Variants.none () Set.univ)
    (hA : ∀ c w, (pdats m p c).A w = rd Xin c (Pipeline.arrRef (cfgs p).spec w))
    (hΦN : ∀ c, (pdats m p c).Φ (Fin.last _) ⊢ Pipeline.ΦA (cfgs p).spec c)
    {Q : Fin (cfgs p).W → Prop} (hQ : ∀ w, Q w) (hX : ∀ c, Upd (pdats m p c) (Xin c) (Xout c) Q) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p fun c => (pdats_std m p c).2.1
  pre c := iprop(StableHlo.held (c : Thread nD τ) (Pipeline.ucRefs τ sig) (Xin c) ∗ R c)
  post c := iprop(StableHlo.held (c : Thread nD τ) (Pipeline.ucRefs τ sig) (Xout c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Xin c)
  hentry c := by
    rw [Pipeline.ownSems0_none]
    have hsplit := Pipeline.arrays_of_unscopedBufs (p := p) (pcfgs (F := F)) adm (pdats m) launch.win launch.arr_whole c
      ((pdats m p c).share_full (pdats_std m p c).1) (rd Xin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [(pdats_std m p c).2.1]
      icases HO with ⟨%W, HO⟩; iexists W; isplitr; · ipureintro; exact fun _ _ => Or.inl ((pdats_std m p c).2.2.1 _)
      iexact HO
    isplitl [Hp]; · iexact Hp
    iexact Hrest
  hin c := by
    rw [(pdats_std m p c).2.2.2]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (pdats_std m p c).1)
      (rd Xin c) (rd Xout c) ((pdats m p c).arrAt · (cfgs p).N) (fun w => (hX c).1 w (hQ w)) (hX c).2
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [(pdats_std m p c).2.1]
    icases HO with ⟨%W, -, HO⟩; iexists W; iexact HO

end Cert.Kernel.Hand

end
-- ==== Proof.K.Segs.lean ====
import proofs.«405767_j7868380086676_1_alg».proof.Proof.K.SegBase

set_option backward.isDefEq.respectTransparency.types false

noncomputable section

namespace Cert.Kernel.Hand

open Idealize.ShloMosaic Cert.Kernel Cert.Kernel.Gen

variable {F : FTy → Type} [FloatOps F]
variable (m : (ℓ : Loc nD τ sig) → Buf (Elt F) ℓ)

def reg0 := regSeg m 0 launch0 (X1 m) (X2 m) (body_obligation0 _) (fun _ _ => rfl) (fun _ => .rfl) (by decide)
  fun c => .step launch0.win (.base fun _ => rfl) 3

def reg1 := regSeg m 1 launch1 (X3 m) (X4 m) (body_obligation1 _) (fun _ _ => rfl) (fun _ => .rfl) (by decide)
  fun c => .step launch1.win (.base fun _ => rfl) 3

def reg2 := regSeg m 2 launch2 (X8 m) (X9 m) (body_obligation2 _) (fun _ _ => rfl) (fun _ => .rfl) (by decide)
  fun c => .step launch2.win (.base fun _ => rfl) 3

def reg3 := regSeg m 3 launch3 (X13 m) (X14 m) (body_obligation3 _) (fun _ _ => rfl) (fun _ => .rfl) (by decide)
  fun c => .step launch3.win (.base fun _ => rfl) 3

def reg4 := regSeg m 4 launch4 (X18 m) (X19 m) (body_obligation4 _) (fun _ _ => rfl) (fun _ => .rfl) (by decide)
  fun c => .step launch4.win (.base fun _ => rfl) 3

def reg5 := regSeg m 5 launch5 (X23 m) (X24 m) (body_obligation5 _) (fun _ _ => rfl) (fun _ => .rfl) (by decide)
  fun c => .step launch5.win (.base fun _ => rfl) 3

def reg6 := regSeg m 6 launch6 (X28 m) (X29 m) (body_obligation6 _) (fun _ _ => rfl) (Φ6_last_le _) (by decide)
  fun c => .step launch6.win (.step launch6.win (.base fun _ => rfl) 5) 6

end Cert.Kernel.Hand

end
-- ==== Proof.K.Run.lean ====
import proofs.«405767_j7868380086676_1_alg».proof.Defs
import proofs.«405767_j7868380086676_1_alg».proof.Proof.Gen.Kernel.Regions
import proofs.«405767_j7868380086676_1_alg».proof.Proof.Gen.Pre_finite_inputs
import proofs.«405767_j7868380086676_1_alg».proof.Proof.K.Segs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev E : Fin 8 → Dev nD → sProp 𝕄 := fun _ c => R c

set_option backward.isDefEq.respectTransparency.types false in
/-- A frame asks nothing of the regions' values: with the unknown outputs chosen as what the regions leave, each region is entered and left at the host side's own contents. -/
theorem frame : Cert.frame_Kernel := fun m ρ _ =>
  frame_cond m (Ix := Unit) (U := UR sig nD τ) (Lvl := ℕ) emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp (MT nD τ sig Unit (Elt Bits) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Bits) ℕ (UR sig nD τ) ℕ)) ⊢ bigSep Finset.univ (fun _ : Dev nD => (BI.emp : sProp (MT nD τ sig Unit (Elt Bits) ℕ (UR sig nD τ) ℕ))) from by rw [BI.bigSep_emp_const])
      iempintro)
    E
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V8_eq]; exact .rfl) (fun c => by rw [V9_eq]; exact .rfl)
    (reg3 m) (fun c => by rw [V13_eq]; exact .rfl) (fun c => by rw [V14_eq]; exact .rfl)
    (reg4 m) (fun c => by rw [V18_eq]; exact .rfl) (fun c => by rw [V19_eq]; exact .rfl)
    (reg5 m) (fun c => by rw [V23_eq]; exact .rfl) (fun c => by rw [V24_eq]; exact .rfl)
    (reg6 m) (fun c => by rw [V28_eq]; exact .rfl) (fun c => by rw [V29_eq]; exact .rfl)

end Cert.Kernel.Hand

end
-- ==== Proof.KI.Reg0.lean ====
import proofs.«405767_j7868380086676_1_alg».proof.Proof.Gen.KernelIdeal.Launch
import proofs.«405767_j7868380086676_1_alg».proof.Proof.Gen.KernelIdeal.Skeleton
import proofs.«405767_j7868380086676_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F] [Named F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x7 := Rect.unit (s := S5000x7) ![0, 0] S5000x7.size inb_S5000x7_S5000x7_0_0
abbrev r0_1 : Rect S7x128 := Rect.unit (s := S7x128) ![0, 0] S7x128.size inb_S7x128_S7x128_0_0
abbrev r0_2 : Rect S1x128 := Rect.unit (s := S1x128) ![0, 0] S1x128.size inb_S1x128_S1x128_0_0
abbrev r0_3 : Rect S5000x128 := Rect.unit (s := S5000x128) ![0, 0] S5000x128.size inb_S5000x128_S5000x128_0_0

def out0_3 (x0 : Vec F S5000x7 .f32) (x1 : Vec F S7x128 .f32) (x2 : Vec F S1x128 .f32) : Vec F S5000x128 .f32 :=
  View.canon [⟨r0_3, k0_pay1 (View.ld x0 r0_0) (View.ld x1 r0_1) (View.ld x2 r0_2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; rfl) t d).trans rfl

/-- Three whole loads, then one store whose rectangle is the whole shape: the array stored into ends as the canonical view of that one piece; the rest is framed. -/
theorem body_obligation0 (c : Dev nD) : BodyObligation (dat0 (F := F) V c) (defs₀ (F := F)) Variants.none () Set.univ := fun t => by
  rw [bigSep_W0, bigSep_W0]
  simp only [before0_0, before0_1, before0_2, after0_0, after0_1, after0_2, after0_3]
  rw [show (dat0 V c).Φ t.succ = (dat0 V c).Φ t.castSucc from rfl, show (dat0 V c).owesAt () t.succ = (dat0 V c).owesAt () t.castSucc from rfl]
  change _ ⊢ wp _ _ _ (bodyAt0 t) _
  unfold bodyAt0 out0_3 owns
  simp only [cc0__affine_kernel_f32_eq_skeleton]; unfold cc0__affine_kernel_f32_skel
  generalize iblk0 V c 0 t = x0, iblk0 V c 1 t = x1, iblk0 V c 2 t = x2
  iintro ⟨HΦ, Ho, ⟨%_, %f0, %hf0, H0⟩, ⟨%_, %f1, %hf1, H1⟩, ⟨%_, %f2, %hf2, H2⟩, ⟨%_, %f3, -, H3⟩⟩
  subst hf0 hf1 hf2
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled [⟨r0_3, _⟩] S5000x128.size (by rfl))

end Cert.KernelIdeal.Hand

end
-- ==== Proof.KI.RegAffine.lean ====
import proofs.«405767_j7868380086676_1_alg».proof.Proof.Gen.KernelIdeal.Launch
import proofs.«405767_j7868380086676_1_alg».proof.Proof.Gen.KernelIdeal.Skeleton
import proofs.«405767_j7868380086676_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

abbrev rX : Rect S5000x128 := Rect.unit (s := S5000x128) ![0, 0] S5000x128.size inb_S5000x128_S5000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- Three whole loads, then one store whose rectangle is the whole shape: the array stored into ends as the canonical view of that one piece; the rest is framed. -/
theorem affine_body {ker pay} (hk : ker = cc1__affine_kernel_bf16_skel (F := F)) (hp : pay = k1_pay1 (F := F)) {c : Dev nD} {i a1 h1 a2 h2 a3 h3 a4 h4}
    {x0 : Vec F S5000x128 .f32} {x1 : Vec F S128x128 .f32} {x2 : Vec F S1x128 .f32} {D0 D1 D2 D3 : Type} {f : D3 → Vec F S5000x128 .f32} {Φ o : sProp 𝕄} :
    iprop(Φ ∗ o ∗ (∃ _d : D0, owns (c : Thread nD τ) a1 fullShare x0) ∗ (∃ _d : D1, owns (c : Thread nD τ) a2 fullShare x1)
        ∗ (∃ _d : D2, owns (c : Thread nD τ) a3 fullShare x2) ∗ (∃ d, owns (c : Thread nD τ) a4 fullShare (f d)))
      ⊢ wp frame (wpE (defs₀ (F := F)) Variants.none c none) Set.univ (ker i a1 h1 a2 h2 a3 h3 a4 h4) fun _ =>
        iprop(Φ ∗ o ∗ owns (c : Thread nD τ) a1 fullShare x0 ∗ owns (c : Thread nD τ) a2 fullShare x1 ∗ owns (c : Thread nD τ) a3 fullShare x2
          ∗ owns (c : Thread nD τ) a4 fullShare (View.canon [⟨rX, pay (View.ld x0 rX) (View.ld x1 rW) (View.ld x2 rB)⟩])) := by
  subst hk hp
  unfold cc1__affine_kernel_bf16_skel owns
  iintro ⟨HΦ, Ho, ⟨%_, %f0, %hf0, H0⟩, ⟨%_, %f1, %hf1, H1⟩, ⟨%_, %f2, %hf2, H2⟩, ⟨%_, %f3, -, H3⟩⟩
  subst hf0 hf1 hf2
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled [⟨rX, _⟩] S5000x128.size (by rfl))

end Cert.KernelIdeal.Hand

end
-- ==== Proof.KI.Reg1.lean ====
import proofs.«405767_j7868380086676_1_alg».proof.Proof.KI.RegAffine

noncomputable section

namespace Cert.KernelIdeal.Hand

open Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)
open Cert.KernelIdeal Cert.KernelIdeal.Gen

variable {F : FTy → Type} [FloatOps F] [Named F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S5000x128 .f32) (x1 : Vec F S128x128 .f32) (x2 : Vec F S1x128 .f32) : Vec F S5000x128 .f32 :=
  View.canon [⟨rX, k1_pay1 (View.ld x0 rX) (View.ld x1 rW) (View.ld x2 rB)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; rfl) t d).trans rfl

theorem body_obligation1 (c : Dev nD) : BodyObligation (dat1 (F := F) V c) (defs₀ (F := F)) Variants.none () Set.univ := fun t => by
  rw [bigSep_W1, bigSep_W1]
  simp only [before1_0, before1_1, before1_2, after1_0, after1_1, after1_2, after1_3]
  change _ ⊢ wp _ _ _ (bodyAt1 t) _
  exact affine_body (F := F) (cc1__affine_kernel_bf16_eq_skeleton.trans rfl) rfl

end Cert.KernelIdeal.Hand

end
-- ==== Proof.KI.Reg2.lean ====
import proofs.«405767_j7868380086676_1_alg».proof.Proof.KI.RegAffine

noncomputable section

namespace Cert.KernelIdeal.Hand

open Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)
open Cert.KernelIdeal Cert.KernelIdeal.Gen

variable {F : FTy → Type} [FloatOps F] [Named F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_3 (x0 : Vec F S5000x128 .f32) (x1 : Vec F S128x128 .f32) (x2 : Vec F S1x128 .f32) : Vec F S5000x128 .f32 :=
  View.canon [⟨rX, k2_pay1 (View.ld x0 rX) (View.ld x1 rW) (View.ld x2 rB)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; rfl) t d).trans rfl

theorem body_obligation2 (c : Dev nD) : BodyObligation (dat2 (F := F) V c) (defs₀ (F := F)) Variants.none () Set.univ := fun t => by
  rw [bigSep_W2, bigSep_W2]
  simp only [before2_0, before2_1, before2_2, after2_0, after2_1, after2_2, after2_3]
  change _ ⊢ wp _ _ _ (bodyAt2 t) _
  exact affine_body (F := F) (cc2__affine_kernel_bf16_eq_skeleton.trans rfl) rfl

end Cert.KernelIdeal.Hand

end
-- ==== Proof.KI.Reg3.lean ====
import proofs.«405767_j7868380086676_1_alg».proof.Proof.KI.RegAffine

noncomputable section

namespace Cert.KernelIdeal.Hand

open Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)
open Cert.KernelIdeal Cert.KernelIdeal.Gen

variable {F : FTy → Type} [FloatOps F] [Named F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_3 (x0 : Vec F S5000x128 .f32) (x1 : Vec F S128x128 .f32) (x2 : Vec F S1x128 .f32) : Vec F S5000x128 .f32 :=
  View.canon [⟨rX, k3_pay1 (View.ld x0 rX) (View.ld x1 rW) (View.ld x2 rB)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; rfl) t d).trans rfl

theorem body_obligation3 (c : Dev nD) : BodyObligation (dat3 (F := F) V c) (defs₀ (F := F)) Variants.none () Set.univ := fun t => by
  rw [bigSep_W3, bigSep_W3]
  simp only [before3_0, before3_1, before3_2, after3_0, after3_1, after3_2, after3_3]
  change _ ⊢ wp _ _ _ (bodyAt3 t) _
  exact affine_body (F := F) (cc3__affine_kernel_bf16_eq_skeleton.trans rfl) rfl

end Cert.KernelIdeal.Hand

end
-- ==== Proof.KI.Reg4.lean ====
import proofs.«405767_j7868380086676_1_alg».proof.Proof.KI.RegAffine

noncomputable section

namespace Cert.KernelIdeal.Hand

open Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)
open Cert.KernelIdeal Cert.KernelIdeal.Gen

variable {F : FTy → Type} [FloatOps F] [Named F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_3 (x0 : Vec F S5000x128 .f32) (x1 : Vec F S128x128 .f32) (x2 : Vec F S1x128 .f32) : Vec F S5000x128 .f32 :=
  View.canon [⟨rX, k4_pay1 (View.ld x0 rX) (View.ld x1 rW) (View.ld x2 rB)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; rfl) t d).trans rfl

theorem body_obligation4 (c : Dev nD) : BodyObligation (dat4 (F := F) V c) (defs₀ (F := F)) Variants.none () Set.univ := fun t => by
  rw [bigSep_W4, bigSep_W4]
  simp only [before4_0, before4_1, before4_2, after4_0, after4_1, after4_2, after4_3]
  change _ ⊢ wp _ _ _ (bodyAt4 t) _
  exact affine_body (F := F) (cc4__affine_kernel_bf16_eq_skeleton.trans rfl) rfl

end Cert.KernelIdeal.Hand

end
-- ==== Proof.KI.Reg5.lean ====
import proofs.«405767_j7868380086676_1_alg».proof.Proof.KI.RegAffine

noncomputable section

namespace Cert.KernelIdeal.Hand

open Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)
open Cert.KernelIdeal Cert.KernelIdeal.Gen

variable {F : FTy → Type} [FloatOps F] [Named F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_3 (x0 : Vec F S5000x128 .f32) (x1 : Vec F S128x128 .f32) (x2 : Vec F S1x128 .f32) : Vec F S5000x128 .f32 :=
  View.canon [⟨rX, k5_pay1 (View.ld x0 rX) (View.ld x1 rW) (View.ld x2 rB)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; rfl) t d).trans rfl

theorem body_obligation5 (c : Dev nD) : BodyObligation (dat5 (F := F) V c) (defs₀ (F := F)) Variants.none () Set.univ := fun t => by
  rw [bigSep_W5, bigSep_W5]
  simp only [before5_0, before5_1, before5_2, after5_0, after5_1, after5_2, after5_3]
  change _ ⊢ wp _ _ _ (bodyAt5 t) _
  exact affine_body (F := F) (cc5__affine_kernel_bf16_eq_skeleton.trans rfl) rfl

end Cert.KernelIdeal.Hand

end
-- ==== Proof.KI.Reg6.lean ====
import proofs.«405767_j7868380086676_1_alg».proof.Proof.Gen.KernelIdeal.Launch
import proofs.«405767_j7868380086676_1_alg».proof.Proof.Gen.KernelIdeal.Skeleton
import proofs.«405767_j7868380086676_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S5000x128 := Rect.unit (s := S5000x128) ![0, 0] S5000x128.size inb_S5000x128_S5000x128_0_0
abbrev r6_1 : Rect S128x3 := Rect.unit (s := S128x3) ![0, 0] S128x3.size inb_S128x3_S128x3_0_0
abbrev r6_2 : Rect S1x3 := Rect.unit (s := S1x3) ![0, 0] S1x3.size inb_S1x3_S1x3_0_0
abbrev r6_3 : Rect S128x1 := Rect.unit (s := S128x1) ![0, 0] S128x1.size inb_S128x1_S128x1_0_0
abbrev r6_4 : Rect S1x1 := Rect.unit (s := S1x1) ![0, 0] S1x1.size inb_S1x1_S1x1_0_0
abbrev r6_5 : Rect S5000x3 := Rect.unit (s := S5000x3) ![0, 0] S5000x3.size inb_S5000x3_S5000x3_0_0
abbrev r6_s : Rect S1x128 := Rect.unit (s := S1x128) ![0, 0] S1x128.size inb_S1x128_S1x128_0_0

def out6_5 (x0 : Vec F S5000x128 .f32) (x1 : Vec F S128x3 .f32) (x2 : Vec F S1x3 .f32) : Vec F S5000x3 .f32 :=
  View.canon [⟨r6_5, k6_pay3 (View.ld x0 r6_0) (View.ld x1 r6_1) (View.ld x2 r6_2)⟩]

def out6_6 (s : Vec F S1x128 .f32) (x3 : Vec F S128x1 .f32) (x4 : Vec F S1x1 .f32) : Vec F S1x1 .f32 :=
  View.canon [⟨r6_4, k6_pay5 (View.ld s r6_s) (View.ld x3 r6_3) (View.ld x4 r6_4)⟩]

def acc6_zero : Vec F S1x128 .f32 := View.canon [⟨r6_s, k6_pay1 (F := F)⟩]

def acc6_step (x0 : Vec F S5000x128 .f32) (s : Vec F S1x128 .f32) : Vec F S1x128 .f32 :=
  View.canon [⟨r6_s, k6_pay4 (View.ld x0 r6_0) (View.ld s r6_s)⟩]

theorem cover6_5 (p0 : Vec F S5000x3 .f32) (y : S5000x3.Idx) :
    ∃ pc ∈ ([⟨r6_5, p0⟩] : List (View.Piece (Elt F) S5000x3 .f32)), y ∈ pc.1.set :=
  View.cover_of_tiled [⟨r6_5, p0⟩] S5000x3.size (by rfl) y

theorem cover6_6 (p0 : Vec F S1x1 .f32) (y : S1x1.Idx) :
    ∃ pc ∈ ([⟨r6_4, p0⟩] : List (View.Piece (Elt F) S1x1 .f32)), y ∈ pc.1.set :=
  View.cover_of_tiled [⟨r6_4, p0⟩] S1x1.size (by rfl) y

theorem cover6_s (p0 : Vec F S1x128 .f32) (y : S1x128.Idx) :
    ∃ pc ∈ ([⟨r6_s, p0⟩] : List (View.Piece (Elt F) S1x128 .f32)), y ∈ pc.1.set :=
  View.cover_of_tiled [⟨r6_s, p0⟩] S1x128.size (by rfl) y

theorem cover6_s' (p0 : Vec F S1x128 .f32) (L : List (View.Piece (Elt F) S1x128 .f32)) (y : S1x128.Idx) :
    ∃ pc ∈ (⟨r6_s, p0⟩ :: L : List (View.Piece (Elt F) S1x128 .f32)), y ∈ pc.1.set := by
  obtain ⟨pc, hm, hy⟩ := cover6_s (F := F) p0 y
  rw [List.mem_singleton] at hm; subst hm
  exact ⟨_, List.mem_cons_self, hy⟩

theorem canon6_s_top (p0 : Vec F S1x128 .f32) (L : List (View.Piece (Elt F) S1x128 .f32)) :
    View.canon (⟨r6_s, p0⟩ :: L) = View.canon [⟨r6_s, p0⟩] := by
  funext y
  obtain ⟨pc, hm, hy⟩ := cover6_s (F := F) p0 y
  rw [List.mem_singleton] at hm; subst hm
  obtain ⟨x, rfl⟩ := r6_s.exists_idx_of_mem hy
  exact (View.canon_cons_emb r6_s p0 L x).trans (View.canon_cons_emb r6_s p0 [] x).symm

abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val % 8 = 0 :=
  (by decide +kernel : ∀ t : Fin grid6.N, cond6_0 (grid6.coords t) ↔ t.val % 8 = 0)

abbrev cond6_1 (i : grid6.Coords) : Prop := k6_cond2 i = 1#1
theorem hcond6_1 : ∀ t : Fin cfg6.N, cond6_1 (grid6.coords t) ↔ t.val % 8 = 7 :=
  (by decide +kernel : ∀ t : Fin grid6.N, cond6_1 (grid6.coords t) ↔ t.val % 8 = 7)

section
variable {c : Dev nD} {i : grid6.Coords}
  {a1 : Memref sig .tc .vmem S5000x128 .f32} {h1 : a1.IsWhole} {a2 : Memref sig .tc .vmem S128x3 .f32} {h2 : a2.IsWhole}
  {a3 : Memref sig .tc .vmem S1x3 .f32} {h3 : a3.IsWhole} {a4 : Memref sig .tc .vmem S128x1 .f32} {h4 : a4.IsWhole}
  {a5 : Memref sig .tc .vmem S1x1 .f32} {h5 : a5.IsWhole} {a6 : Memref sig .tc .vmem S5000x3 .f32} {h6 : a6.IsWhole}
  {a7 : Memref sig .tc .vmem S1x1 .f32} {h7 : a7.IsWhole} {a8 : Memref sig .tc .vmem S1x128 .f32} {h8 : a8.IsWhole}

/-- At the first point the accumulator is reset and then stepped; the second output is left as found. -/
theorem head6_first {x0 : Vec F S5000x128 .f32} {x1 : Vec F S128x3 .f32} {x2 : Vec F S1x3 .f32} {x3 : Vec F S128x1 .f32} {x4 : Vec F S1x1 .f32}
    {D0 D1 D2 D3 D4 D5 D6 : Type} {f5 : D5 → Vec F S5000x3 .f32} {f6 : D6 → Vec F S1x1 .f32} {R G o : sProp 𝕄} (hc0 : cond6_0 i) (hc1 : ¬cond6_1 i) :
    iprop(((iprop(∃ d, owns (c : Thread nD τ) a8 fullShare d) ∗ R) ∗ G) ∗ o ∗ (∃ _d : D0, owns (c : Thread nD τ) a1 fullShare x0) ∗ (∃ _d : D1, owns (c : Thread nD τ) a2 fullShare x1) ∗ (∃ _d : D2, owns (c : Thread nD τ) a3 fullShare x2)
        ∗ (∃ _d : D3, owns (c : Thread nD τ) a4 fullShare x3) ∗ (∃ _d : D4, owns (c : Thread nD τ) a5 fullShare x4) ∗ (∃ d, owns (c : Thread nD τ) a6 fullShare (f5 d)) ∗ (∃ d, owns (c : Thread nD τ) a7 fullShare (f6 d)))
      ⊢ wp frame (wpE (defs₀ (F := F)) Variants.none c none) Set.univ (cc6__head_kernel i a1 h1 a2 h2 a3 h3 a4 h4 a5 h5 a6 h6 a7 h7 a8 h8) fun _ =>
        iprop(((owns (c : Thread nD τ) a8 fullShare (acc6_step x0 (acc6_zero (F := F))) ∗ R) ∗ G) ∗ o ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4
          ∗ owns (c : Thread nD τ) a6 fullShare (out6_5 x0 x1 x2) ∗ (∃ d, owns (c : Thread nD τ) a7 fullShare (f6 d))) := by
  simp only [cc6__head_kernel_eq_skeleton]; unfold cc6__head_kernel_skel
  simp only [k6_part1_eq_skeleton]; unfold k6_part1_skel
  unfold owns
  iintro ⟨⟨⟨⟨%ds, %fs, -, HS⟩, HR⟩, Hg⟩, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, -, H5⟩, ⟨%d6, %g6, %hf6, H6⟩⟩
  subst hf0 hf1 hf2 hf3 hf4
  sl_exec (disch := first | sl_exact hc0 | sl_exact hc1)
  sl_step
  isplitl [HS HR Hg]
  · isplitl [HS HR]; swap; · iexact Hg
    isplitl [HS]; swap; · iexact HR
    iexists _; isplitr
    swap; · iexact HS
    ipureintro
    unfold head6_first.sl.v24 head6_first.sl.HS_1
    refine (View.read_writes_eq_canon _ _ _ (cover6_s' _ _)).trans ((canon6_s_top _ _).trans ?_)
    unfold acc6_step acc6_zero
    rw [View.readCov_eq_canon_ld _ _ _ (cover6_s _)]
    rfl
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover6_5 _)
  iexists d6, g6; isplitr; · ipureintro; exact hf6
  iexact H6

/-- At a middle point the accumulator is stepped; the second output is left as found. -/
theorem head6_mid {xs : Vec F S1x128 .f32} {x0 : Vec F S5000x128 .f32} {x1 : Vec F S128x3 .f32} {x2 : Vec F S1x3 .f32} {x3 : Vec F S128x1 .f32} {x4 : Vec F S1x1 .f32}
    {D0 D1 D2 D3 D4 D5 D6 : Type} {f5 : D5 → Vec F S5000x3 .f32} {f6 : D6 → Vec F S1x1 .f32} {R G o : sProp 𝕄} (hc0 : ¬cond6_0 i) (hc1 : ¬cond6_1 i) :
    iprop(((owns (c : Thread nD τ) a8 fullShare xs ∗ R) ∗ G) ∗ o ∗ (∃ _d : D0, owns (c : Thread nD τ) a1 fullShare x0) ∗ (∃ _d : D1, owns (c : Thread nD τ) a2 fullShare x1) ∗ (∃ _d : D2, owns (c : Thread nD τ) a3 fullShare x2)
        ∗ (∃ _d : D3, owns (c : Thread nD τ) a4 fullShare x3) ∗ (∃ _d : D4, owns (c : Thread nD τ) a5 fullShare x4) ∗ (∃ d, owns (c : Thread nD τ) a6 fullShare (f5 d)) ∗ (∃ d, owns (c : Thread nD τ) a7 fullShare (f6 d)))
      ⊢ wp frame (wpE (defs₀ (F := F)) Variants.none c none) Set.univ (cc6__head_kernel i a1 h1 a2 h2 a3 h3 a4 h4 a5 h5 a6 h6 a7 h7 a8 h8) fun _ =>
        iprop(((owns (c : Thread nD τ) a8 fullShare (acc6_step x0 xs) ∗ R) ∗ G) ∗ o ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4
          ∗ owns (c : Thread nD τ) a6 fullShare (out6_5 x0 x1 x2) ∗ (∃ d, owns (c : Thread nD τ) a7 fullShare (f6 d))) := by
  simp only [cc6__head_kernel_eq_skeleton]; unfold cc6__head_kernel_skel
  simp only [k6_part1_eq_skeleton]; unfold k6_part1_skel
  unfold owns
  iintro ⟨⟨⟨⟨%fs, %hfs, HS⟩, HR⟩, Hg⟩, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, -, H5⟩, ⟨%d6, %g6, %hf6, H6⟩⟩
  subst hf0 hf1 hf2 hf3 hf4 hfs
  sl_exec (disch := first | sl_exact hc0 | sl_exact hc1)
  sl_step
  isplitl [HS HR Hg]
  · isplitl [HS HR]; swap; · iexact Hg
    isplitl [HS]; swap; · iexact HR
    iexists _; isplitr
    swap; · iexact HS
    ipureintro
    exact View.read_writes_eq_canon _ _ _ (cover6_s _)
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover6_5 _)
  iexists d6, g6; isplitr; · ipureintro; exact hf6
  iexact H6

/-- At the last point the accumulator is stepped and the second output is computed from it. -/
theorem head6_last {xs : Vec F S1x128 .f32} {x0 : Vec F S5000x128 .f32} {x1 : Vec F S128x3 .f32} {x2 : Vec F S1x3 .f32} {x3 : Vec F S128x1 .f32} {x4 : Vec F S1x1 .f32}
    {D0 D1 D2 D3 D4 D5 D6 : Type} {f5 : D5 → Vec F S5000x3 .f32} {f6 : D6 → Vec F S1x1 .f32} {R G o : sProp 𝕄} (hc0 : ¬cond6_0 i) (hc1 : cond6_1 i) :
    iprop(((owns (c : Thread nD τ) a8 fullShare xs ∗ R) ∗ G) ∗ o ∗ (∃ _d : D0, owns (c : Thread nD τ) a1 fullShare x0) ∗ (∃ _d : D1, owns (c : Thread nD τ) a2 fullShare x1) ∗ (∃ _d : D2, owns (c : Thread nD τ) a3 fullShare x2)
        ∗ (∃ _d : D3, owns (c : Thread nD τ) a4 fullShare x3) ∗ (∃ _d : D4, owns (c : Thread nD τ) a5 fullShare x4) ∗ (∃ d, owns (c : Thread nD τ) a6 fullShare (f5 d)) ∗ (∃ d, owns (c : Thread nD τ) a7 fullShare (f6 d)))
      ⊢ wp frame (wpE (defs₀ (F := F)) Variants.none c none) Set.univ (cc6__head_kernel i a1 h1 a2 h2 a3 h3 a4 h4 a5 h5 a6 h6 a7 h7 a8 h8) fun _ =>
        iprop(((owns (c : Thread nD τ) a8 fullShare (acc6_step x0 xs) ∗ R) ∗ G) ∗ o ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4
          ∗ owns (c : Thread nD τ) a6 fullShare (out6_5 x0 x1 x2) ∗ owns (c : Thread nD τ) a7 fullShare (out6_6 (acc6_step x0 xs) x3 x4)) := by
  simp only [cc6__head_kernel_eq_skeleton]; unfold cc6__head_kernel_skel
  simp only [k6_part1_eq_skeleton]; unfold k6_part1_skel
  unfold owns
  iintro ⟨⟨⟨⟨%fs, %hfs, HS⟩, HR⟩, Hg⟩, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, -, H5⟩, ⟨%d6, %g6, -, H6⟩⟩
  subst hf0 hf1 hf2 hf3 hf4 hfs
  sl_exec (disch := first | sl_exact hc0 | sl_exact hc1)
  sl_step
  isplitl [HS HR Hg]
  · isplitl [HS HR]; swap; · iexact Hg
    isplitl [HS]; swap; · iexact HR
    iexists _; isplitr
    swap; · iexact HS
    ipureintro
    unfold head6_last.sl.HS_1
    exact View.read_writes_eq_canon _ _ _ (cover6_s _)
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover6_5 _)
  iexists _; isplitr
  swap; · iexact H6
  ipureintro
  unfold head6_last.sl.v34 head6_last.sl.HS_1
  refine (View.read_writes_eq_canon _ _ _ (cover6_6 _)).trans ?_
  unfold out6_6 acc6_step
  rw [View.readCov_eq_canon_ld _ _ _ (cover6_s _)]
  rfl

end

def acc6 (c : Dev nD) : ℕ → Vec F S1x128 .f32
  | 0 => acc6_step (iblk6 V c 0 ⟨0, by rw [show cfg6.N = 8 from N_6]; decide⟩) (acc6_zero (F := F))
  | n + 1 => if h : n + 1 < cfg6.N then acc6_step (iblk6 V c 0 ⟨n + 1, h⟩) (acc6 c n) else acc6 c n

theorem acc6_first (c : Dev nD) (t : Fin cfg6.N) (h : t.val = 0) :
    acc6 V c t.val = acc6_step (iblk6 V c 0 t) (acc6_zero (F := F)) := by
  obtain ⟨n, hn⟩ := t
  dsimp only at h; subst h; rfl

theorem acc6_next (c : Dev nD) (t : Fin cfg6.N) (h : t.val ≠ 0) :
    acc6 V c t.val = acc6_step (iblk6 V c 0 t) (acc6 V c (t.val - 1)) := by
  obtain ⟨n, hn⟩ := t
  cases n with
  | zero => exact absurd rfl h
  | succ n => exact dif_pos hn

abbrev scM6 : Memref sig .tc .vmem S1x128 .f32 := Memref.whole cc6_scratch0

def Φ6 (c : Dev nD) : ℕ → sProp 𝕄
  | 0 => Pipeline.ΦA spec6 c
  | n + 1 => iprop((owns (c : Thread nD τ) scM6 fullShare (acc6 V c n) ∗ Pipeline.scopedRestBut (Ix := Unit) (Name := ℕ) (U := UR sig nD τ) (Lvl := ℕ) (Val := Elt F) spec6 c [cc6_scratch0]) ∗ (∃ r, prngReg c r))

theorem Φ6_of_zero (c : Dev nD) (n : ℕ) (h : n = 0) : Φ6 V c n = Pipeline.ΦA spec6 c := by subst h; rfl

theorem Φ6_pos (c : Dev nD) (n : ℕ) (h : n ≠ 0) :
    Φ6 V c n = iprop((owns (c : Thread nD τ) scM6 fullShare (acc6 V c (n - 1)) ∗ Pipeline.scopedRestBut (Ix := Unit) (Name := ℕ) (U := UR sig nD τ) (Lvl := ℕ) (Val := Elt F) spec6 c [cc6_scratch0]) ∗ (∃ r, prngReg c r)) := by
  cases n with
  | zero => exact absurd rfl h
  | succ n => rfl

theorem PhiA6_eq (c : Dev nD) :
    (Pipeline.ΦA spec6 c : sProp 𝕄)
      = iprop((iprop(∃ d, owns (c : Thread nD τ) scM6 fullShare d) ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t)
    | ⟨6, _⟩ => out6_6 (acc6 V c t.val) (iblk6 V c 3 t) (iblk6 V c 4 t)
  Φ t := Φ6 V c t.val
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) := by dsimp only [dat6]
theorem after6_6 (c : Dev nD) (t : Fin cfg6.N) :
    (dat6 V c).after 6 t = out6_6 (acc6 V c t.val) (iblk6 V c 3 t) (iblk6 V c 4 t) := by dsimp only [dat6]

theorem Φ6_castSucc (c : Dev nD) (t : Fin cfg6.N) : (dat6 V c).Φ t.castSucc = Φ6 V c t.val := by
  dsimp only [dat6]; simp only [Fin.coe_castSucc]

theorem Φ6_succ (c : Dev nD) (t : Fin cfg6.N) :
    (dat6 V c).Φ t.succ = iprop((owns (c : Thread nD τ) scM6 fullShare (acc6 V c t.val) ∗ Pipeline.scopedRestBut (Ix := Unit) (Name := ℕ) (U := UR sig nD τ) (Lvl := ℕ) (Val := Elt F) spec6 c [cc6_scratch0]) ∗ (∃ r, prngReg c r)) := rfl

theorem Φ6_last_le (c : Dev nD) : (dat6 V c).Φ (Fin.last cfg6.N) ⊢ Pipeline.ΦA spec6 c := by
  rw [show (dat6 V c).Φ (Fin.last cfg6.N) = Φ6 V c cfg6.N from rfl,
    Φ6_pos V c _ (by rw [show cfg6.N = 8 from N_6]; decide), PhiA6_eq]
  iintro ⟨⟨HS, HR⟩, Hg⟩
  isplitl [HS HR]
  · isplitl [HS]
    · iexists _; iexact HS
    iexact HR
  iexact Hg

theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; rfl) t d).trans rfl
theorem before6_3 (c : Dev nD) (t : Fin cfg6.N) (d) : (dat6 V c).before 3 t d = iblk6 V c 3 t :=
  ((dat6 V c).before_in_eq_fetched 3 rfl (fun _ => rfl) (fun _ _ _ => rfl) (fun t => by rw [after6_3]; rfl) t d).trans rfl
theorem before6_4 (c : Dev nD) (t : Fin cfg6.N) (d) : (dat6 V c).before 4 t d = iblk6 V c 4 t :=
  ((dat6 V c).before_in_eq_fetched 4 rfl (fun _ => rfl) (fun _ _ _ => rfl) (fun t => by rw [after6_4]; rfl) t d).trans rfl

theorem idleAt6_6 : ∀ t : Fin cfg6.N, ¬cond6_1 (grid6.coords t) → cfg6.idle 6 (grid6.coords t) = true := by decide +kernel
theorem noFlush6_6 : ∀ t : Fin cfg6.N, ¬cond6_1 (grid6.coords t) → (cfg6.win 6).flush t = false := by decide +kernel
theorem liveAt6_6 : ∀ t : Fin cfg6.N, cond6_1 (grid6.coords t) → cfg6.idle 6 (grid6.coords t) = false := by decide +kernel

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t)

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).owesAt () t.succ = (dat6 V c).owesAt () t.castSucc from rfl, Φ6_succ V c t, Φ6_castSucc V c t]
  rw [show (dat6 V c).leavesExact 0 t = owns (c : Thread nD τ) (st6_0 t) fullShare ((dat6 V c).after 0 t) from rfl, after6_0, show (dat6 V c).leavesExact 1 t = owns (c : Thread nD τ) (st6_1 t) fullShare ((dat6 V c).after 1 t) from rfl, after6_1,
    show (dat6 V c).leavesExact 2 t = owns (c : Thread nD τ) (st6_2 t) fullShare ((dat6 V c).after 2 t) from rfl, after6_2, show (dat6 V c).leavesExact 3 t = owns (c : Thread nD τ) (st6_3 t) fullShare ((dat6 V c).after 3 t) from rfl, after6_3,
    show (dat6 V c).leavesExact 4 t = owns (c : Thread nD τ) (st6_4 t) fullShare ((dat6 V c).after 4 t) from rfl, after6_4, show (dat6 V c).leavesExact 5 t = owns (c : Thread nD τ) (st6_5 t) fullShare ((dat6 V c).after 5 t) from rfl, after6_5]
  have hN : t.val < 8 := lt_of_lt_of_eq t.isLt (show cfg6.N = 8 from N_6)
  by_cases h0 : t.val % 8 = 0
  ·
    have hz : t.val = 0 := by omega
    have hc0 : cond6_0 (grid6.coords t) := (hcond6_0 t).mpr h0
    have hc1 : ¬cond6_1 (grid6.coords t) := fun h => by have := (hcond6_1 t).mp h; omega
    rw [Dat.leavesExact_idle (dat6 V c) 6 t (idleAt6_6 t hc1) (noFlush6_6 t hc1)]
    rw [Φ6_of_zero V c _ hz, PhiA6_eq, acc6_first V c t hz]
    exact head6_first hc0 hc1
  · have hnz : t.val ≠ 0 := by omega
    have hc0 : ¬cond6_0 (grid6.coords t) := fun h => h0 ((hcond6_0 t).mp h)
    rw [Φ6_pos V c _ hnz, acc6_next V c t hnz]
    by_cases h1 : t.val % 8 = 7
    ·
      have hc1 : cond6_1 (grid6.coords t) := (hcond6_1 t).mpr h1
      rw [show (dat6 V c).leavesExact 6 t = owns (c : Thread nD τ) (st6_6 t) fullShare ((dat6 V c).after 6 t) from by
        unfold Dat.leavesExact; rw [liveAt6_6 t hc1], after6_6, acc6_next V c t hnz]
      exact head6_last hc0 hc1
    ·
      have hc1 : ¬cond6_1 (grid6.coords t) := fun h => h1 ((hcond6_1 t).mp h)
      rw [Dat.leavesExact_idle (dat6 V c) 6 t (idleAt6_6 t hc1) (noFlush6_6 t hc1)]
      exact head6_mid hc0 hc1

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Stages.lean ====
import proofs.«405767_j7868380086676_1_alg».proof.Proof.Gen.KernelIdeal.Regions
import proofs.«405767_j7868380086676_1_alg».proof.Proof.KI.Reg0
import proofs.«405767_j7868380086676_1_alg».proof.Proof.KI.Reg1
import proofs.«405767_j7868380086676_1_alg».proof.Proof.KI.Reg2
import proofs.«405767_j7868380086676_1_alg».proof.Proof.KI.Reg3
import proofs.«405767_j7868380086676_1_alg».proof.Proof.KI.Reg4
import proofs.«405767_j7868380086676_1_alg».proof.Proof.KI.Reg5
import proofs.«405767_j7868380086676_1_alg».proof.Proof.KI.Reg6

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F] [Named F]
variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

def X0 (c : Dev nD) : Valuation τ sig (Elt F) := V0 m c

def X1 (c : Dev nD) : Valuation τ sig (Elt F) := StableHlo.after hostOps0 (X0 m c)

def o2_main_v11 (c : Dev nD) : Buf (Elt F) ((c : Thread nD τ).loc main_v11) := (dat0 (rd (X1 m)) c).arrAt 3 cfg0.N

def X2 (c : Dev nD) : Valuation τ sig (Elt F) := Function.update (X1 m c) main_v11 (o2_main_v11 m c)

def X3 (c : Dev nD) : Valuation τ sig (Elt F) := StableHlo.after hostOps1 (X2 m c)

def o4_main_v18 (c : Dev nD) : Buf (Elt F) ((c : Thread nD τ).loc main_v18) := (dat1 (rd (X3 m)) c).arrAt 3 cfg1.N

def X4 (c : Dev nD) : Valuation τ sig (Elt F) := Function.update (X3 m c) main_v18 (o4_main_v18 m c)

def X5 (c : Dev nD) : Valuation τ sig (Elt F) := StableHlo.after hostOps2 (X4 m c)

def X6 (c : Dev nD) : Valuation τ sig (Elt F) := StableHlo.after hostOps2_1 (X5 m c)

def X7 (c : Dev nD) : Valuation τ sig (Elt F) := StableHlo.after hostOps2_2 (X6 m c)

def X8 (c : Dev nD) : Valuation τ sig (Elt F) := StableHlo.after hostOps2_3 (X7 m c)

def o9_main_v32 (c : Dev nD) : Buf (Elt F) ((c : Thread nD τ).loc main_v32) := (dat2 (rd (X8 m)) c).arrAt 3 cfg2.N

def X9 (c : Dev nD) : Valuation τ sig (Elt F) := Function.update (X8 m c) main_v32 (o9_main_v32 m c)

def X10 (c : Dev nD) : Valuation τ sig (Elt F) := StableHlo.after hostOps3 (X9 m c)

def X11 (c : Dev nD) : Valuation τ sig (Elt F) := StableHlo.after hostOps3_1 (X10 m c)

def X12 (c : Dev nD) : Valuation τ sig (Elt F) := StableHlo.after hostOps3_2 (X11 m c)

def X13 (c : Dev nD) : Valuation τ sig (Elt F) := StableHlo.after hostOps3_3 (X12 m c)

def o14_main_v46 (c : Dev nD) : Buf (Elt F) ((c : Thread nD τ).loc main_v46) := (dat3 (rd (X13 m)) c).arrAt 3 cfg3.N

def X14 (c : Dev nD) : Valuation τ sig (Elt F) := Function.update (X13 m c) main_v46 (o14_main_v46 m c)

def X15 (c : Dev nD) : Valuation τ sig (Elt F) := StableHlo.after hostOps4 (X14 m c)

def X16 (c : Dev nD) : Valuation τ sig (Elt F) := StableHlo.after hostOps4_1 (X15 m c)

def X17 (c : Dev nD) : Valuation τ sig (Elt F) := StableHlo.after hostOps4_2 (X16 m c)

def X18 (c : Dev nD) : Valuation τ sig (Elt F) := StableHlo.after hostOps4_3 (X17 m c)

def o19_main_v60 (c : Dev nD) : Buf (Elt F) ((c : Thread nD τ).loc main_v60) := (dat4 (rd (X18 m)) c).arrAt 3 cfg4.N

def X19 (c : Dev nD) : Valuation τ sig (Elt F) := Function.update (X18 m c) main_v60 (o19_main_v60 m c)

def X20 (c : Dev nD) : Valuation τ sig (Elt F) := StableHlo.after hostOps5 (X19 m c)

def X21 (c : Dev nD) : Valuation τ sig (Elt F) := StableHlo.after hostOps5_1 (X20 m c)

def X22 (c : Dev nD) : Valuation τ sig (Elt F) := StableHlo.after hostOps5_2 (X21 m c)

def X23 (c : Dev nD) : Valuation τ sig (Elt F) := StableHlo.after hostOps5_3 (X22 m c)

def o24_main_v74 (c : Dev nD) : Buf (Elt F) ((c : Thread nD τ).loc main_v74) := (dat5 (rd (X23 m)) c).arrAt 3 cfg5.N

def X24 (c : Dev nD) : Valuation τ sig (Elt F) := Function.update (X23 m c) main_v74 (o24_main_v74 m c)

def X25 (c : Dev nD) : Valuation τ sig (Elt F) := StableHlo.after hostOps6 (X24 m c)

def X26 (c : Dev nD) : Valuation τ sig (Elt F) := StableHlo.after hostOps6_1 (X25 m c)

def X27 (c : Dev nD) : Valuation τ sig (Elt F) := StableHlo.after hostOps6_2 (X26 m c)

def X28 (c : Dev nD) : Valuation τ sig (Elt F) := StableHlo.after hostOps6_3 (X27 m c)

def o29_main_v87_0 (c : Dev nD) : Buf (Elt F) ((c : Thread nD τ).loc main_v87_0) := (dat6 (rd (X28 m)) c).arrAt 5 cfg6.N

def o29_main_v87_1 (c : Dev nD) : Buf (Elt F) ((c : Thread nD τ).loc main_v87_1) := (dat6 (rd (X28 m)) c).arrAt 6 cfg6.N

def X29 (c : Dev nD) : Valuation τ sig (Elt F) := Function.update (Function.update (X28 m c) main_v87_0 (o29_main_v87_0 m c)) main_v87_1 (o29_main_v87_1 m c)

def X30 (c : Dev nD) : Valuation τ sig (Elt F) := StableHlo.after hostOps7 (X29 m c)

open Classical in

def outs : Outs (F := F) := fun J r c =>
  if h : J = 2 ∧ r = main_v11 then h.2 ▸ o2_main_v11 m c else
  if h : J = 4 ∧ r = main_v18 then h.2 ▸ o4_main_v18 m c else
  if h : J = 9 ∧ r = main_v32 then h.2 ▸ o9_main_v32 m c else
  if h : J = 14 ∧ r = main_v46 then h.2 ▸ o14_main_v46 m c else
  if h : J = 19 ∧ r = main_v60 then h.2 ▸ o19_main_v60 m c else
  if h : J = 24 ∧ r = main_v74 then h.2 ▸ o24_main_v74 m c else
  if h : J = 29 ∧ r = main_v87_0 then h.2 ▸ o29_main_v87_0 m c else
  if h : J = 29 ∧ r = main_v87_1 then h.2 ▸ o29_main_v87_1 m c else
  m ((c : Thread nD τ).loc r)

theorem outs_2_main_v11 (c : Dev nD) : outs m 2 main_v11 c = o2_main_v11 m c := by
  unfold outs; simp <;> (intro h; exact absurd h (by decide))
theorem outs_4_main_v18 (c : Dev nD) : outs m 4 main_v18 c = o4_main_v18 m c := by
  unfold outs; simp <;> (intro h; exact absurd h (by decide))
theorem outs_9_main_v32 (c : Dev nD) : outs m 9 main_v32 c = o9_main_v32 m c := by
  unfold outs; simp <;> (intro h; exact absurd h (by decide))
theorem outs_14_main_v46 (c : Dev nD) : outs m 14 main_v46 c = o14_main_v46 m c := by
  unfold outs; simp <;> (intro h; exact absurd h (by decide))
theorem outs_19_main_v60 (c : Dev nD) : outs m 19 main_v60 c = o19_main_v60 m c := by
  unfold outs; simp <;> (intro h; exact absurd h (by decide))
theorem outs_24_main_v74 (c : Dev nD) : outs m 24 main_v74 c = o24_main_v74 m c := by
  unfold outs; simp <;> (intro h; exact absurd h (by decide))
theorem outs_29_main_v87_0 (c : Dev nD) : outs m 29 main_v87_0 c = o29_main_v87_0 m c := by
  unfold outs; simp <;> (intro h; exact absurd h (by decide))
theorem outs_29_main_v87_1 (c : Dev nD) : outs m 29 main_v87_1 c = o29_main_v87_1 m c := by
  unfold outs; simp <;> (intro h; exact absurd h (by decide))

theorem V1_eq (c : Dev nD) : V1 m c = X1 m c := rfl
theorem V2_eq (c : Dev nD) : V2 m (outs m) c = X2 m c := by
  show Function.update (V1 m c) main_v11 (outs m 2 main_v11 c) = _; rw [V1_eq, outs_2_main_v11]; rfl
theorem V3_eq (c : Dev nD) : V3 m (outs m) c = X3 m c := by
  show StableHlo.after hostOps1 (V2 m (outs m) c) = _; rw [V2_eq]; rfl
theorem V4_eq (c : Dev nD) : V4 m (outs m) c = X4 m c := by
  show Function.update (V3 m (outs m) c) main_v18 (outs m 4 main_v18 c) = _; rw [V3_eq, outs_4_main_v18]; rfl
theorem V8_eq (c : Dev nD) : V8 m (outs m) c = X8 m c := by
  show StableHlo.after hostOps2_3 (StableHlo.after hostOps2_2 (StableHlo.after hostOps2_1 (StableHlo.after hostOps2 (V4 m (outs m) c)))) = _; rw [V4_eq]; rfl
theorem V9_eq (c : Dev nD) : V9 m (outs m) c = X9 m c := by
  show Function.update (V8 m (outs m) c) main_v32 (outs m 9 main_v32 c) = _; rw [V8_eq, outs_9_main_v32]; rfl
theorem V13_eq (c : Dev nD) : V13 m (outs m) c = X13 m c := by
  show StableHlo.after hostOps3_3 (StableHlo.after hostOps3_2 (StableHlo.after hostOps3_1 (StableHlo.after hostOps3 (V9 m (outs m) c)))) = _; rw [V9_eq]; rfl
theorem V14_eq (c : Dev nD) : V14 m (outs m) c = X14 m c := by
  show Function.update (V13 m (outs m) c) main_v46 (outs m 14 main_v46 c) = _; rw [V13_eq, outs_14_main_v46]; rfl
theorem V18_eq (c : Dev nD) : V18 m (outs m) c = X18 m c := by
  show StableHlo.after hostOps4_3 (StableHlo.after hostOps4_2 (StableHlo.after hostOps4_1 (StableHlo.after hostOps4 (V14 m (outs m) c)))) = _; rw [V14_eq]; rfl
theorem V19_eq (c : Dev nD) : V19 m (outs m) c = X19 m c := by
  show Function.update (V18 m (outs m) c) main_v60 (outs m 19 main_v60 c) = _; rw [V18_eq, outs_19_main_v60]; rfl
theorem V23_eq (c : Dev nD) : V23 m (outs m) c = X23 m c := by
  show StableHlo.after hostOps5_3 (StableHlo.after hostOps5_2 (StableHlo.after hostOps5_1 (StableHlo.after hostOps5 (V19 m (outs m) c)))) = _; rw [V19_eq]; rfl
theorem V24_eq (c : Dev nD) : V24 m (outs m) c = X24 m c := by
  show Function.update (V23 m (outs m) c) main_v74 (outs m 24 main_v74 c) = _; rw [V23_eq, outs_24_main_v74]; rfl
theorem V27_eq (c : Dev nD) : V27 m (outs m) c = X27 m c := by
  show StableHlo.after hostOps6_2 (StableHlo.after hostOps6_1 (StableHlo.after hostOps6 (V24 m (outs m) c))) = _; rw [V24_eq]; rfl
theorem V28_eq (c : Dev nD) : V28 m (outs m) c = X28 m c := by
  show StableHlo.after hostOps6_3 (V27 m (outs m) c) = _; rw [V27_eq]; rfl
theorem V29_eq (c : Dev nD) : V29 m (outs m) c = X29 m c := by
  show Function.update (Function.update (V28 m (outs m) c) main_v87_0 (outs m 29 main_v87_0 c)) main_v87_1 (outs m 29 main_v87_1 c) = _; rw [V28_eq, outs_29_main_v87_0, outs_29_main_v87_1]; rfl
theorem V30_eq (c : Dev nD) : V30 m (outs m) c = X30 m c := by
  show StableHlo.after hostOps7 (V29 m (outs m) c) = _; rw [V29_eq]; rfl

end Cert.KernelIdeal.Hand

end
-- ==== Proof.KI.SegBase.lean ====
import proofs.«405767_j7868380086676_1_alg».proof.Proof.KI.Stages
import Idealize.ShloMosaic.Lib.Pipeline.RegionsLoop
import Idealize.ShloMosaic.Lib.Pipeline.FrameSuffix
import Idealize.ShloMosaic.Lib.Tactic

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat BodyObligation)
open Cert.KernelIdeal Cert.KernelIdeal.Gen

variable {F : FTy → Type} [FloatOps F] [Named F]
variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0
abbrev R (c : Dev nD) : sProp (MT nD τ sig Unit (Elt F) ℕ (UR sig nD τ) ℕ) := iprop((∃ r, prngReg c r) ∗ ∃ W, owes (c : Thread nD τ) (0 : CellTallies nD τ sig Unit) W)

/-- Each region's proof data, at the contents the region is entered with. -/
def pdats : (p : Fin 7) → (c : Dev nD) → Dat τ (Elt F) Unit ℕ (UR sig nD τ) ℕ (cfgs p) c
  | ⟨0, _⟩ => fun c => dat0 (rd (X1 m)) c
  | ⟨1, _⟩ => fun c => dat1 (rd (X3 m)) c
  | ⟨2, _⟩ => fun c => dat2 (rd (X8 m)) c
  | ⟨3, _⟩ => fun c => dat3 (rd (X13 m)) c
  | ⟨4, _⟩ => fun c => dat4 (rd (X18 m)) c
  | ⟨5, _⟩ => fun c => dat5 (rd (X23 m)) c
  | ⟨6, _⟩ => fun c => dat6 (rd (X28 m)) c

/-- The facts all seven proof data share, each by unfolding. -/
theorem pdats_std (p : Fin 7) (c : Dev nD) : (∀ w, (pdats m p c).q w = fullShare) ∧ (∀ t, (pdats m p c).owed t = 0) ∧
    (∀ x, x ∈ (pdats m p c).recorded 0) ∧ (pdats m p c).Φ 0 = Pipeline.ΦA (cfgs p).spec c := by
  fin_cases p <;> exact ⟨fun _ => rfl, fun _ => rfl, fun _ => trivial, rfl⟩

section
variable {p : Fin 7} {c : Dev nD} (dat : Dat τ (Elt F) Unit ℕ (UR sig nD τ) ℕ (cfgs p) c) (Xin Y : Valuation τ sig (Elt F))
  (Q : Fin (cfgs p).W → Prop)

/-- Y holds the array of each window in Q at its final contents and agrees with Xin at every buffer that is no window's array. -/
def Upd : Prop :=
  (∀ w, Q w → dat.arrAt w (cfgs p).N = Y (Pipeline.arrRef (cfgs p).spec w)) ∧
    ∀ b, b ∉ Finset.univ.image (Pipeline.arrRef (cfgs p).spec) → Y b = Xin b

variable {dat Xin Y Q}

/-- For an input window the contents at every point are the entry contents. -/
theorem Upd.base (hA : ∀ w, dat.A w = Xin (Pipeline.arrRef (cfgs p).spec w)) :
    Upd dat Xin Xin fun w => ((cfgs p).win w).isOut = false :=
  ⟨fun w h => (dat.arrAt_in w h _).trans (hA w), fun _ _ => rfl⟩

/-- The windows' arrays are distinct buffers, so replacing one by its final contents disturbs nothing else. -/
theorem Upd.step (hw : Pipeline.WinFacts (cfgs p).spec) (h : Upd dat Xin Y Q) (wo : Fin (cfgs p).W) :
    Upd dat Xin (Function.update Y (Proc.devRef .tc (Pipeline.arrRef (cfgs p).spec wo)) (dat.arrAt wo (cfgs p).N)) fun w => Q w ∨ w = wo :=
  ⟨fun w hq => by
    by_cases e : w = wo
    · subst e; exact (Function.update_self (α := DevRef τ sig) _ _ Y).symm
    · exact (h.1 w (hq.resolve_right e)).trans (Function.update_of_ne (StableHlo.devRef_ne_of_ne fun h' => e (hw.arr_inj h')) _ _).symm,
  fun b hb => (Function.update_of_ne (StableHlo.devRef_ne_of_ne fun e => hb (Finset.mem_image.mpr ⟨wo, Finset.mem_univ _, e.symm⟩)) _ _).trans (h.2 b hb)⟩

end

set_option backward.isDefEq.respectTransparency.types false in
/-- Region p as one item of the program: entered with every buffer at Xin, left with every buffer at Xout. -/
def regSeg (p : Fin 7) (launch : Pipeline.LaunchFacts (nD := nD) (τ := τ) cfgs p) (Xin Xout : Dev nD → Valuation τ sig (Elt F))
    (hbody : ∀ c, BodyObligation (pdats m p c) (defs₀ (F := F)) Variants.none () Set.univ)
    (hA : ∀ c w, (pdats m p c).A w = rd Xin c (Pipeline.arrRef (cfgs p).spec w))
    (hΦN : ∀ c, (pdats m p c).Φ (Fin.last _) ⊢ Pipeline.ΦA (cfgs p).spec c)
    {Q : Fin (cfgs p).W → Prop} (hQ : ∀ w, Q w) (hX : ∀ c, Upd (pdats m p c) (Xin c) (Xout c) Q) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p fun c => (pdats_std m p c).2.1
  pre c := iprop(StableHlo.held (c : Thread nD τ) (Pipeline.ucRefs τ sig) (Xin c) ∗ R c)
  post c := iprop(StableHlo.held (c : Thread nD τ) (Pipeline.ucRefs τ sig) (Xout c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Xin c)
  hentry c := by
    rw [Pipeline.ownSems0_none]
    have hsplit := Pipeline.arrays_of_unscopedBufs (p := p) (pcfgs (F := F)) adm (pdats m) launch.win launch.arr_whole c
      ((pdats m p c).share_full (pdats_std m p c).1) (rd Xin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [(pdats_std m p c).2.1]
      icases HO with ⟨%W, HO⟩; iexists W; isplitr; · ipureintro; exact fun _ _ => Or.inl ((pdats_std m p c).2.2.1 _)
      iexact HO
    isplitl [Hp]; · iexact Hp
    iexact Hrest
  hin c := by
    rw [(pdats_std m p c).2.2.2]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (pdats_std m p c).1)
      (rd Xin c) (rd Xout c) ((pdats m p c).arrAt · (cfgs p).N) (fun w => (hX c).1 w (hQ w)) (hX c).2
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [(pdats_std m p c).2.1]
    icases HO with ⟨%W, -, HO⟩; iexists W; iexact HO

end Cert.KernelIdeal.Hand

end
-- ==== Proof.KI.Segs.lean ====
import proofs.«405767_j7868380086676_1_alg».proof.Proof.KI.SegBase

set_option backward.isDefEq.respectTransparency.types false

noncomputable section

namespace Cert.KernelIdeal.Hand

open Idealize.ShloMosaic Cert.KernelIdeal Cert.KernelIdeal.Gen

variable {F : FTy → Type} [FloatOps F] [Named F]
variable (m : (ℓ : Loc nD τ sig) → Buf (Elt F) ℓ)

def reg0 := regSeg m 0 launch0 (X1 m) (X2 m) (body_obligation0 _) (fun _ _ => rfl) (fun _ => .rfl) (by decide)
  fun c => .step launch0.win (.base fun _ => rfl) 3

def reg1 := regSeg m 1 launch1 (X3 m) (X4 m) (body_obligation1 _) (fun _ _ => rfl) (fun _ => .rfl) (by decide)
  fun c => .step launch1.win (.base fun _ => rfl) 3

def reg2 := regSeg m 2 launch2 (X8 m) (X9 m) (body_obligation2 _) (fun _ _ => rfl) (fun _ => .rfl) (by decide)
  fun c => .step launch2.win (.base fun _ => rfl) 3

def reg3 := regSeg m 3 launch3 (X13 m) (X14 m) (body_obligation3 _) (fun _ _ => rfl) (fun _ => .rfl) (by decide)
  fun c => .step launch3.win (.base fun _ => rfl) 3

def reg4 := regSeg m 4 launch4 (X18 m) (X19 m) (body_obligation4 _) (fun _ _ => rfl) (fun _ => .rfl) (by decide)
  fun c => .step launch4.win (.base fun _ => rfl) 3

def reg5 := regSeg m 5 launch5 (X23 m) (X24 m) (body_obligation5 _) (fun _ _ => rfl) (fun _ => .rfl) (by decide)
  fun c => .step launch5.win (.base fun _ => rfl) 3

def reg6 := regSeg m 6 launch6 (X28 m) (X29 m) (body_obligation6 _) (fun _ _ => rfl) (Φ6_last_le _) (by decide)
  fun c => .step launch6.win (.step launch6.win (.base fun _ => rfl) 5) 6

end Cert.KernelIdeal.Hand

end
-- ==== Proof.KI.RunNamed.lean ====
import proofs.«405767_j7868380086676_1_alg».proof.Proof.KI.Segs

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

/-- Equal contents give the same thread state. -/
theorem held_congr {V X : Valuation τ sig (Elt F)} (h : V = X) (c : Dev nD) :
    iprop(StableHlo.held (c : Thread nD τ) (Pipeline.ucRefs τ sig) V ∗ R c)
      ⊢ (iprop(StableHlo.held (c : Thread nD τ) (Pipeline.ucRefs τ sig) X ∗ R c) : sProp 𝕄) := by
  subst h; exact .rfl

set_option backward.isDefEq.respectTransparency.types false in
/-- Every weakly fair execution of the program terminates, and at the end every unscoped buffer holds the last stage's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V30 m (outs m) c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m) (reg3 m) (reg4 m) (reg5 m) (reg6 m))
    (fun c Q => by
      rewrite [main_chain c, Seg.run_eq_chain,
        show (segs m (outs m) 𝒱₀ L lv (fun _ c => R c) () (pdats m) (reg0 m) (reg1 m) (reg2 m) (reg3 m) (reg4 m) (reg5 m) (reg6 m) c).map Seg.prog = [
          StableHlo.seq hostOps0, Prog.lift (.customCall (Pipeline.entry 0) ()), StableHlo.seq hostOps1, Prog.lift (.customCall (Pipeline.entry 1) ()),
          StableHlo.seq hostOps2, StableHlo.seq hostOps2_1, StableHlo.seq hostOps2_2, StableHlo.seq hostOps2_3, Prog.lift (.customCall (Pipeline.entry 2) ()),
          StableHlo.seq hostOps3, StableHlo.seq hostOps3_1, StableHlo.seq hostOps3_2, StableHlo.seq hostOps3_3, Prog.lift (.customCall (Pipeline.entry 3) ()),
          StableHlo.seq hostOps4, StableHlo.seq hostOps4_1, StableHlo.seq hostOps4_2, StableHlo.seq hostOps4_3, Prog.lift (.customCall (Pipeline.entry 4) ()),
          StableHlo.seq hostOps5, StableHlo.seq hostOps5_1, StableHlo.seq hostOps5_2, StableHlo.seq hostOps5_3, Prog.lift (.customCall (Pipeline.entry 5) ()),
          StableHlo.seq hostOps6, StableHlo.seq hostOps6_1, StableHlo.seq hostOps6_2, StableHlo.seq hostOps6_3, Prog.lift (.customCall (Pipeline.entry 6) ()),
          StableHlo.seq hostOps7 ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (V30 m (outs m) c))
    (hch := fun c => ⟨.rfl, held_congr (V1_eq m c) c, held_congr (V2_eq m c).symm c, held_congr (V3_eq m c) c, held_congr (V4_eq m c).symm c, .rfl, .rfl, .rfl, held_congr (V8_eq m c) c, held_congr (V9_eq m c).symm c, .rfl, .rfl, .rfl,
      held_congr (V13_eq m c) c, held_congr (V14_eq m c).symm c, .rfl, .rfl, .rfl, held_congr (V18_eq m c) c, held_congr (V19_eq m c).symm c, .rfl, .rfl, .rfl, held_congr (V23_eq m c) c, held_congr (V24_eq m c).symm c, .rfl, .rfl, .rfl,
      held_congr (V28_eq m c) c, held_congr (V29_eq m c).symm c, sep_mono .rfl (by iintro ⟨-, HO⟩; iexact HO)⟩)
    (hinit := Pipeline.initEach L lv fun c => by
      rw [← Pipeline.unscopedBufs_held (Ix := Unit) (Name := ℕ) (U := UR sig nD τ) (Lvl := ℕ) c (V0 m c)]
      iintro ⟨⟨Hb, -, HO, -, Hp, -⟩, -⟩
      imodintro
      isplitl [Hb]; · iexact Hb
      isplitl [Hp]; · iexists _; iexact Hp
      iexists ∅; iexact HO)
    (QY := fun c s => ∀ b ∈ Pipeline.ucRefs τ sig, s.mem ((c : Thread nD τ).1, b) = V30 m (outs m) c b)
    (hfin := fun c s' => ?_) (hQ := fun _ h => h)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · unfold StableHlo.held
    iintro ⟨Hh, HSI⟩
    ihave Hr := (pointsTo_read_all (Pipeline.ucRefs τ sig) (fun b => ((c : Thread nD τ).1, b)) (V30 m (outs m) c) s') $$ [Hh HSI]
    · isplitl [Hh] <;> iassumption
    icases Hr with ⟨%h, HSI⟩
    imodintro
    isplitr
    · ipureintro; exact h
    · iexact HSI

/-- The run read at the three results and the eleven arguments: the results hold the last stage's contents, the arguments are as launched. -/
theorem run_named : θ_run defs (onTc (τ := τ) (main (F := F))) ⟨m, fun _ => 0, ρ⟩ (fun r => ∀ c : Dev nD,
      r.2.mem ((c.tc : Thread nD τ).loc main_v87_0) = X30 m c main_v87_0
      ∧ r.2.mem ((c.tc : Thread nD τ).loc main_v87_1) = X30 m c main_v87_1
      ∧ r.2.mem ((c.tc : Thread nD τ).loc main_v89) = X30 m c main_v89
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    have hb : ∀ b : Ref sig .tc, ¬ (Proc.devRef .tc b : DevRef τ sig).isScoped →
        r.2.mem ((c.tc : Thread nD τ).loc b) = V30 m (outs m) c b :=
      fun b hs => h c _ (Finset.mem_filter.mpr ⟨StableHlo.devRef_mem_tcRefs b, hs⟩)
    ⟨(hb main_v87_0 (by decide)).trans (congrFun (V30_eq m c) _), (hb main_v87_1 (by decide)).trans (congrFun (V30_eq m c) _),
     (hb main_v89 (by decide)).trans (congrFun (V30_eq m c) _),
     (hb main_arg0 (by decide)).trans (V30_main_arg0 m (outs m) c),
     (hb main_arg1 (by decide)).trans (V30_main_arg1 m (outs m) c),
     (hb main_arg2 (by decide)).trans (V30_main_arg2 m (outs m) c),
     (hb main_arg3 (by decide)).trans (V30_main_arg3 m (outs m) c),
     (hb main_arg4 (by decide)).trans (V30_main_arg4 m (outs m) c),
     (hb main_arg5 (by decide)).trans (V30_main_arg5 m (outs m) c),
     (hb main_arg6 (by decide)).trans (V30_main_arg6 m (outs m) c),
     (hb main_arg7 (by decide)).trans (V30_main_arg7 m (outs m) c),
     (hb main_arg8 (by decide)).trans (V30_main_arg8 m (outs m) c),
     (hb main_arg9 (by decide)).trans (V30_main_arg9 m (outs m) c),
     (hb main_arg10 (by decide)).trans (V30_main_arg10 m (outs m) c)⟩)
    (run_all m ρ)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Mat (n m : Nat) : Type := (⟨2, ![n, m]⟩ : Shape).Idx → EReal

abbrev RVec (n : Nat) : Type := (⟨1, ![n]⟩ : Shape).Idx → EReal

abbrev WVec (n : Nat) : Type := (⟨1, ![n]⟩ : Shape).Idx → BitVec 32

abbrev Ten5 : Type := (⟨3, ![5, 128, 128]⟩ : Shape).Idx → EReal

def affine {N K M : Nat} (x : Mat N K) (wt : Mat K M) (b : Mat 1 M) : Mat N M :=
  fun i => (∑ k : Fin K, x (ix2 (i 0) k) * wt (ix2 k (i 1))) + b (ix2 0 (i 1))

def rowOf (src : WVec 640000) (e : Fin 640000) : Fin 40000 :=
  ⟨(src (ix1 e)).toNat % 40000, Nat.mod_lt _ (by decide)⟩

def invSq (dist : RVec 640000) : RVec 640000 :=
  fun i => Ideal.div (Ideal.ofBits .f32 0x3F800000#32)
    ((dist i + Ideal.ofBits .f32 0x358637BD#32) * (dist i + Ideal.ofBits .f32 0x358637BD#32))

def msg (h : Mat 40000 128) (W : Ten5) (B : Mat 5 128) (l : Fin 5) (src : WVec 640000) (w : RVec 640000) : Mat 640000 128 :=
  fun i => ((∑ k : Fin 128, h (ix2 (rowOf src (i 0)) k) * W (ix3 l (i 1) k)) + B (ix2 l (i 1))) * w (ix1 (i 0))

def logits (h : Mat 40000 128) (cW : Mat 3 128) (cb : RVec 3) : Mat 40000 3 :=
  fun i => (∑ k : Fin 128, h (ix2 (i 0) k) * cW (ix2 (i 1) k)) + cb (ix1 (i 1))

def rowMax (z : Mat 40000 3) (n : Fin 40000) : EReal :=
  max (Ideal.ofBits .f32 0xFF800000#32)
    ((Finset.univ : Finset (Fin 3)).fold max (Ideal.ofBits .f32 0xFF800000#32) fun q => z (ix2 n q))

def softmax3 (z : Mat 40000 3) : Mat 40000 3 :=
  fun i => Ideal.div (Ideal.exp (z i - rowMax z (i 0))) (∑ q : Fin 3, Ideal.exp (z (ix2 (i 0) q) - rowMax z (i 0)))

def colSum (h : Mat 40000 128) (k : Fin 128) : EReal := ∑ n : Fin 40000, h (ix2 n k)

def energy (h : Mat 40000 128) (eW : Mat 1 128) (eb : RVec 1) : Mat 1 1 :=
  fun _ => (∑ k : Fin 128, (colSum h k * ((1 / 40000 : ℝ) : EReal)) * eW (ix2 0 k)) + eb (ix1 0)

theorem sum_blocks (f : Fin 40000 → EReal) :
    ∑ n : Fin 40000, f n = ∑ t : Fin 8, ∑ r : Fin 5000, f ⟨5000 * t.val + r.val, by omega⟩ := by

  have h := (Equiv.sum_comp (finProdFinEquiv : Fin 8 × Fin 5000 ≃ Fin (8 * 5000)) (fun n => f n)).symm
  rw [Fintype.sum_prod_type] at h
  refine h.trans ?_
  refine Finset.sum_congr rfl fun t _ => Finset.sum_congr rfl fun r _ => ?_
  refine congrArg f (Fin.ext ?_)
  rw [finProdFinEquiv_apply_val]
  show r.val + 5000 * t.val = 5000 * t.val + r.val
  omega

end Cert.Spec

end
-- ==== Proof.Chain.lean ====
import proofs.«405767_j7868380086676_1_alg».proof.KernelIdeal
import proofs.«405767_j7868380086676_1_alg».proof.Proof.Spec

noncomputable section

namespace Cert.Chain

open Idealize.ShloMosaic Idealize.ShloMosaic.ValueIdx Cert.KernelIdeal Cert.Spec

variable [hK : Cert.KernelIdeal.Facts]
open Cert.KernelIdeal.Facts Cert.KernelIdeal.Facts₀

def srcOf (ei : IVec S2x640000 32) : IVec S640000 32 :=
  shapeCast S640000 (extractStridedSlice S1x640000 ![0, 0] ei slices_S2x640000_S1x640000_0_0) shapeCasts_S1x640000_S640000

def dstCol (ei : IVec S2x640000 32) : IVec S640000x1 32 :=
  broadcastInDim S640000x1 ![0] bcast_S640000_S640000x1_0
    (shapeCast S640000 (extractStridedSlice S1x640000 ![1, 0] ei slices_S2x640000_S1x640000_1_0) shapeCasts_S1x640000_S640000)

def step (msg : FVec Ideal S640000x128 .f32) (dc : IVec S640000x1 32) : FVec Ideal S40000x128 .f32 :=
  maximumf
    (Host.scatterAdd scatter_S40000x128_S640000x1_S640000x128_1_0_0_1
      (broadcastInDim S40000x128 ![] bcast_S_S40000x128 (constant (F := Ideal) S_ .f32 0x00000000#32)) dc msg)
    (broadcastInDim S40000x128 ![] bcast_S_S40000x128 (constant (F := Ideal) S_ .f32 0x00000000#32))

def hid (x : FVec Ideal S40000x7 .f32) (ei : IVec S2x640000 32) (dist : FVec Ideal S640000 .f32)
    (eW : FVec Ideal S128x7 .f32) (eb : FVec Ideal S128 .f32) (cW : FVec Ideal S5x128x128 .f32) (cB : FVec Ideal S5x128 .f32) :
    ℕ → FVec Ideal S40000x128 .f32
  | 0 => Spec.affine (N := 40000) (K := 7) (M := 128) x (fun i => eW (ix2 (i 1) (i 0))) (fun i => eb (ix1 (i 1)))
  | l + 1 => step (Spec.msg (hid x ei dist eW eb cW cB l) cW cB ⟨l % 5, Nat.mod_lt _ (by decide)⟩ (srcOf ei) (Spec.invSq dist)) (dstCol ei)

def probs (h : FVec Ideal S40000x128 .f32) (clW : FVec Ideal S3x128 .f32) (clb : FVec Ideal S3 .f32) : FVec Ideal S40000x3 .f32 :=
  Spec.softmax3 (Spec.logits h clW clb)

def energy (h : FVec Ideal S40000x128 .f32) (enW : FVec Ideal S1x128 .f32) (enb : FVec Ideal S1 .f32) : FVec Ideal S1x1 .f32 :=
  Spec.energy h enW enb

def stable (en : FVec Ideal S1x1 .f32) : IVec S1x1 1 :=
  cmpf .olt en (broadcastInDim S1x1 ![] bcast_S_S1x1 (constant (F := Ideal) S_ .f32 0xBF800000#32))

end Cert.Chain

end
-- ==== Proof.KI.HostValEnd.lean ====
import proofs.«405767_j7868380086676_1_alg».proof.Proof.KI.Stages
import proofs.«405767_j7868380086676_1_alg».proof.Proof.Chain
import Idealize.ShloMosaic.Lib.StableHlo.Run
import Idealize.ShloMosaic.Lib.ValueLayout
import Idealize.ShloMosaic.Lib.IdealHost

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open Idealize.ShloMosaic.StableHlo (after after_cons after_nil)
open scoped BigOperators

section Stretch
variable (W : Valuation τ sig (Elt Ideal))

theorem s63_clW : after (hostOps6_3 (F := Ideal)) W (Proc.devRef .tc main_v83)
    = fun i : S128x3.Idx => (W main_arg7 : FVec Ideal S3x128 .f32) (ix2 (i 1) (i 0)) := by
  unfold hostOps6_3
  after_results
  funext i
  rw [eq_ix2 i]
  exact transpose_ix2_apply _ _ _ _

theorem s63_clB : after (hostOps6_3 (F := Ideal)) W (Proc.devRef .tc main_v84)
    = fun i : S1x3.Idx => (W main_arg8 : FVec Ideal S3 .f32) (ix1 (i 1)) := by
  unfold hostOps6_3
  after_results
  funext i
  rw [eq_ix2 i]
  exact shapeCast_a_1a_apply _ _ _ _

theorem s63_enW : after (hostOps6_3 (F := Ideal)) W (Proc.devRef .tc main_v85)
    = fun i : S128x1.Idx => (W main_arg9 : FVec Ideal S1x128 .f32) (ix2 (i 1) (i 0)) := by
  unfold hostOps6_3
  after_results
  funext i
  rw [eq_ix2 i]
  exact transpose_ix2_apply _ _ _ _

theorem s63_enB : after (hostOps6_3 (F := Ideal)) W (Proc.devRef .tc main_v86)
    = fun i : S1x1.Idx => (W main_arg10 : FVec Ideal S1 .f32) (ix1 (i 1)) := by
  unfold hostOps6_3
  after_results
  funext i
  rw [eq_ix2 i]
  exact shapeCast_a_1a_apply _ _ _ _

theorem s7_stable : after (hostOps7 (F := Ideal)) W (Proc.devRef .tc main_v89)
    = Cert.Chain.stable (W main_v87_1) := by
  unfold hostOps7
  after_results
  rfl

end Stretch

section End
variable (m : (ℓ : Loc nD τ sig) → Buf (Elt Ideal) ℓ)

theorem X27_of_end (c : Dev nD) (r : Ref sig .tc) (h28 : r ∉ hostOps6_3_W) (h29 : r ∉ ([main_v87_0, main_v87_1] : List (Ref sig .tc)))
    (h30 : r ∉ hostOps7_W) (hend : V30 m (outs m) c r = m ((c : Thread nD τ).loc r)) :
    X27 m c r = m ((c : Thread nD τ).loc r) := by
  rw [← V27_eq]
  exact (V28_of m (outs m) c r h28).symm.trans <| (V29_of m (outs m) c r h29).symm.trans <|
    (V30_of m (outs m) c r h30).symm.trans hend

theorem X28_v83 (c : Dev nD) : X28 m c main_v83
    = fun i : S128x3.Idx => (m ((c : Thread nD τ).loc main_arg7) : FVec Ideal S3x128 .f32) (ix2 (i 1) (i 0)) := by
  show after (hostOps6_3 (F := Ideal)) (X27 m c) (Proc.devRef .tc main_v83) = _
  rw [s63_clW, X27_of_end m c main_arg7 (by decide) (by decide) (by decide) (V30_main_arg7 m (outs m) c)]

theorem X28_v84 (c : Dev nD) : X28 m c main_v84
    = fun i : S1x3.Idx => (m ((c : Thread nD τ).loc main_arg8) : FVec Ideal S3 .f32) (ix1 (i 1)) := by
  show after (hostOps6_3 (F := Ideal)) (X27 m c) (Proc.devRef .tc main_v84) = _
  rw [s63_clB, X27_of_end m c main_arg8 (by decide) (by decide) (by decide) (V30_main_arg8 m (outs m) c)]

theorem X28_v85 (c : Dev nD) : X28 m c main_v85
    = fun i : S128x1.Idx => (m ((c : Thread nD τ).loc main_arg9) : FVec Ideal S1x128 .f32) (ix2 (i 1) (i 0)) := by
  show after (hostOps6_3 (F := Ideal)) (X27 m c) (Proc.devRef .tc main_v85) = _
  rw [s63_enW, X27_of_end m c main_arg9 (by decide) (by decide) (by decide) (V30_main_arg9 m (outs m) c)]

theorem X28_v86 (c : Dev nD) : X28 m c main_v86
    = fun i : S1x1.Idx => (m ((c : Thread nD τ).loc main_arg10) : FVec Ideal S1 .f32) (ix1 (i 1)) := by
  show after (hostOps6_3 (F := Ideal)) (X27 m c) (Proc.devRef .tc main_v86) = _
  rw [s63_enB, X27_of_end m c main_arg10 (by decide) (by decide) (by decide) (V30_main_arg10 m (outs m) c)]

theorem X29_v87_0 (c : Dev nD) : X29 m c main_v87_0 = o29_main_v87_0 m c := by
  unfold X29
  rw [Function.update_of_ne (StableHlo.devRef_ne_of_ne (by decide) : (Proc.devRef .tc main_v87_0 : DevRef τ sig) ≠ Proc.devRef .tc main_v87_1),
    Function.update_self]

theorem X29_v87_1 (c : Dev nD) : X29 m c main_v87_1 = o29_main_v87_1 m c := by
  unfold X29
  rw [Function.update_self]

theorem X30_v87_0 (c : Dev nD) : X30 m c main_v87_0 = o29_main_v87_0 m c := by
  rw [← V30_eq, V30_of m (outs m) c main_v87_0 (by decide), V29_eq, X29_v87_0]

theorem X30_v87_1 (c : Dev nD) : X30 m c main_v87_1 = o29_main_v87_1 m c := by
  rw [← V30_eq, V30_of m (outs m) c main_v87_1 (by decide), V29_eq, X29_v87_1]

theorem affine_eq_logits (H : Cert.Spec.Mat 40000 128) (cW : Cert.Spec.Mat 3 128) (cb : Cert.Spec.RVec 3) :
    Cert.Spec.affine (N := 40000) (K := 128) (M := 3) H (fun i => cW (ix2 (i 1) (i 0))) (fun i => cb (ix1 (i 1)))
      = Cert.Spec.logits H cW cb := rfl

abbrev HeadProbs : Prop :=
  ∀ (V : (c : Dev nD) → (b : Ref sig .tc) → Buf (Elt Ideal) ((c : Thread nD τ).loc b)) (c : Dev nD),
    ((dat6 (F := Ideal) V c).arrAt 5 cfg6.N : S40000x3.Idx → EReal)
      = Cert.Spec.softmax3 (Cert.Spec.affine (N := 40000) (K := 128) (M := 3) (V c main_v82) (V c main_v83) (V c main_v84))

abbrev HeadEnergy : Prop :=
  ∀ (V : (c : Dev nD) → (b : Ref sig .tc) → Buf (Elt Ideal) ((c : Thread nD τ).loc b)) (c : Dev nD),
    ((dat6 (F := Ideal) V c).arrAt 6 cfg6.N : S1x1.Idx → EReal)
      = fun _ => (∑ k : Fin 128, (Cert.Spec.colSum (V c main_v82) k * ((1 / 40000 : ℝ) : EReal)) * (V c main_v85 : S128x1.Idx → EReal) (ValueIdx.ix2 k 0))
          + (V c main_v86 : S1x1.Idx → EReal) (ValueIdx.ix2 0 0)

theorem kernel_probs (hprobs : HeadProbs) (c : Dev nD) (H : FVec Ideal S40000x128 .f32) (hh : (X28 m c main_v82 : S40000x128.Idx → EReal) = H) :
    X30 m c main_v87_0 = Cert.Chain.probs H (m ((c.tc : Thread nD τ).loc main_arg7)) (m ((c.tc : Thread nD τ).loc main_arg8)) := by
  rw [X30_v87_0]
  unfold o29_main_v87_0
  refine (hprobs (rd (X28 m)) c).trans ?_
  show Cert.Spec.softmax3 (Cert.Spec.affine (N := 40000) (K := 128) (M := 3) (X28 m c main_v82) (X28 m c main_v83) (X28 m c main_v84)) = _
  rw [hh, X28_v83, X28_v84]
  exact congrArg Cert.Spec.softmax3 (affine_eq_logits H _ _)

theorem energy_eq (henergy : HeadEnergy) (c : Dev nD) (H : FVec Ideal S40000x128 .f32) (hh : (X28 m c main_v82 : S40000x128.Idx → EReal) = H) :
    o29_main_v87_1 m c = Cert.Chain.energy H (m ((c.tc : Thread nD τ).loc main_arg9)) (m ((c.tc : Thread nD τ).loc main_arg10)) := by
  unfold o29_main_v87_1
  refine (henergy (rd (X28 m)) c).trans ?_
  show (fun _ => (∑ k : Fin 128, (Cert.Spec.colSum (X28 m c main_v82) k * ((1 / 40000 : ℝ) : EReal)) * (X28 m c main_v85 : S128x1.Idx → EReal) (ix2 k 0))
      + (X28 m c main_v86 : S1x1.Idx → EReal) (ix2 0 0)) = _
  rw [hh, X28_v85, X28_v86]
  rfl

theorem kernel_energy (henergy : HeadEnergy) (c : Dev nD) (H : FVec Ideal S40000x128 .f32) (hh : (X28 m c main_v82 : S40000x128.Idx → EReal) = H) :
    X30 m c main_v87_1 = Cert.Chain.energy H (m ((c.tc : Thread nD τ).loc main_arg9)) (m ((c.tc : Thread nD τ).loc main_arg10)) := by
  rw [X30_v87_1]
  exact energy_eq m henergy c H hh

theorem kernel_stable (henergy : HeadEnergy) (c : Dev nD) (H : FVec Ideal S40000x128 .f32) (hh : (X28 m c main_v82 : S40000x128.Idx → EReal) = H) :
    X30 m c main_v89 = Cert.Chain.stable (Cert.Chain.energy H (m ((c.tc : Thread nD τ).loc main_arg9)) (m ((c.tc : Thread nD τ).loc main_arg10))) := by
  show after (hostOps7 (F := Ideal)) (X29 m c) (Proc.devRef .tc main_v89) = _
  rw [s7_stable, X29_v87_1, energy_eq m henergy c H hh]

end End

end Cert.KernelIdeal.Hand

end
-- ==== Proof.KI.HostKeep.lean ====
import proofs.«405767_j7868380086676_1_alg».proof.Proof.KI.Stages

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F] [Named F]
variable (m : (ℓ : Loc nD τ sig) → Buf (Elt F) ℓ) (c : Dev nD)

theorem X1_of (r : Ref sig .tc) (h : r ∉ hostOps0_W) : X1 m c r = X0 m c r :=
  StableHlo.after_of_writes_sub hostOps0 _ hostOps0_writes h
theorem X2_of (r : Ref sig .tc) (h : r ∉ ([main_v11] : List (Ref sig .tc))) : X2 m c r = X1 m c r :=
  Function.update_of_ne (StableHlo.devRef_ne_of_ne (List.ne_of_not_mem_cons h) : (Proc.devRef .tc r : DevRef τ sig) ≠ Proc.devRef .tc main_v11) _ _
theorem X2_at : X2 m c main_v11 = o2_main_v11 m c := Function.update_self _ _ _
theorem X3_of (r : Ref sig .tc) (h : r ∉ hostOps1_W) : X3 m c r = X2 m c r :=
  StableHlo.after_of_writes_sub hostOps1 _ hostOps1_writes h
theorem X4_of (r : Ref sig .tc) (h : r ∉ ([main_v18] : List (Ref sig .tc))) : X4 m c r = X3 m c r :=
  Function.update_of_ne (StableHlo.devRef_ne_of_ne (List.ne_of_not_mem_cons h) : (Proc.devRef .tc r : DevRef τ sig) ≠ Proc.devRef .tc main_v18) _ _
theorem X4_at : X4 m c main_v18 = o4_main_v18 m c := Function.update_self _ _ _
theorem X5_of (r : Ref sig .tc) (h : r ∉ hostOps2_W) : X5 m c r = X4 m c r :=
  StableHlo.after_of_writes_sub hostOps2 _ hostOps2_writes h
theorem X6_of (r : Ref sig .tc) (h : r ∉ hostOps2_1_W) : X6 m c r = X5 m c r :=
  StableHlo.after_of_writes_sub hostOps2_1 _ hostOps2_1_writes h
theorem X7_of (r : Ref sig .tc) (h : r ∉ hostOps2_2_W) : X7 m c r = X6 m c r :=
  StableHlo.after_of_writes_sub hostOps2_2 _ hostOps2_2_writes h
theorem X8_of (r : Ref sig .tc) (h : r ∉ hostOps2_3_W) : X8 m c r = X7 m c r :=
  StableHlo.after_of_writes_sub hostOps2_3 _ hostOps2_3_writes h
theorem X9_of (r : Ref sig .tc) (h : r ∉ ([main_v32] : List (Ref sig .tc))) : X9 m c r = X8 m c r :=
  Function.update_of_ne (StableHlo.devRef_ne_of_ne (List.ne_of_not_mem_cons h) : (Proc.devRef .tc r : DevRef τ sig) ≠ Proc.devRef .tc main_v32) _ _
theorem X9_at : X9 m c main_v32 = o9_main_v32 m c := Function.update_self _ _ _
theorem X10_of (r : Ref sig .tc) (h : r ∉ hostOps3_W) : X10 m c r = X9 m c r :=
  StableHlo.after_of_writes_sub hostOps3 _ hostOps3_writes h
theorem X11_of (r : Ref sig .tc) (h : r ∉ hostOps3_1_W) : X11 m c r = X10 m c r :=
  StableHlo.after_of_writes_sub hostOps3_1 _ hostOps3_1_writes h
theorem X12_of (r : Ref sig .tc) (h : r ∉ hostOps3_2_W) : X12 m c r = X11 m c r :=
  StableHlo.after_of_writes_sub hostOps3_2 _ hostOps3_2_writes h
theorem X13_of (r : Ref sig .tc) (h : r ∉ hostOps3_3_W) : X13 m c r = X12 m c r :=
  StableHlo.after_of_writes_sub hostOps3_3 _ hostOps3_3_writes h
theorem X14_of (r : Ref sig .tc) (h : r ∉ ([main_v46] : List (Ref sig .tc))) : X14 m c r = X13 m c r :=
  Function.update_of_ne (StableHlo.devRef_ne_of_ne (List.ne_of_not_mem_cons h) : (Proc.devRef .tc r : DevRef τ sig) ≠ Proc.devRef .tc main_v46) _ _
theorem X14_at : X14 m c main_v46 = o14_main_v46 m c := Function.update_self _ _ _
theorem X15_of (r : Ref sig .tc) (h : r ∉ hostOps4_W) : X15 m c r = X14 m c r :=
  StableHlo.after_of_writes_sub hostOps4 _ hostOps4_writes h
theorem X16_of (r : Ref sig .tc) (h : r ∉ hostOps4_1_W) : X16 m c r = X15 m c r :=
  StableHlo.after_of_writes_sub hostOps4_1 _ hostOps4_1_writes h
theorem X17_of (r : Ref sig .tc) (h : r ∉ hostOps4_2_W) : X17 m c r = X16 m c r :=
  StableHlo.after_of_writes_sub hostOps4_2 _ hostOps4_2_writes h
theorem X18_of (r : Ref sig .tc) (h : r ∉ hostOps4_3_W) : X18 m c r = X17 m c r :=
  StableHlo.after_of_writes_sub hostOps4_3 _ hostOps4_3_writes h
theorem X19_of (r : Ref sig .tc) (h : r ∉ ([main_v60] : List (Ref sig .tc))) : X19 m c r = X18 m c r :=
  Function.update_of_ne (StableHlo.devRef_ne_of_ne (List.ne_of_not_mem_cons h) : (Proc.devRef .tc r : DevRef τ sig) ≠ Proc.devRef .tc main_v60) _ _
theorem X19_at : X19 m c main_v60 = o19_main_v60 m c := Function.update_self _ _ _
theorem X20_of (r : Ref sig .tc) (h : r ∉ hostOps5_W) : X20 m c r = X19 m c r :=
  StableHlo.after_of_writes_sub hostOps5 _ hostOps5_writes h
theorem X21_of (r : Ref sig .tc) (h : r ∉ hostOps5_1_W) : X21 m c r = X20 m c r :=
  StableHlo.after_of_writes_sub hostOps5_1 _ hostOps5_1_writes h
theorem X22_of (r : Ref sig .tc) (h : r ∉ hostOps5_2_W) : X22 m c r = X21 m c r :=
  StableHlo.after_of_writes_sub hostOps5_2 _ hostOps5_2_writes h
theorem X23_of (r : Ref sig .tc) (h : r ∉ hostOps5_3_W) : X23 m c r = X22 m c r :=
  StableHlo.after_of_writes_sub hostOps5_3 _ hostOps5_3_writes h
theorem X24_of (r : Ref sig .tc) (h : r ∉ ([main_v74] : List (Ref sig .tc))) : X24 m c r = X23 m c r :=
  Function.update_of_ne (StableHlo.devRef_ne_of_ne (List.ne_of_not_mem_cons h) : (Proc.devRef .tc r : DevRef τ sig) ≠ Proc.devRef .tc main_v74) _ _
theorem X24_at : X24 m c main_v74 = o24_main_v74 m c := Function.update_self _ _ _
theorem X25_of (r : Ref sig .tc) (h : r ∉ hostOps6_W) : X25 m c r = X24 m c r :=
  StableHlo.after_of_writes_sub hostOps6 _ hostOps6_writes h
theorem X26_of (r : Ref sig .tc) (h : r ∉ hostOps6_1_W) : X26 m c r = X25 m c r :=
  StableHlo.after_of_writes_sub hostOps6_1 _ hostOps6_1_writes h
theorem X27_of (r : Ref sig .tc) (h : r ∉ hostOps6_2_W) : X27 m c r = X26 m c r :=
  StableHlo.after_of_writes_sub hostOps6_2 _ hostOps6_2_writes h
theorem X28_of (r : Ref sig .tc) (h : r ∉ hostOps6_3_W) : X28 m c r = X27 m c r :=
  StableHlo.after_of_writes_sub hostOps6_3 _ hostOps6_3_writes h

macro "xkeep" : tactic =>
  `(tactic| repeat (first
      | (rw [X28_of]; rotate_left; decide)
      | (rw [X27_of]; rotate_left; decide)
      | (rw [X26_of]; rotate_left; decide)
      | (rw [X25_of]; rotate_left; decide)
      | (rw [X24_of]; rotate_left; decide)
      | (rw [X23_of]; rotate_left; decide)
      | (rw [X22_of]; rotate_left; decide)
      | (rw [X21_of]; rotate_left; decide)
      | (rw [X20_of]; rotate_left; decide)
      | (rw [X19_of]; rotate_left; decide)
      | (rw [X18_of]; rotate_left; decide)
      | (rw [X17_of]; rotate_left; decide)
      | (rw [X16_of]; rotate_left; decide)
      | (rw [X15_of]; rotate_left; decide)
      | (rw [X14_of]; rotate_left; decide)
      | (rw [X13_of]; rotate_left; decide)
      | (rw [X12_of]; rotate_left; decide)
      | (rw [X11_of]; rotate_left; decide)
      | (rw [X10_of]; rotate_left; decide)
      | (rw [X9_of]; rotate_left; decide)
      | (rw [X8_of]; rotate_left; decide)
      | (rw [X7_of]; rotate_left; decide)
      | (rw [X6_of]; rotate_left; decide)
      | (rw [X5_of]; rotate_left; decide)
      | (rw [X4_of]; rotate_left; decide)
      | (rw [X3_of]; rotate_left; decide)
      | (rw [X2_of]; rotate_left; decide)
      | (rw [X1_of]; rotate_left; decide)))

end Cert.KernelIdeal.Hand

end
-- ==== Proof.TakeFacts.lean ====
import proofs.«405767_j7868380086676_1_alg».proof.Proof.Spec
import Idealize.ShloMosaic.Lib.StableHlo.Predicate
import Idealize.ShloMosaic.Lib.ReduceAll
import Idealize.ShloMosaic.Lib.ValueIdx
import Idealize.ShloMosaic.Lib.Pipeline.Value
import Idealize.ShloMosaic.PureOps.Reduce

noncomputable section

namespace Cert.TakeFacts

open Idealize.ShloMosaic Idealize.ShloMosaic.ValueIdx

abbrev S_ : Shape := ⟨0, ![]⟩
abbrev S1 : Shape := ⟨1, ![1]⟩
abbrev S1x1 : Shape := ⟨2, ![1, 1]⟩
abbrev S640000 : Shape := ⟨1, ![640000]⟩
abbrev S640000x1 : Shape := ⟨2, ![640000, 1]⟩
abbrev S640000x128 : Shape := ⟨2, ![640000, 128]⟩
abbrev S40000x128 : Shape := ⟨2, ![40000, 128]⟩

theorem not_slt_zero {x : BitVec 32} (hx : x.toNat < 40000) : ¬ IntOp.cmpi .slt x 0#32 = 1#1 := by
  rw [StableHlo.Predicate.slt_iff_toNat (by omega) (by decide)]
  show ¬ x.toNat < 0
  omega

theorem range_test_one {x : BitVec 32} (hx : x.toNat < 40000) :
    IntOp.andi (IntOp.cmpi .sge x 0#32) (IntOp.cmpi .sle x 39999#32) = 1#1 := by
  refine IntOp.andi_eq_one.2 ⟨?_, ?_⟩
  · rw [StableHlo.Predicate.sge_iff_toNat (by omega) (by decide)]
    show 0 ≤ x.toNat
    omega
  · rw [StableHlo.Predicate.sle_iff_toNat (by omega) (by decide)]
    show x.toNat ≤ 39999
    omega

theorem clamp_toInt {x : BitVec 32} (hx : x.toNat < 40000) : min x.toInt.toNat (40000 - 1) = x.toNat % 40000 := by
  rw [StableHlo.Predicate.toInt_eq_toNat_of_lt (by omega), Int.toNat_natCast, Nat.mod_eq_of_lt hx]
  omega

theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    rw [List.foldl_cons]
    exact foldl_andi_one f l _ (IntOp.andi_eq_one.2 ⟨hi, hl a List.mem_cons_self⟩)
      (fun n hn => hl n (List.mem_cons_of_mem _ hn))

theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl]
  exact foldl_andi_one x _ _ (hi _) (fun i _ => hx i)

theorem getElem_of_eq_singleton {β : Type} (l : List β) (b : β) (k : Nat) (h : k < l.length) (hl : l = [b]) : l[k]'h = b := by
  subst hl
  have hk : k = 0 := by simpa using h
  subst hk; rfl

theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (j : Fin C) (hN : 0 < N) :
    Host.gather d x idx (ix2 e j) = x (ix2 ⟨min (idx (ix2 e (0 : Fin 1))).toInt.toNat (N - 1), by omega⟩ j) := by
  unfold Host.gather
  refine congrArg x (funext fun a => Fin.ext ?_)
  have hb : ∀ a : Fin 2, a ∉ d.operandBatchingDims := fun a => by rw [hob]; exact List.not_mem_nil
  match a with
  | ⟨0, _⟩ =>

    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    have hbd : d.batchDims = [0] := by
      show Shape.kept _ d.offsetDims = [0]
      rw [hoff]; rfl
    have hsi : d.siIdx (ix2 e j) ⟨List.idxOf 0 d.startIndexMap, List.idxOf_lt_length_iff.2 hm⟩ = ix2 e (0 : Fin 1) := by
      funext b
      match b with
      | ⟨0, _⟩ =>
        unfold GatherDims.siIdx
        rw [dif_neg (by rw [hivd]; exact Nat.zero_ne_one)]
        unfold GatherDims.siCoord
        apply Fin.ext
        show (ix2 e j (d.batchDims[_]'_)).val = e.val
        rw [getElem_of_eq_singleton d.batchDims 0 _ _ hbd]
        rfl
      | ⟨1, _⟩ =>
        unfold GatherDims.siIdx
        rw [dif_pos (by rw [hivd])]
        apply Fin.ext
        show List.idxOf (0 : Fin 2) d.startIndexMap = 0
        rw [hsim]; simp
    show d.start (ix2 e j) idx 0 + d.batchCoord (ix2 e j) 0 + d.offCoord (ix2 e j) 0 = _
    rw [GatherDims.batchCoord_eq_zero _ _ _ (hb 0), GatherDims.offCoord_eq_zero _ _ _ hk]
    simp only [Nat.add_zero, GatherDims.start, dif_pos hm]
    show min (idx _).toInt.toNat (N - d.sliceSizes 0) = min (idx (ix2 e (0 : Fin 1))).toInt.toNat (N - 1)
    rw [hsl, hsi]
  | ⟨1, _⟩ =>

    have hk : (1 : Fin 2) ∈ d.sKept := by rw [GatherDims.mem_sKept, hcoll]; exact ⟨by simp, hb 1⟩
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1)]
    simp only [Nat.add_zero, GatherDims.start, dif_neg hm, GatherDims.offCoord, dif_pos hk, Nat.zero_add]
    rw [getElem_of_eq_singleton d.offsetDims 1 _ _ hoff]
    rfl

def wrap (hb0 : S_.BroadcastsInDim S640000 ![]) (src : IVec S640000 32) : IVec S640000 32 :=
  select (cmpi .slt src (broadcastInDim S640000 ![] hb0 (constantI S_ 32 0#32)))
    (addi src (broadcastInDim S640000 ![] hb0 (constantI S_ 32 40000#32))) src

theorem wrap_eq (hb0 : S_.BroadcastsInDim S640000 ![]) (src : IVec S640000 32)
    (hs : ∀ e : Fin 640000, (src (ix1 e)).toNat < 40000) : wrap hb0 src = src := by
  funext i
  rw [eq_ix1 i]
  show Scalar.select (IntOp.cmpi .slt (src (ix1 (i 0))) 0#32) _ (src (ix1 (i 0))) = src (ix1 (i 0))
  exact if_neg (not_slt_zero (hs (i 0)))

theorem col_apply {α : Type} (hb5 : S640000.BroadcastsInDim S640000x1 ![0]) (v : S640000.Idx → α) (i : S640000x1.Idx) :
    broadcastInDim S640000x1 ![0] hb5 v i = v (ix1 (i 0)) := by
  refine broadcastInDim_apply _ _ _ _ _ fun a => ?_
  match a with
  | ⟨0, _⟩ =>
    rw [if_neg (show ¬ S640000.size ⟨0, by decide⟩ = 1 by decide)]
    rfl

def refTake {α : Type} (d : GatherDims S40000x128 S640000x1 S640000x128) (hb0 : S_.BroadcastsInDim S640000 ![])
    (hb5 : S640000.BroadcastsInDim S640000x1 ![0]) (x : S40000x128.Idx → α) (src : IVec S640000 32) : S640000x128.Idx → α :=
  Host.gather d x (broadcastInDim S640000x1 ![0] hb5 (wrap hb0 src))

theorem refTake_apply {α : Type} (d : GatherDims S40000x128 S640000x1 S640000x128)
    (hoff : d.offsetDims = [1]) (hcoll : d.collapsedSliceDims = [0]) (hob : d.operandBatchingDims = [])
    (hsim : d.startIndexMap = [0]) (hivd : d.indexVectorDim = 1)
    (hb0 : S_.BroadcastsInDim S640000 ![]) (hb5 : S640000.BroadcastsInDim S640000x1 ![0])
    (x : S40000x128.Idx → α) (src : IVec S640000 32) (hs : ∀ e : Fin 640000, (src (ix1 e)).toNat < 40000)
    (e : Fin 640000) (j : Fin 128) :
    refTake d hb0 hb5 x src (ix2 e j) = x (ix2 (Cert.Spec.rowOf src e) j) := by
  unfold refTake
  rw [wrap_eq hb0 src hs, gather_rows d hoff hcoll hob hsim hivd x _ e j (by decide)]
  have hc : broadcastInDim S640000x1 ![0] hb5 src (ix2 e (0 : Fin 1)) = src (ix1 e) := col_apply hb5 src _
  refine congrArg (fun r => x (ix2 r j)) (Fin.ext ?_)
  show min (broadcastInDim S640000x1 ![0] hb5 src (ix2 e (0 : Fin 1))).toInt.toNat (40000 - 1) = (src (ix1 e)).toNat % 40000
  rw [hc]
  exact clamp_toInt (hs e)

def inRangeMask (hb6 : S_.BroadcastsInDim S640000x1 ![]) (hb8 : S1.BroadcastsInDim S1x1 ![1])
    (hb9 : S1x1.BroadcastsInDim S640000x1 ![0, 1]) (hred : S640000x1.ReducesTo [1] S640000) (hu : 0 < S_.numel)
    (hb14 : S640000.BroadcastsInDim S640000x128 ![0]) (idx : IVec S640000x1 32) : IVec S640000x128 1 :=
  broadcastInDim S640000x128 ![0] hb14
    (Host.reduce IntOp.andi
      (andi (cmpi .sge idx (broadcastInDim S640000x1 ![] hb6 (constantI S_ 32 0#32)))
        (cmpi .sle idx (broadcastInDim S640000x1 ![0, 1] hb9 (broadcastInDim S1x1 ![1] hb8 (constantI S1 32 39999#32)))))
      (constantI S_ 1 1#1) hred hu)

theorem inRangeMask_one (hb6 : S_.BroadcastsInDim S640000x1 ![]) (hb8 : S1.BroadcastsInDim S1x1 ![1])
    (hb9 : S1x1.BroadcastsInDim S640000x1 ![0, 1]) (hred : S640000x1.ReducesTo [1] S640000) (hu : 0 < S_.numel)
    (hb14 : S640000.BroadcastsInDim S640000x128 ![0]) (idx : IVec S640000x1 32)
    (hidx : ∀ i, (idx i).toNat < 40000) (i : S640000x128.Idx) :
    inRangeMask hb6 hb8 hb9 hred hu hb14 idx i = 1#1 := by
  unfold inRangeMask broadcastInDim
  exact reduce_andi_one _ _ hred hu _ (fun k => range_test_one (hidx k)) (fun _ => rfl)

def kernelTake {α : Type} (d : GatherDims S40000x128 S640000x1 S640000x128) (hb0 : S_.BroadcastsInDim S640000 ![])
    (hb5 : S640000.BroadcastsInDim S640000x1 ![0]) (hb6 : S_.BroadcastsInDim S640000x1 ![])
    (hb8 : S1.BroadcastsInDim S1x1 ![1]) (hb9 : S1x1.BroadcastsInDim S640000x1 ![0, 1])
    (hred : S640000x1.ReducesTo [1] S640000) (hu : 0 < S_.numel) (hb14 : S640000.BroadcastsInDim S640000x128 ![0])
    (x : S40000x128.Idx → α) (src : IVec S640000 32) (fill : S640000x128.Idx → α) : S640000x128.Idx → α :=
  select (inRangeMask hb6 hb8 hb9 hred hu hb14 (broadcastInDim S640000x1 ![0] hb5 (wrap hb0 src)))
    (Host.gather d x (broadcastInDim S640000x1 ![0] hb5 (wrap hb0 src))) fill

theorem kernelTake_eq_refTake {α : Type} (d : GatherDims S40000x128 S640000x1 S640000x128)
    (hb0 : S_.BroadcastsInDim S640000 ![])
    (hb5 : S640000.BroadcastsInDim S640000x1 ![0]) (hb6 : S_.BroadcastsInDim S640000x1 ![])
    (hb8 : S1.BroadcastsInDim S1x1 ![1]) (hb9 : S1x1.BroadcastsInDim S640000x1 ![0, 1])
    (hred : S640000x1.ReducesTo [1] S640000) (hu : 0 < S_.numel) (hb14 : S640000.BroadcastsInDim S640000x128 ![0])
    (x : S40000x128.Idx → α) (src : IVec S640000 32) (fill : S640000x128.Idx → α)
    (hs : ∀ e : Fin 640000, (src (ix1 e)).toNat < 40000) :
    kernelTake d hb0 hb5 hb6 hb8 hb9 hred hu hb14 x src fill = refTake d hb0 hb5 x src := by
  funext i
  unfold kernelTake refTake
  show Scalar.select (inRangeMask hb6 hb8 hb9 hred hu hb14 _ i) _ _ = _
  rw [inRangeMask_one hb6 hb8 hb9 hred hu hb14 _ (fun k => by rw [wrap_eq hb0 src hs, col_apply]; exact hs _) i]
  exact if_pos rfl

theorem kernelTake_apply {α : Type} (d : GatherDims S40000x128 S640000x1 S640000x128)
    (hoff : d.offsetDims = [1]) (hcoll : d.collapsedSliceDims = [0]) (hob : d.operandBatchingDims = [])
    (hsim : d.startIndexMap = [0]) (hivd : d.indexVectorDim = 1)
    (hb0 : S_.BroadcastsInDim S640000 ![])
    (hb5 : S640000.BroadcastsInDim S640000x1 ![0]) (hb6 : S_.BroadcastsInDim S640000x1 ![])
    (hb8 : S1.BroadcastsInDim S1x1 ![1]) (hb9 : S1x1.BroadcastsInDim S640000x1 ![0, 1])
    (hred : S640000x1.ReducesTo [1] S640000) (hu : 0 < S_.numel) (hb14 : S640000.BroadcastsInDim S640000x128 ![0])
    (x : S40000x128.Idx → α) (src : IVec S640000 32) (fill : S640000x128.Idx → α)
    (hs : ∀ e : Fin 640000, (src (ix1 e)).toNat < 40000) (e : Fin 640000) (j : Fin 128) :
    kernelTake d hb0 hb5 hb6 hb8 hb9 hred hu hb14 x src fill (ix2 e j) = x (ix2 (Cert.Spec.rowOf src e) j) := by
  rw [kernelTake_eq_refTake d hb0 hb5 hb6 hb8 hb9 hred hu hb14 x src fill hs]
  exact refTake_apply d hoff hcoll hob hsim hivd hb0 hb5 x src hs e j

end Cert.TakeFacts

end
-- ==== Proof.KI.HostVal0.lean ====
import proofs.«405767_j7868380086676_1_alg».proof.Proof.Gen.KernelIdeal.Launch
import proofs.«405767_j7868380086676_1_alg».proof.Proof.Chain
import proofs.«405767_j7868380086676_1_alg».proof.Proof.TakeFacts
import Idealize.ShloMosaic.Lib.StableHlo.Run
import Idealize.ShloMosaic.Lib.ValueLayout
import Idealize.ShloMosaic.Lib.IdealHost

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open Idealize.ShloMosaic.StableHlo (after after_cons after_nil)

theorem wslice_apply (x : Cert.Spec.Ten5) (l : Fin 5) (ht : S5x128x128.Transposes [0, 2, 1] S5x128x128)
    (hs : S5x128x128.Slices ![l.val, 0, 0] S1x128x128) (hc : S1x128x128.ShapeCasts S128x128) (k j : Fin 128) :
    shapeCast S128x128 (extractStridedSlice S1x128x128 ![l.val, 0, 0] (transpose S5x128x128 [0, 2, 1] x ht) hs) hc (ix2 k j)
      = x (ix3 l j k) := by
  rw [shapeCast_1ab_ab_apply]
  rw [extractStridedSlice_apply ![l.val, 0, 0] _ hs (ix3 (0 : Fin 1) k j) (ix3 l k j) (fun a => by
    match a with
    | ⟨0, _⟩ => exact (Nat.add_zero _).symm
    | ⟨1, _⟩ => exact (Nat.zero_add _).symm
    | ⟨2, _⟩ => exact (Nat.zero_add _).symm)]
  exact transpose_ix3_021_apply x ht l k j

theorem bslice_apply (x : Cert.Spec.Mat 5 128) (l : Fin 5) (hs : S5x128.Slices ![l.val, 0] S1x128)
    (h1 : S1x128.ShapeCasts S128) (h2 : S128.ShapeCasts S1x128) (u : Fin 1) (j : Fin 128) :
    shapeCast S1x128 (shapeCast S128 (extractStridedSlice S1x128 ![l.val, 0] x hs) h1) h2 (ix2 u j) = x (ix2 l j) := by
  rw [shapeCast_a_1a_apply, shapeCast_1a_a_apply]
  exact slice2_axis0_apply l.val x hs (0 : Fin 1) j l (Nat.add_zero _).symm

theorem rowBcast_apply {α : Type} (y : S640000x1.Idx → α) (e : Fin 640000) (j : Fin 128) :
    broadcastInDim S640000x128 ![0, 1] bcast_S640000x1_S640000x128_0_1 y (ix2 e j) = y (ix2 e (0 : Fin 1)) := by
  refine broadcastInDim_apply _ _ _ _ _ fun a => ?_
  match a with
  | ⟨0, _⟩ =>
    rw [if_neg (show ¬ S640000x1.size ⟨0, by decide⟩ = 1 by decide)]
    rfl
  | ⟨1, _⟩ =>
    rw [if_pos (show S640000x1.size ⟨1, by decide⟩ = 1 by rfl)]
    rfl

def take (x : FVec Ideal S40000x128 .f32) (src : IVec S640000 32) : FVec Ideal S640000x128 .f32 :=
  Cert.TakeFacts.kernelTake gather_S40000x128_S640000x1_S640000x128_1_0_n_n_0_1_1128 bcast_S_S640000
    bcast_S640000_S640000x1_0 bcast_S_S640000x1 bcast_S1_S1x1_1 bcast_S1x1_S640000x1_0_1 reducesTo_S640000x1_S640000_d1 h_S_
    bcast_S640000_S640000x128_0 x src
    (broadcastInDim S640000x128 ![] bcast_S_S640000x128 (constant (F := Ideal) S_ .f32 0x7FC00000#32))

theorem take_apply (x : FVec Ideal S40000x128 .f32) (src : IVec S640000 32)
    (hs : ∀ e : Fin 640000, (src (ix1 e)).toNat < 40000) (e : Fin 640000) (j : Fin 128) :
    take x src (ix2 e j) = x (ix2 (Cert.Spec.rowOf src e) j) :=
  Cert.TakeFacts.kernelTake_apply _ rfl rfl rfl rfl rfl _ _ _ _ _ _ _ _ x src _ hs e j

theorem msg_at (h : FVec Ideal S40000x128 .f32) (W : Cert.Spec.Ten5) (B : Cert.Spec.Mat 5 128) (l : Fin 5)
    (src : IVec S640000 32) (w : FVec Ideal S640000 .f32) (hs : ∀ e : Fin 640000, (src (ix1 e)).toNat < 40000)
    (Wt : Cert.Spec.Mat 128 128) (b : Cert.Spec.Mat 1 128)
    (hWt : ∀ k j : Fin 128, Wt (ix2 k j) = W (ix3 l j k)) (hb : ∀ j : Fin 128, b (ix2 (0 : Fin 1) j) = B (ix2 l j))
    (e : Fin 640000) (j : Fin 128) :
    mulf (take (Cert.Spec.affine h Wt b) src)
        (broadcastInDim S640000x128 ![0, 1] bcast_S640000x1_S640000x128_0_1
          (broadcastInDim S640000x1 ![0] bcast_S640000_S640000x1_0 w)) (ix2 e j)
      = Cert.Spec.msg h W B l src w (ix2 e j) := by
  show take (Cert.Spec.affine h Wt b) src (ix2 e j) * _ = _
  rw [take_apply _ _ hs, rowBcast_apply, Cert.TakeFacts.col_apply]
  show ((∑ k : Fin 128, h (ix2 (Cert.Spec.rowOf src e) k) * Wt (ix2 k j)) + b (ix2 (0 : Fin 1) j)) * w (ix1 e)
    = ((∑ k : Fin 128, h (ix2 (Cert.Spec.rowOf src e) k) * W (ix3 l j k)) + B (ix2 l j)) * w (ix1 e)
  rw [hb]
  refine congrArg (fun s => (s + B (ix2 l j)) * w (ix1 e)) (Finset.sum_congr rfl fun k _ => ?_)
  rw [hWt]

theorem msg_eq (h : FVec Ideal S40000x128 .f32) (W : Cert.Spec.Ten5) (B : Cert.Spec.Mat 5 128) (l : Fin 5)
    (src : IVec S640000 32) (w : FVec Ideal S640000 .f32) (hs : ∀ e : Fin 640000, (src (ix1 e)).toNat < 40000)
    (Wt : Cert.Spec.Mat 128 128) (b : Cert.Spec.Mat 1 128)
    (hWt : ∀ k j : Fin 128, Wt (ix2 k j) = W (ix3 l j k)) (hb : ∀ j : Fin 128, b (ix2 (0 : Fin 1) j) = B (ix2 l j)) :
    mulf (take (Cert.Spec.affine h Wt b) src)
        (broadcastInDim S640000x128 ![0, 1] bcast_S640000x1_S640000x128_0_1
          (broadcastInDim S640000x1 ![0] bcast_S640000_S640000x1_0 w))
      = Cert.Spec.msg h W B l src w :=
  funext fun i => by
    rw [eq_ix2 i]
    exact msg_at h W B l src w hs Wt b hWt hb _ _

variable (V : Valuation τ sig (Elt Ideal))

theorem s0_src : after (hostOps0 (F := Ideal)) V (Proc.devRef .tc main_v1) = Cert.Chain.srcOf (V main_arg1) := by
  unfold hostOps0
  after_results
  rfl

theorem s0_dst : after (hostOps0 (F := Ideal)) V (Proc.devRef .tc main_v3)
    = shapeCast S640000 (extractStridedSlice S1x640000 ![1, 0] (V main_arg1) slices_S2x640000_S1x640000_1_0) shapeCasts_S1x640000_S640000 := by
  unfold hostOps0
  after_results
  rfl

theorem s0_invSq : after (hostOps0 (F := Ideal)) V (Proc.devRef .tc main_v8) = Cert.Spec.invSq (V main_arg2) := by
  unfold hostOps0
  after_results
  funext i
  rfl

theorem s0_encW : after (hostOps0 (F := Ideal)) V (Proc.devRef .tc main_v9)
    = fun i : S7x128.Idx => (V main_arg3 : FVec Ideal S128x7 .f32) (ix2 (i 1) (i 0)) := by
  unfold hostOps0
  after_results
  funext i
  rw [eq_ix2 i]
  exact transpose_ix2_apply _ _ _ _

theorem s0_encB : after (hostOps0 (F := Ideal)) V (Proc.devRef .tc main_v10)
    = fun i : S1x128.Idx => (V main_arg4 : FVec Ideal S128 .f32) (ix1 (i 1)) := by
  unfold hostOps0
  after_results
  funext i
  rw [eq_ix2 i]
  exact shapeCast_a_1a_apply _ _ _ _

theorem s1_stack : after (hostOps1 (F := Ideal)) V (Proc.devRef .tc main_v12)
    = transpose S5x128x128 [0, 2, 1] (V main_arg5) transposes_S5x128x128_S5x128x128_0_2_1 := by
  unfold hostOps1
  after_results

theorem s1_W : after (hostOps1 (F := Ideal)) V (Proc.devRef .tc main_v14)
    = fun i : S128x128.Idx => (V main_arg5 : FVec Ideal S5x128x128 .f32) (ix3 (0 : Fin 5) (i 1) (i 0)) := by
  unfold hostOps1
  after_results
  funext i
  rw [eq_ix2 i]
  exact wslice_apply _ (0 : Fin 5) _ _ _ _ _

theorem s1_B : after (hostOps1 (F := Ideal)) V (Proc.devRef .tc main_v17)
    = fun i : S1x128.Idx => (V main_arg6 : FVec Ideal S5x128 .f32) (ix2 (0 : Fin 5) (i 1)) := by
  unfold hostOps1
  after_results
  funext i
  rw [eq_ix2 i]
  exact bslice_apply _ (0 : Fin 5) _ _ _ _ _

end Cert.KernelIdeal.Hand
end
-- ==== Proof.KI.ValAffine.lean ====
import proofs.«405767_j7868380086676_1_alg».proof.Proof.KI.Reg1
import proofs.«405767_j7868380086676_1_alg».proof.Proof.Spec
import Idealize.ShloMosaic.Lib.Pipeline.Value
import Idealize.ShloMosaic.Lib.ValueIdx
import Idealize.ShloMosaic.Lib.ValueLayout
import Idealize.ShloMosaic.PureOps.Ideal.Laws

namespace Cert.KernelIdeal.Hand.Affine

open Idealize.ShloMosaic Idealize.ShloMosaic.ValueIdx Cert.KernelIdeal Cert.KernelIdeal.Gen

/-- Two indices of a matrix with the same row and the same column are the same index. -/
theorem idx2_ext {n m : Nat} {i i' : (⟨2, ![n, m]⟩ : Shape).Idx} (h0 : (i 0).val = (i' 0).val) (h1 : (i 1).val = (i' 1).val) : i = i' :=
  funext fun a => Fin.ext (match a with | ⟨0, _⟩ => h0 | ⟨1, _⟩ => h1)

/-- A block of rows times a matrix, accumulated into zero, at an entry: the sum over the one contracted coordinate. -/
theorem mm_apply {K : Nat} {φ₁ φ₂ : FTy} (d : DotDims (⟨2, ![5000, K]⟩ : Shape) (⟨2, ![K, 128]⟩ : Shape) S5000x128)
    (hr : d.contr.rank = 1) (hs : d.contr.size ⟨0, by omega⟩ = K) (hl : d.lhsContracting = [1]) (hc : d.rhsContracting = [0])
    (l0 : ∀ j q, (d.lhsIdx j q 0).val = (j 0).val) (r1 : ∀ j q, (d.rhsIdx j q 1).val = (j 1).val)
    (x0 : FVec Ideal (⟨2, ![5000, K]⟩ : Shape) φ₁) (x1 : FVec Ideal (⟨2, ![K, 128]⟩ : Shape) φ₂) (j : S5000x128.Idx) :
    matmul d none x0 x1 (constant (F := Ideal) S5000x128 .f32 0x00000000#32) j = ∑ k : Fin K, x0 (ix2 (j 0) k) * x1 (ix2 k (j 1)) := by
  show FloatOps.matmul _ none x0 x1 _ j = _
  rw [Ideal.matmul_constant_zero_apply, ← Equiv.sum_comp (contrEquiv1 d K hr hs).symm]
  refine Finset.sum_congr rfl fun k _ => ?_
  have hk := contrEquiv1_symm_val d K hr hs k
  rw [show d.lhsIdx j _ = ix2 (j 0) k from idx2_ext (l0 _ _) ((d.lhsIdx_val_of_single hl j _).trans hk),
    show d.rhsIdx j _ = ix2 k (j 1) from idx2_ext ((d.rhsIdx_val_of_single hc j _).trans hk) (r1 _ _)]
  rfl

/-- The bias row laid along every row of the block, at an entry: the bias of its column. -/
theorem bias_apply (x2 : FVec Ideal S1x128 .f32) (j : S5000x128.Idx) :
    broadcastTo S5000x128 x2 broadcasts_S1x128_S5000x128 j = x2 (ix2 0 (j 1)) :=
  (congrArg _ (eq_ix2 j)).trans (broadcastTo_1b_ab_apply x2 _ (j 0) (j 1))

/-- The body's stored value at an entry: the sum of products plus the bias. -/
theorem pay_apply (x0 : Vec Ideal S5000x128 .f32) (x1 : Vec Ideal S128x128 .f32) (x2 : Vec Ideal S1x128 .f32) (j : S5000x128.Idx) :
    (k1_pay1 (F := Ideal) x0 x1 x2 : S5000x128.Idx → EReal) j = (∑ k : Fin 128, x0 (ix2 (j 0) k) * x1 (ix2 k (j 1))) + x2 (ix2 0 (j 1)) := by
  unfold k1_pay1
  simp only [shapeCast_self]
  rw [addf_apply, mm_apply dot_S5000x128_S128x128_S5000x128_1_0_0_1_n_n rfl rfl rfl rfl (fun _ _ => rfl) fun _ _ => rfl, bias_apply]
  rfl

/-- A block at block index zero with unit stride starts at its own coordinate. -/
theorem unit_off {s : Nat} (x : Nat) : 0 * s + 1 * x = x := by omega

/-- The zero offsets, however spelt. -/
theorem origin : (![0, 0] : Fin 2 → Nat) = fun _ => 0 := funext fun a => by fin_cases a <;> rfl

/-- A point of the eight-point grid, taken as a 32-bit word and back, is itself. -/
theorem pt_word : ∀ t : Fin grid1.N, (BitVec.ofNat 32 ((grid1.coords t) 0).val).toNat = t.val := by decide +kernel

/-- The embedding g puts a block of r rows and c columns at block row n, block column 0 of its array. -/
def At {r c R C : Nat} (g : (⟨2, ![r, c]⟩ : Shape).Idx → (⟨2, ![R, C]⟩ : Shape).Idx) (n : Nat) : Prop :=
  ∀ y, (g y 0).val = n * r + 1 * (y 0).val ∧ (g y 1).val = 0 * c + 1 * (y 1).val

/-- With the activation and output blocks on the same block row and the weight and bias blocks whole, sums of products plus bias over the blocks are the affine image. -/
theorem affine_of_blocks {K : Nat} (X : Cert.Spec.Mat 40000 K) (W : Cert.Spec.Mat K 128) (B : Cert.Spec.Mat 1 128)
    {g0 : (⟨2, ![5000, K]⟩ : Shape).Idx → (⟨2, ![40000, K]⟩ : Shape).Idx} {g1 : (⟨2, ![K, 128]⟩ : Shape).Idx → (⟨2, ![K, 128]⟩ : Shape).Idx}
    {g2 : S1x128.Idx → S1x128.Idx} {g3 : S5000x128.Idx → S40000x128.Idx}
    {b0 : (⟨2, ![5000, K]⟩ : Shape).Idx → EReal} {b1 : (⟨2, ![K, 128]⟩ : Shape).Idx → EReal} {b2 : S1x128.Idx → EReal}
    (e0 : ∀ y, b0 y = X (g0 y)) (e1 : ∀ y, b1 y = W (g1 y)) (e2 : ∀ y, b2 y = B (g2 y)) {n : Nat}
    (h0 : At g0 n) (h1 : At g1 0) (h2 : At g2 0) (h3 : At g3 n) (j : S5000x128.Idx) :
    (∑ k : Fin K, b0 (ix2 (j 0) k) * b1 (ix2 k (j 1))) + b2 (ix2 0 (j 1)) = Cert.Spec.affine X W B (g3 j) := by
  show _ = (∑ k : Fin K, X (ix2 (g3 j 0) k) * W (ix2 k (g3 j 1))) + B (ix2 0 (g3 j 1))
  obtain ⟨p3, q3⟩ := h3 j
  have c0 : ∀ k : Fin K, g0 (ix2 (j 0) k) = ix2 (g3 j 0) k := fun k => idx2_ext ((h0 _).1.trans p3.symm) ((h0 _).2.trans (unit_off _))
  have c1 : ∀ k : Fin K, g1 (ix2 k (j 1)) = ix2 k (g3 j 1) := fun k => idx2_ext ((h1 _).1.trans (unit_off _)) ((h1 _).2.trans q3.symm)
  have c2 : g2 (ix2 0 (j 1)) = ix2 0 (g3 j 1) := idx2_ext ((h2 _).1.trans (unit_off _)) ((h2 _).2.trans q3.symm)
  simp only [e0, e1, e2, c0, c1, c2]
  rfl

/-- The block a layer's body stores is the affine image of its input blocks. -/
theorem out_affine (X : Cert.Spec.Mat 40000 128) (W : Cert.Spec.Mat 128 128) (B : Cert.Spec.Mat 1 128)
    {g0 g3 : S5000x128.Idx → S40000x128.Idx} {g1 : S128x128.Idx → S128x128.Idx} {g2 : S1x128.Idx → S1x128.Idx}
    {b0 : Vec Ideal S5000x128 .f32} {b1 : Vec Ideal S128x128 .f32} {b2 : Vec Ideal S1x128 .f32}
    (e0 : ∀ y, b0 y = X (g0 y)) (e1 : ∀ y, b1 y = W (g1 y)) (e2 : ∀ y, b2 y = B (g2 y)) {n : Nat}
    (h0 : At g0 n) (h1 : At g1 0) (h2 : At g2 0) (h3 : At g3 n) :
    (out1_3 b0 b1 b2 : S5000x128.Idx → EReal) = fun j => Cert.Spec.affine X W B (g3 j) := by
  funext j
  unfold out1_3
  rw [View.canon_unit_zero origin]
  simp only [View.ld_unit_zero (S := S5000x128) origin, View.ld_unit_zero (S := S128x128) origin, View.ld_unit_zero (S := S1x128) origin]
  exact (pay_apply _ _ _ j).trans (affine_of_blocks X W B e0 e1 e2 h0 h1 h2 h3 j)

/-- Row r of the 40000 lies in the block of 5000 rows numbered r / 5000, whatever its column. -/
theorem cover_rows (i : S40000x128.Idx) : ∃ t : Fin grid1.N, ∀ (off : Fin 2 → Nat) (inb),
    off 0 = (BitVec.ofNat 32 ((grid1.coords t) 0).val).toNat * 5000 → off 1 = 0 * 128 → i ∈ (Rect.unit (s := S40000x128) off S5000x128.size inb).set := by
  have r0 : (i 0).val < 40000 := (i 0).isLt
  have r1 : (i 1).val < 128 := (i 1).isLt
  refine ⟨⟨(i 0).val / 5000, by rw [N_1]; omega⟩, fun off inb h0 h1 => ?_⟩
  rw [pt_word] at h0
  rw [Rect.mem_set_unit]
  intro a
  match a with
  | ⟨0, _⟩ => show off 0 ≤ (i 0).val ∧ (i 0).val < off 0 + 5000; rw [h0]; show _ / 5000 * 5000 ≤ _ ∧ _ < _ / 5000 * 5000 + 5000; omega
  | ⟨1, _⟩ => show off 1 ≤ (i 1).val ∧ (i 1).val < off 1 + 128; omega

end Cert.KernelIdeal.Hand.Affine
-- ==== Proof.KI.Val0.lean ====
import proofs.«405767_j7868380086676_1_alg».proof.Proof.KI.Reg0
import proofs.«405767_j7868380086676_1_alg».proof.Proof.KI.ValAffine

namespace Cert.KernelIdeal.Hand

open Idealize.ShloMosaic Idealize.ShloMosaic.TcCoe Idealize.ShloMosaic.ValueIdx Cert.KernelIdeal Cert.KernelIdeal.Gen Affine

/-- The body's stored value at an entry: the sum of products plus the bias. -/
theorem pay0_apply (x0 : Vec Ideal S5000x7 .f32) (x1 : Vec Ideal S7x128 .f32) (x2 : Vec Ideal S1x128 .f32) (j : S5000x128.Idx) :
    (k0_pay1 (F := Ideal) x0 x1 x2 : S5000x128.Idx → EReal) j = (∑ k : Fin 7, x0 (ix2 (j 0) k) * x1 (ix2 k (j 1))) + x2 (ix2 0 (j 1)) := by
  unfold k0_pay1
  simp only [shapeCast_self]
  rw [addf_apply, mm_apply dot_S5000x7_S7x128_S5000x128_1_0_0_1_n_n rfl rfl rfl rfl (fun _ _ => rfl) fun _ _ => rfl, bias_apply]

/-- The array the region leaves is the affine image of the feature array: each point writes back its block of it, and the blocks tile the rows. -/
theorem final0 (V : (c : Dev nD) → (b : Ref sig .tc) → Buf (Elt Ideal) ((c : Thread nD τ).loc b)) (c : Dev nD) :
    ((dat0 (F := Ideal) V c).arrAt 3 cfg0.N : S40000x128.Idx → EReal)
      = Cert.Spec.affine (N := 40000) (K := 7) (M := 128) (V c main_arg0) (V c main_v9) (V c main_v10) :=
  (dat0 (F := Ideal) V c).arrAt_eq_of_cover 3 _
    (fun t _ => by
      show (cfg0.win 3).cut (grid0.coords t) ((dat0 (F := Ideal) V c).after 3 t) = _
      rw [after0_3]
      unfold out0_3
      rw [View.canon_unit_zero origin]
      simp only [View.ld_unit_zero (S := S5000x7) origin, View.ld_unit_zero (S := S7x128) origin, View.ld_unit_zero (S := S1x128) origin]
      exact funext fun j => (pay0_apply _ _ _ j).trans (affine_of_blocks (V c main_arg0) (V c main_v9) (V c main_v10) (fun _ => rfl) (fun _ => rfl) (fun _ => rfl)
        (fun _ => ⟨rfl, rfl⟩) (fun _ => ⟨rfl, rfl⟩) (fun _ => ⟨rfl, rfl⟩) (fun _ => ⟨rfl, rfl⟩) j))
    fun i => (cover_rows i).imp fun t h => ⟨flush0_3 t, (Finset.ext_iff.mp (View.set_slice_whole main_v11 (win0_3.rect t)) i).mpr (h _ _ rfl rfl)⟩

end Cert.KernelIdeal.Hand
-- ==== Proof.KI.Val1.lean ====
import proofs.«405767_j7868380086676_1_alg».proof.Proof.KI.Reg1
import proofs.«405767_j7868380086676_1_alg».proof.Proof.KI.ValAffine

namespace Cert.KernelIdeal.Hand

open Idealize.ShloMosaic Idealize.ShloMosaic.TcCoe Cert.KernelIdeal Cert.KernelIdeal.Gen Affine

/-- The array the region leaves is the affine image of the activation array: each point writes back its block of it, and the blocks tile the rows. -/
theorem final1 (V : (c : Dev nD) → (b : Ref sig .tc) → Buf (Elt Ideal) ((c : Thread nD τ).loc b)) (c : Dev nD) :
    ((dat1 (F := Ideal) V c).arrAt 3 cfg1.N : S40000x128.Idx → EReal)
      = Cert.Spec.affine (N := 40000) (K := 128) (M := 128) (V c main_v11) (V c main_v14) (V c main_v17) :=
  (dat1 (F := Ideal) V c).arrAt_eq_of_cover 3 _
    (fun t _ => by
      show (cfg1.win 3).cut (grid1.coords t) ((dat1 (F := Ideal) V c).after 3 t) = _
      rw [after1_3]
      exact out_affine (V c main_v11) (V c main_v14) (V c main_v17) (fun _ => rfl) (fun _ => rfl) (fun _ => rfl)
        (fun _ => ⟨rfl, rfl⟩) (fun _ => ⟨rfl, rfl⟩) (fun _ => ⟨rfl, rfl⟩) (fun _ => ⟨rfl, rfl⟩))
    fun i => (cover_rows i).imp fun t h => ⟨flush1_3 t, (Finset.ext_iff.mp (View.set_slice_whole main_v18 (win1_3.rect t)) i).mpr (h _ _ rfl rfl)⟩

end Cert.KernelIdeal.Hand
-- ==== Proof.KI.HostValBase.lean ====
import proofs.«405767_j7868380086676_1_alg».proof.Proof.KI.HostKeep
import proofs.«405767_j7868380086676_1_alg».proof.Proof.KI.HostVal0
import proofs.«405767_j7868380086676_1_alg».proof.Proof.KI.Val0
import proofs.«405767_j7868380086676_1_alg».proof.Proof.KI.Val1

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (c : Dev nD)

abbrev A0 : FVec Ideal S40000x7 .f32 := m ((c : Thread nD τ).loc main_arg0)

abbrev A1 : IVec S2x640000 32 := m ((c : Thread nD τ).loc main_arg1)

abbrev A2 : FVec Ideal S640000 .f32 := m ((c : Thread nD τ).loc main_arg2)

abbrev A3 : FVec Ideal S128x7 .f32 := m ((c : Thread nD τ).loc main_arg3)

abbrev A4 : FVec Ideal S128 .f32 := m ((c : Thread nD τ).loc main_arg4)

abbrev A5 : FVec Ideal S5x128x128 .f32 := m ((c : Thread nD τ).loc main_arg5)

abbrev A6 : FVec Ideal S5x128 .f32 := m ((c : Thread nD τ).loc main_arg6)

abbrev hidK (l : ℕ) : FVec Ideal S40000x128 .f32 :=
  Cert.Chain.hid (A0 m c) (A1 m c) (A2 m c) (A3 m c) (A4 m c) (A5 m c) (A6 m c) l

theorem b_src : X1 m c main_v1 = Cert.Chain.srcOf (A1 m c) := s0_src (X0 m c)

theorem b_dst : X1 m c main_v3
    = shapeCast S640000 (extractStridedSlice S1x640000 ![1, 0] (A1 m c) slices_S2x640000_S1x640000_1_0) shapeCasts_S1x640000_S640000 :=
  s0_dst (X0 m c)

theorem b_w : X1 m c main_v8 = Cert.Spec.invSq (A2 m c) := s0_invSq (X0 m c)

theorem b_stack : X3 m c main_v12 = transpose S5x128x128 [0, 2, 1] (A5 m c) transposes_S5x128x128_S5x128x128_0_2_1 := by
  have k : X2 m c main_arg5 = A5 m c := by xkeep; rfl
  exact (s1_stack (X2 m c)).trans (by rw [k])

theorem b_hid0 : (X3 m c main_v11 : S40000x128.Idx → EReal) = hidK m c 0 := by
  have e1 : X3 m c main_v11 = X2 m c main_v11 := X3_of m c main_v11 (by decide)
  have e2 : (X2 m c main_v11 : S40000x128.Idx → EReal)
      = Cert.Spec.affine (N := 40000) (K := 7) (M := 128) (X1 m c main_arg0) (X1 m c main_v9) (X1 m c main_v10) :=
    (X2_at m c).trans (final0 (rd (X1 m)) c)
  have k0 : X1 m c main_arg0 = A0 m c := by xkeep; rfl
  have kW : X1 m c main_v9 = fun i : S7x128.Idx => (A3 m c) (ix2 (i 1) (i 0)) := s0_encW (X0 m c)
  have kB : X1 m c main_v10 = fun i : S1x128.Idx => (A4 m c) (ix1 (i 1)) := s0_encB (X0 m c)
  rw [e1, e2, k0, kW, kB]
  rfl

theorem b_W0 : X3 m c main_v14 = fun i : S128x128.Idx => (A5 m c) (ix3 (0 : Fin 5) (i 1) (i 0)) := by
  have k : X2 m c main_arg5 = A5 m c := by xkeep; rfl
  exact (s1_W (X2 m c)).trans (by rw [k])

theorem b_B0 : X3 m c main_v17 = fun i : S1x128.Idx => (A6 m c) (ix2 (0 : Fin 5) (i 1)) := by
  have k : X2 m c main_arg6 = A6 m c := by xkeep; rfl
  exact (s1_B (X2 m c)).trans (by rw [k])

abbrev Wt (l : Fin 5) : Cert.Spec.Mat 128 128 := fun i => (A5 m c) (ix3 l (i 1) (i 0))

abbrev Bt (l : Fin 5) : Cert.Spec.Mat 1 128 := fun i => (A6 m c) (ix2 l (i 1))

theorem b_in0 : (X4 m c main_v18 : S40000x128.Idx → EReal)
    = Cert.Spec.affine (N := 40000) (K := 128) (M := 128) (hidK m c 0) (Wt m c (0 : Fin 5)) (Bt m c (0 : Fin 5)) := by
  have e : (X4 m c main_v18 : S40000x128.Idx → EReal)
      = Cert.Spec.affine (N := 40000) (K := 128) (M := 128) (X3 m c main_v11) (X3 m c main_v14) (X3 m c main_v17) :=
    (X4_at m c).trans (final1 (rd (X3 m)) c)
  rw [b_hid0, b_W0, b_B0] at e
  exact e

end Cert.KernelIdeal.Hand

end
-- ==== Proof.LibAfter.lean ====
import Idealize.ShloMosaic.Lib.StableHlo.Run

noncomputable section

namespace Cert.Lib

open Idealize.ShloMosaic Idealize.ShloMosaic.StableHlo

/-- Running one list of operations after another is running their concatenation. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- So a list may be cut anywhere: run its first n operations, then the rest. -/
theorem after_cut {τ : Topo} {sig : RefSig} {Val : EltTy → Type} (n : ℕ) (l : List (HloOp τ sig Val)) (V : Valuation τ sig Val) :
    StableHlo.after l V = StableHlo.after (l.drop n) (StableHlo.after (l.take n) V) := by
  rw [← after_append, List.take_append_drop]

end Cert.Lib

end
-- ==== Proof.LibTypedRef.lean ====
import Idealize.ShloMosaic.Lib.StableHlo

namespace Idealize.ShloMosaic.StableHlo.TRef

variable {sig : RefSig} {Val : EltTy → Type} {T : BufTy}

theorem ofBuf_toBuf (x : TRef sig T) (v : T.Contents Val) : x.ofBuf (x.toBuf v) = v := by
  obtain ⟨r, h, _, _⟩ := x
  subst h
  rfl

end Idealize.ShloMosaic.StableHlo.TRef
-- ==== Proof.KI.HostValL2.lean ====
import proofs.«405767_j7868380086676_1_alg».proof.Proof.KI.HostVal0
import proofs.«405767_j7868380086676_1_alg».proof.Proof.LibAfter
import proofs.«405767_j7868380086676_1_alg».proof.Proof.LibTypedRef

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open Idealize.ShloMosaic.StableHlo (after after_cons after_nil)

variable (V : Valuation τ sig (Elt Ideal))

set_option maxHeartbeats 1000000 in

theorem t2_take : after (hostOps2 (F := Ideal)) V (Proc.devRef .tc main_v19) = take (V main_v18) (V main_v1) := by
  rw [Cert.Lib.after_cut 8, Cert.Lib.after_cut 10]
  simp only [hostOps2, List.take_succ_cons, List.take_zero, List.drop_succ_cons, List.drop_zero]
  generalize hA : after _ V = VA
  generalize hB : after _ VA = VB
  after_results
  rw [← hB]
  after_results
  rw [← hA]
  after_results

  simp only [StableHlo.TRef.ofBuf_toBuf]
  have h1 : ((.of main_v1 : StableHlo.TRef sig ⟨S640000, .i32⟩).ofBuf (V main_v1) : IVec S640000 32) = V main_v1 := rfl
  have h18 : ((.of main_v18 : StableHlo.TRef sig ⟨S40000x128, .f32⟩).ofBuf (V main_v18) : FVec Ideal S40000x128 .f32) = V main_v18 := rfl
  have hto : ∀ v : FVec Ideal S640000x128 .f32,
      ((StableHlo.TRef.of main_v19 : StableHlo.TRef sig ⟨S640000x128, .f32⟩).toBuf (Val := Elt Ideal) v : FVec Ideal S640000x128 .f32) = v :=
    fun v => rfl
  rw [h1, h18, hto]
  unfold take Cert.TakeFacts.kernelTake Cert.TakeFacts.inRangeMask Cert.TakeFacts.wrap
  rfl

theorem t2_agg : after (hostOps2_1 (F := Ideal)) V (Proc.devRef .tc main_v25)
    = Host.scatterAdd scatter_S40000x128_S640000x1_S640000x128_1_0_0_1
        (broadcastInDim S40000x128 ![] bcast_S_S40000x128 (constant (F := Ideal) S_ .f32 0x00000000#32))
        (broadcastInDim S640000x1 ![0] bcast_S640000_S640000x1_0 (V main_v3))
        (mulf (V main_v19) (broadcastInDim S640000x128 ![0, 1] bcast_S640000x1_S640000x128_0_1
          (broadcastInDim S640000x1 ![0] bcast_S640000_S640000x1_0 (V main_v8)))) := by
  unfold hostOps2_1
  after_results

theorem t2_relu : after (hostOps2_2 (F := Ideal)) V (Proc.devRef .tc main_v26)
    = maximumf (V main_v25) (broadcastInDim S40000x128 ![] bcast_S_S40000x128 (constant (F := Ideal) S_ .f32 0x00000000#32)) := by
  unfold hostOps2_2
  after_results
  rfl

theorem t2_W (x : Cert.Spec.Ten5) (hx : V main_v12 = transpose S5x128x128 [0, 2, 1] x transposes_S5x128x128_S5x128x128_0_2_1) :
    after (hostOps2_3 (F := Ideal)) V (Proc.devRef .tc main_v28)
      = fun i : S128x128.Idx => x (ix3 (1 : Fin 5) (i 1) (i 0)) := by
  unfold hostOps2_3
  after_results
  rw [hx]
  funext i
  rw [eq_ix2 i]
  exact wslice_apply _ (1 : Fin 5) _ _ _ _ _

theorem t2_B : after (hostOps2_3 (F := Ideal)) V (Proc.devRef .tc main_v31)
    = fun i : S1x128.Idx => (V main_arg6 : FVec Ideal S5x128 .f32) (ix2 (1 : Fin 5) (i 1)) := by
  unfold hostOps2_3
  after_results
  funext i
  rw [eq_ix2 i]
  exact bslice_apply _ (1 : Fin 5) _ _ _ _ _

end Cert.KernelIdeal.Hand

end
-- ==== Proof.KI.Val2.lean ====
import proofs.«405767_j7868380086676_1_alg».proof.Proof.KI.Reg2
import proofs.«405767_j7868380086676_1_alg».proof.Proof.KI.ValAffine

namespace Cert.KernelIdeal.Hand

open Idealize.ShloMosaic Idealize.ShloMosaic.TcCoe Cert.KernelIdeal Cert.KernelIdeal.Gen Affine

/-- The array the region leaves is the affine image of the activation array: each point writes back its block of it, and the blocks tile the rows. -/
theorem final2 (V : (c : Dev nD) → (b : Ref sig .tc) → Buf (Elt Ideal) ((c : Thread nD τ).loc b)) (c : Dev nD) :
    ((dat2 (F := Ideal) V c).arrAt 3 cfg2.N : S40000x128.Idx → EReal)
      = Cert.Spec.affine (N := 40000) (K := 128) (M := 128) (V c main_v26) (V c main_v28) (V c main_v31) :=
  (dat2 (F := Ideal) V c).arrAt_eq_of_cover 3 _
    (fun t _ => by
      show (cfg2.win 3).cut (grid2.coords t) ((dat2 (F := Ideal) V c).after 3 t) = _
      rw [after2_3]
      exact out_affine (V c main_v26) (V c main_v28) (V c main_v31) (fun _ => rfl) (fun _ => rfl) (fun _ => rfl)
        (fun _ => ⟨rfl, rfl⟩) (fun _ => ⟨rfl, rfl⟩) (fun _ => ⟨rfl, rfl⟩) (fun _ => ⟨rfl, rfl⟩))
    fun i => (cover_rows i).imp fun t h => ⟨flush2_3 t, (Finset.ext_iff.mp (View.set_slice_whole main_v32 (win2_3.rect t)) i).mpr (h _ _ rfl rfl)⟩

end Cert.KernelIdeal.Hand
-- ==== Proof.KI.HostValC2.lean ====
import proofs.«405767_j7868380086676_1_alg».proof.Proof.KI.HostValBase
import proofs.«405767_j7868380086676_1_alg».proof.Proof.KI.HostValL2
import proofs.«405767_j7868380086676_1_alg».proof.Proof.KI.Val2

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (c : Dev nD)

theorem c2_hid (H : FVec Ideal S40000x128 .f32)
    (hsrc : ∀ e : Fin 640000, (Cert.Chain.srcOf (A1 m c) (ix1 e)).toNat < 40000)
    (hIn : (X4 m c main_v18 : S40000x128.Idx → EReal)
      = Cert.Spec.affine (N := 40000) (K := 128) (M := 128) H (Wt m c (0 : Fin 5)) (Bt m c (0 : Fin 5))) :
    (X8 m c main_v26 : S40000x128.Idx → EReal)
      = Cert.Chain.step (Cert.Spec.msg H (A5 m c) (A6 m c) (0 : Fin 5) (Cert.Chain.srcOf (A1 m c)) (Cert.Spec.invSq (A2 m c)))
          (Cert.Chain.dstCol (A1 m c)) := by

  have e1 : X8 m c main_v26 = X7 m c main_v26 := X8_of m c main_v26 (by decide)
  have e2 : X7 m c main_v26 = _ := t2_relu (X6 m c)
  have e3 : X6 m c main_v25 = _ := t2_agg (X5 m c)
  have e4 : X5 m c main_v19 = _ := t2_take (X4 m c)

  have k1 : X4 m c main_v1 = Cert.Chain.srcOf (A1 m c) := by xkeep; exact b_src m c
  have k3 : X5 m c main_v3
      = shapeCast S640000 (extractStridedSlice S1x640000 ![1, 0] (A1 m c) slices_S2x640000_S1x640000_1_0) shapeCasts_S1x640000_S640000 := by
    xkeep; exact b_dst m c
  have k8 : X5 m c main_v8 = Cert.Spec.invSq (A2 m c) := by xkeep; exact b_w m c
  rw [hIn, k1] at e4
  rw [e4, k3, k8, msg_eq H (A5 m c) (A6 m c) (0 : Fin 5) (Cert.Chain.srcOf (A1 m c)) (Cert.Spec.invSq (A2 m c)) hsrc
    (Wt m c (0 : Fin 5)) (Bt m c (0 : Fin 5)) (fun k j => rfl) (fun j => rfl)] at e3
  rw [e3] at e2
  exact e1.trans e2

theorem c2_W : X8 m c main_v28 = Wt m c (1 : Fin 5) :=
  t2_W (X7 m c) (A5 m c) (by xkeep; exact b_stack m c)

theorem c2_B : X8 m c main_v31 = Bt m c (1 : Fin 5) := by
  have k : X7 m c main_arg6 = A6 m c := by xkeep; rfl
  exact (t2_B (X7 m c)).trans (by rw [k])

theorem c2_next (H : FVec Ideal S40000x128 .f32) (hH : (X8 m c main_v26 : S40000x128.Idx → EReal) = H) :
    (X9 m c main_v32 : S40000x128.Idx → EReal)
      = Cert.Spec.affine (N := 40000) (K := 128) (M := 128) H (Wt m c (1 : Fin 5)) (Bt m c (1 : Fin 5)) := by
  have e : (X9 m c main_v32 : S40000x128.Idx → EReal)
      = Cert.Spec.affine (N := 40000) (K := 128) (M := 128) (X8 m c main_v26) (X8 m c main_v28) (X8 m c main_v31) :=
    (X9_at m c).trans (final2 (rd (X8 m)) c)
  rw [hH, c2_W, c2_B] at e
  exact e

end Cert.KernelIdeal.Hand

end
-- ==== Proof.KI.HostValL3.lean ====
import proofs.«405767_j7868380086676_1_alg».proof.Proof.KI.HostVal0
import proofs.«405767_j7868380086676_1_alg».proof.Proof.LibAfter
import proofs.«405767_j7868380086676_1_alg».proof.Proof.LibTypedRef

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open Idealize.ShloMosaic.StableHlo (after after_cons after_nil)

variable (V : Valuation τ sig (Elt Ideal))

set_option maxHeartbeats 1000000 in

theorem t3_take : after (hostOps3 (F := Ideal)) V (Proc.devRef .tc main_v33) = take (V main_v32) (V main_v1) := by
  rw [Cert.Lib.after_cut 8, Cert.Lib.after_cut 10]
  simp only [hostOps3, List.take_succ_cons, List.take_zero, List.drop_succ_cons, List.drop_zero]
  generalize hA : after _ V = VA
  generalize hB : after _ VA = VB
  after_results
  rw [← hB]
  after_results
  rw [← hA]
  after_results

  simp only [StableHlo.TRef.ofBuf_toBuf]
  have h1 : ((.of main_v1 : StableHlo.TRef sig ⟨S640000, .i32⟩).ofBuf (V main_v1) : IVec S640000 32) = V main_v1 := rfl
  have h18 : ((.of main_v32 : StableHlo.TRef sig ⟨S40000x128, .f32⟩).ofBuf (V main_v32) : FVec Ideal S40000x128 .f32) = V main_v32 := rfl
  have hto : ∀ v : FVec Ideal S640000x128 .f32,
      ((StableHlo.TRef.of main_v33 : StableHlo.TRef sig ⟨S640000x128, .f32⟩).toBuf (Val := Elt Ideal) v : FVec Ideal S640000x128 .f32) = v :=
    fun v => rfl
  rw [h1, h18, hto]
  unfold take Cert.TakeFacts.kernelTake Cert.TakeFacts.inRangeMask Cert.TakeFacts.wrap
  rfl

theorem t3_agg : after (hostOps3_1 (F := Ideal)) V (Proc.devRef .tc main_v39)
    = Host.scatterAdd scatter_S40000x128_S640000x1_S640000x128_1_0_0_1
        (broadcastInDim S40000x128 ![] bcast_S_S40000x128 (constant (F := Ideal) S_ .f32 0x00000000#32))
        (broadcastInDim S640000x1 ![0] bcast_S640000_S640000x1_0 (V main_v3))
        (mulf (V main_v33) (broadcastInDim S640000x128 ![0, 1] bcast_S640000x1_S640000x128_0_1
          (broadcastInDim S640000x1 ![0] bcast_S640000_S640000x1_0 (V main_v8)))) := by
  unfold hostOps3_1
  after_results

theorem t3_relu : after (hostOps3_2 (F := Ideal)) V (Proc.devRef .tc main_v40)
    = maximumf (V main_v39) (broadcastInDim S40000x128 ![] bcast_S_S40000x128 (constant (F := Ideal) S_ .f32 0x00000000#32)) := by
  unfold hostOps3_2
  after_results
  rfl

theorem t3_W (x : Cert.Spec.Ten5) (hx : V main_v12 = transpose S5x128x128 [0, 2, 1] x transposes_S5x128x128_S5x128x128_0_2_1) :
    after (hostOps3_3 (F := Ideal)) V (Proc.devRef .tc main_v42)
      = fun i : S128x128.Idx => x (ix3 (2 : Fin 5) (i 1) (i 0)) := by
  unfold hostOps3_3
  after_results
  rw [hx]
  funext i
  rw [eq_ix2 i]
  exact wslice_apply _ (2 : Fin 5) _ _ _ _ _

theorem t3_B : after (hostOps3_3 (F := Ideal)) V (Proc.devRef .tc main_v45)
    = fun i : S1x128.Idx => (V main_arg6 : FVec Ideal S5x128 .f32) (ix2 (2 : Fin 5) (i 1)) := by
  unfold hostOps3_3
  after_results
  funext i
  rw [eq_ix2 i]
  exact bslice_apply _ (2 : Fin 5) _ _ _ _ _

end Cert.KernelIdeal.Hand

end
-- ==== Proof.KI.Val3.lean ====
import proofs.«405767_j7868380086676_1_alg».proof.Proof.KI.Reg3
import proofs.«405767_j7868380086676_1_alg».proof.Proof.KI.ValAffine

namespace Cert.KernelIdeal.Hand

open Idealize.ShloMosaic Idealize.ShloMosaic.TcCoe Cert.KernelIdeal Cert.KernelIdeal.Gen Affine

/-- The array the region leaves is the affine image of the activation array: each point writes back its block of it, and the blocks tile the rows. -/
theorem final3 (V : (c : Dev nD) → (b : Ref sig .tc) → Buf (Elt Ideal) ((c : Thread nD τ).loc b)) (c : Dev nD) :
    ((dat3 (F := Ideal) V c).arrAt 3 cfg3.N : S40000x128.Idx → EReal)
      = Cert.Spec.affine (N := 40000) (K := 128) (M := 128) (V c main_v40) (V c main_v42) (V c main_v45) :=
  (dat3 (F := Ideal) V c).arrAt_eq_of_cover 3 _
    (fun t _ => by
      show (cfg3.win 3).cut (grid3.coords t) ((dat3 (F := Ideal) V c).after 3 t) = _
      rw [after3_3]
      exact out_affine (V c main_v40) (V c main_v42) (V c main_v45) (fun _ => rfl) (fun _ => rfl) (fun _ => rfl)
        (fun _ => ⟨rfl, rfl⟩) (fun _ => ⟨rfl, rfl⟩) (fun _ => ⟨rfl, rfl⟩) (fun _ => ⟨rfl, rfl⟩))
    fun i => (cover_rows i).imp fun t h => ⟨flush3_3 t, (Finset.ext_iff.mp (View.set_slice_whole main_v46 (win3_3.rect t)) i).mpr (h _ _ rfl rfl)⟩

end Cert.KernelIdeal.Hand
-- ==== Proof.KI.HostValC3.lean ====
import proofs.«405767_j7868380086676_1_alg».proof.Proof.KI.HostValBase
import proofs.«405767_j7868380086676_1_alg».proof.Proof.KI.HostValL3
import proofs.«405767_j7868380086676_1_alg».proof.Proof.KI.Val3

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (c : Dev nD)

theorem c3_hid (H : FVec Ideal S40000x128 .f32)
    (hsrc : ∀ e : Fin 640000, (Cert.Chain.srcOf (A1 m c) (ix1 e)).toNat < 40000)
    (hIn : (X9 m c main_v32 : S40000x128.Idx → EReal)
      = Cert.Spec.affine (N := 40000) (K := 128) (M := 128) H (Wt m c (1 : Fin 5)) (Bt m c (1 : Fin 5))) :
    (X13 m c main_v40 : S40000x128.Idx → EReal)
      = Cert.Chain.step (Cert.Spec.msg H (A5 m c) (A6 m c) (1 : Fin 5) (Cert.Chain.srcOf (A1 m c)) (Cert.Spec.invSq (A2 m c)))
          (Cert.Chain.dstCol (A1 m c)) := by

  have e1 : X13 m c main_v40 = X12 m c main_v40 := X13_of m c main_v40 (by decide)
  have e2 : X12 m c main_v40 = _ := t3_relu (X11 m c)
  have e3 : X11 m c main_v39 = _ := t3_agg (X10 m c)
  have e4 : X10 m c main_v33 = _ := t3_take (X9 m c)

  have k1 : X9 m c main_v1 = Cert.Chain.srcOf (A1 m c) := by xkeep; exact b_src m c
  have k3 : X10 m c main_v3
      = shapeCast S640000 (extractStridedSlice S1x640000 ![1, 0] (A1 m c) slices_S2x640000_S1x640000_1_0) shapeCasts_S1x640000_S640000 := by
    xkeep; exact b_dst m c
  have k8 : X10 m c main_v8 = Cert.Spec.invSq (A2 m c) := by xkeep; exact b_w m c
  rw [hIn, k1] at e4
  rw [e4, k3, k8, msg_eq H (A5 m c) (A6 m c) (1 : Fin 5) (Cert.Chain.srcOf (A1 m c)) (Cert.Spec.invSq (A2 m c)) hsrc
    (Wt m c (1 : Fin 5)) (Bt m c (1 : Fin 5)) (fun k j => rfl) (fun j => rfl)] at e3
  rw [e3] at e2
  exact e1.trans e2

theorem c3_W : X13 m c main_v42 = Wt m c (2 : Fin 5) :=
  t3_W (X12 m c) (A5 m c) (by xkeep; exact b_stack m c)

theorem c3_B : X13 m c main_v45 = Bt m c (2 : Fin 5) := by
  have k : X12 m c main_arg6 = A6 m c := by xkeep; rfl
  exact (t3_B (X12 m c)).trans (by rw [k])

theorem c3_next (H : FVec Ideal S40000x128 .f32) (hH : (X13 m c main_v40 : S40000x128.Idx → EReal) = H) :
    (X14 m c main_v46 : S40000x128.Idx → EReal)
      = Cert.Spec.affine (N := 40000) (K := 128) (M := 128) H (Wt m c (2 : Fin 5)) (Bt m c (2 : Fin 5)) := by
  have e : (X14 m c main_v46 : S40000x128.Idx → EReal)
      = Cert.Spec.affine (N := 40000) (K := 128) (M := 128) (X13 m c main_v40) (X13 m c main_v42) (X13 m c main_v45) :=
    (X14_at m c).trans (final3 (rd (X13 m)) c)
  rw [hH, c3_W, c3_B] at e
  exact e

end Cert.KernelIdeal.Hand

end
-- ==== Proof.KI.HostValL4.lean ====
import proofs.«405767_j7868380086676_1_alg».proof.Proof.KI.HostVal0
import proofs.«405767_j7868380086676_1_alg».proof.Proof.LibAfter
import proofs.«405767_j7868380086676_1_alg».proof.Proof.LibTypedRef

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open Idealize.ShloMosaic.StableHlo (after after_cons after_nil)

variable (V : Valuation τ sig (Elt Ideal))

set_option maxHeartbeats 1000000 in

theorem t4_take : after (hostOps4 (F := Ideal)) V (Proc.devRef .tc main_v47) = take (V main_v46) (V main_v1) := by
  rw [Cert.Lib.after_cut 8, Cert.Lib.after_cut 10]
  simp only [hostOps4, List.take_succ_cons, List.take_zero, List.drop_succ_cons, List.drop_zero]
  generalize hA : after _ V = VA
  generalize hB : after _ VA = VB
  after_results
  rw [← hB]
  after_results
  rw [← hA]
  after_results

  simp only [StableHlo.TRef.ofBuf_toBuf]
  have h1 : ((.of main_v1 : StableHlo.TRef sig ⟨S640000, .i32⟩).ofBuf (V main_v1) : IVec S640000 32) = V main_v1 := rfl
  have h18 : ((.of main_v46 : StableHlo.TRef sig ⟨S40000x128, .f32⟩).ofBuf (V main_v46) : FVec Ideal S40000x128 .f32) = V main_v46 := rfl
  have hto : ∀ v : FVec Ideal S640000x128 .f32,
      ((StableHlo.TRef.of main_v47 : StableHlo.TRef sig ⟨S640000x128, .f32⟩).toBuf (Val := Elt Ideal) v : FVec Ideal S640000x128 .f32) = v :=
    fun v => rfl
  rw [h1, h18, hto]
  unfold take Cert.TakeFacts.kernelTake Cert.TakeFacts.inRangeMask Cert.TakeFacts.wrap
  rfl

theorem t4_agg : after (hostOps4_1 (F := Ideal)) V (Proc.devRef .tc main_v53)
    = Host.scatterAdd scatter_S40000x128_S640000x1_S640000x128_1_0_0_1
        (broadcastInDim S40000x128 ![] bcast_S_S40000x128 (constant (F := Ideal) S_ .f32 0x00000000#32))
        (broadcastInDim S640000x1 ![0] bcast_S640000_S640000x1_0 (V main_v3))
        (mulf (V main_v47) (broadcastInDim S640000x128 ![0, 1] bcast_S640000x1_S640000x128_0_1
          (broadcastInDim S640000x1 ![0] bcast_S640000_S640000x1_0 (V main_v8)))) := by
  unfold hostOps4_1
  after_results

theorem t4_relu : after (hostOps4_2 (F := Ideal)) V (Proc.devRef .tc main_v54)
    = maximumf (V main_v53) (broadcastInDim S40000x128 ![] bcast_S_S40000x128 (constant (F := Ideal) S_ .f32 0x00000000#32)) := by
  unfold hostOps4_2
  after_results
  rfl

theorem t4_W (x : Cert.Spec.Ten5) (hx : V main_v12 = transpose S5x128x128 [0, 2, 1] x transposes_S5x128x128_S5x128x128_0_2_1) :
    after (hostOps4_3 (F := Ideal)) V (Proc.devRef .tc main_v56)
      = fun i : S128x128.Idx => x (ix3 (3 : Fin 5) (i 1) (i 0)) := by
  unfold hostOps4_3
  after_results
  rw [hx]
  funext i
  rw [eq_ix2 i]
  exact wslice_apply _ (3 : Fin 5) _ _ _ _ _

theorem t4_B : after (hostOps4_3 (F := Ideal)) V (Proc.devRef .tc main_v59)
    = fun i : S1x128.Idx => (V main_arg6 : FVec Ideal S5x128 .f32) (ix2 (3 : Fin 5) (i 1)) := by
  unfold hostOps4_3
  after_results
  funext i
  rw [eq_ix2 i]
  exact bslice_apply _ (3 : Fin 5) _ _ _ _ _

end Cert.KernelIdeal.Hand

end
-- ==== Proof.KI.Val4.lean ====
import proofs.«405767_j7868380086676_1_alg».proof.Proof.KI.Reg4
import proofs.«405767_j7868380086676_1_alg».proof.Proof.KI.ValAffine

namespace Cert.KernelIdeal.Hand

open Idealize.ShloMosaic Idealize.ShloMosaic.TcCoe Cert.KernelIdeal Cert.KernelIdeal.Gen Affine

/-- The array the region leaves is the affine image of the activation array: each point writes back its block of it, and the blocks tile the rows. -/
theorem final4 (V : (c : Dev nD) → (b : Ref sig .tc) → Buf (Elt Ideal) ((c : Thread nD τ).loc b)) (c : Dev nD) :
    ((dat4 (F := Ideal) V c).arrAt 3 cfg4.N : S40000x128.Idx → EReal)
      = Cert.Spec.affine (N := 40000) (K := 128) (M := 128) (V c main_v54) (V c main_v56) (V c main_v59) :=
  (dat4 (F := Ideal) V c).arrAt_eq_of_cover 3 _
    (fun t _ => by
      show (cfg4.win 3).cut (grid4.coords t) ((dat4 (F := Ideal) V c).after 3 t) = _
      rw [after4_3]
      exact out_affine (V c main_v54) (V c main_v56) (V c main_v59) (fun _ => rfl) (fun _ => rfl) (fun _ => rfl)
        (fun _ => ⟨rfl, rfl⟩) (fun _ => ⟨rfl, rfl⟩) (fun _ => ⟨rfl, rfl⟩) (fun _ => ⟨rfl, rfl⟩))
    fun i => (cover_rows i).imp fun t h => ⟨flush4_3 t, (Finset.ext_iff.mp (View.set_slice_whole main_v60 (win4_3.rect t)) i).mpr (h _ _ rfl rfl)⟩

end Cert.KernelIdeal.Hand
-- ==== Proof.KI.HostValC4.lean ====
import proofs.«405767_j7868380086676_1_alg».proof.Proof.KI.HostValBase
import proofs.«405767_j7868380086676_1_alg».proof.Proof.KI.HostValL4
import proofs.«405767_j7868380086676_1_alg».proof.Proof.KI.Val4

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (c : Dev nD)

theorem c4_hid (H : FVec Ideal S40000x128 .f32)
    (hsrc : ∀ e : Fin 640000, (Cert.Chain.srcOf (A1 m c) (ix1 e)).toNat < 40000)
    (hIn : (X14 m c main_v46 : S40000x128.Idx → EReal)
      = Cert.Spec.affine (N := 40000) (K := 128) (M := 128) H (Wt m c (2 : Fin 5)) (Bt m c (2 : Fin 5))) :
    (X18 m c main_v54 : S40000x128.Idx → EReal)
      = Cert.Chain.step (Cert.Spec.msg H (A5 m c) (A6 m c) (2 : Fin 5) (Cert.Chain.srcOf (A1 m c)) (Cert.Spec.invSq (A2 m c)))
          (Cert.Chain.dstCol (A1 m c)) := by

  have e1 : X18 m c main_v54 = X17 m c main_v54 := X18_of m c main_v54 (by decide)
  have e2 : X17 m c main_v54 = _ := t4_relu (X16 m c)
  have e3 : X16 m c main_v53 = _ := t4_agg (X15 m c)
  have e4 : X15 m c main_v47 = _ := t4_take (X14 m c)

  have k1 : X14 m c main_v1 = Cert.Chain.srcOf (A1 m c) := by xkeep; exact b_src m c
  have k3 : X15 m c main_v3
      = shapeCast S640000 (extractStridedSlice S1x640000 ![1, 0] (A1 m c) slices_S2x640000_S1x640000_1_0) shapeCasts_S1x640000_S640000 := by
    xkeep; exact b_dst m c
  have k8 : X15 m c main_v8 = Cert.Spec.invSq (A2 m c) := by xkeep; exact b_w m c
  rw [hIn, k1] at e4
  rw [e4, k3, k8, msg_eq H (A5 m c) (A6 m c) (2 : Fin 5) (Cert.Chain.srcOf (A1 m c)) (Cert.Spec.invSq (A2 m c)) hsrc
    (Wt m c (2 : Fin 5)) (Bt m c (2 : Fin 5)) (fun k j => rfl) (fun j => rfl)] at e3
  rw [e3] at e2
  exact e1.trans e2

theorem c4_W : X18 m c main_v56 = Wt m c (3 : Fin 5) :=
  t4_W (X17 m c) (A5 m c) (by xkeep; exact b_stack m c)

theorem c4_B : X18 m c main_v59 = Bt m c (3 : Fin 5) := by
  have k : X17 m c main_arg6 = A6 m c := by xkeep; rfl
  exact (t4_B (X17 m c)).trans (by rw [k])

theorem c4_next (H : FVec Ideal S40000x128 .f32) (hH : (X18 m c main_v54 : S40000x128.Idx → EReal) = H) :
    (X19 m c main_v60 : S40000x128.Idx → EReal)
      = Cert.Spec.affine (N := 40000) (K := 128) (M := 128) H (Wt m c (3 : Fin 5)) (Bt m c (3 : Fin 5)) := by
  have e : (X19 m c main_v60 : S40000x128.Idx → EReal)
      = Cert.Spec.affine (N := 40000) (K := 128) (M := 128) (X18 m c main_v54) (X18 m c main_v56) (X18 m c main_v59) :=
    (X19_at m c).trans (final4 (rd (X18 m)) c)
  rw [hH, c4_W, c4_B] at e
  exact e

end Cert.KernelIdeal.Hand

end
-- ==== Proof.KI.HostValL5.lean ====
import proofs.«405767_j7868380086676_1_alg».proof.Proof.KI.HostVal0
import proofs.«405767_j7868380086676_1_alg».proof.Proof.LibAfter
import proofs.«405767_j7868380086676_1_alg».proof.Proof.LibTypedRef

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open Idealize.ShloMosaic.StableHlo (after after_cons after_nil)

variable (V : Valuation τ sig (Elt Ideal))

set_option maxHeartbeats 1000000 in

theorem t5_take : after (hostOps5 (F := Ideal)) V (Proc.devRef .tc main_v61) = take (V main_v60) (V main_v1) := by
  rw [Cert.Lib.after_cut 8, Cert.Lib.after_cut 10]
  simp only [hostOps5, List.take_succ_cons, List.take_zero, List.drop_succ_cons, List.drop_zero]
  generalize hA : after _ V = VA
  generalize hB : after _ VA = VB
  after_results
  rw [← hB]
  after_results
  rw [← hA]
  after_results

  simp only [StableHlo.TRef.ofBuf_toBuf]
  have h1 : ((.of main_v1 : StableHlo.TRef sig ⟨S640000, .i32⟩).ofBuf (V main_v1) : IVec S640000 32) = V main_v1 := rfl
  have h18 : ((.of main_v60 : StableHlo.TRef sig ⟨S40000x128, .f32⟩).ofBuf (V main_v60) : FVec Ideal S40000x128 .f32) = V main_v60 := rfl
  have hto : ∀ v : FVec Ideal S640000x128 .f32,
      ((StableHlo.TRef.of main_v61 : StableHlo.TRef sig ⟨S640000x128, .f32⟩).toBuf (Val := Elt Ideal) v : FVec Ideal S640000x128 .f32) = v :=
    fun v => rfl
  rw [h1, h18, hto]
  unfold take Cert.TakeFacts.kernelTake Cert.TakeFacts.inRangeMask Cert.TakeFacts.wrap
  rfl

theorem t5_agg : after (hostOps5_1 (F := Ideal)) V (Proc.devRef .tc main_v67)
    = Host.scatterAdd scatter_S40000x128_S640000x1_S640000x128_1_0_0_1
        (broadcastInDim S40000x128 ![] bcast_S_S40000x128 (constant (F := Ideal) S_ .f32 0x00000000#32))
        (broadcastInDim S640000x1 ![0] bcast_S640000_S640000x1_0 (V main_v3))
        (mulf (V main_v61) (broadcastInDim S640000x128 ![0, 1] bcast_S640000x1_S640000x128_0_1
          (broadcastInDim S640000x1 ![0] bcast_S640000_S640000x1_0 (V main_v8)))) := by
  unfold hostOps5_1
  after_results

theorem t5_relu : after (hostOps5_2 (F := Ideal)) V (Proc.devRef .tc main_v68)
    = maximumf (V main_v67) (broadcastInDim S40000x128 ![] bcast_S_S40000x128 (constant (F := Ideal) S_ .f32 0x00000000#32)) := by
  unfold hostOps5_2
  after_results
  rfl

theorem t5_W (x : Cert.Spec.Ten5) (hx : V main_v12 = transpose S5x128x128 [0, 2, 1] x transposes_S5x128x128_S5x128x128_0_2_1) :
    after (hostOps5_3 (F := Ideal)) V (Proc.devRef .tc main_v70)
      = fun i : S128x128.Idx => x (ix3 (4 : Fin 5) (i 1) (i 0)) := by
  unfold hostOps5_3
  after_results
  rw [hx]
  funext i
  rw [eq_ix2 i]
  exact wslice_apply _ (4 : Fin 5) _ _ _ _ _

theorem t5_B : after (hostOps5_3 (F := Ideal)) V (Proc.devRef .tc main_v73)
    = fun i : S1x128.Idx => (V main_arg6 : FVec Ideal S5x128 .f32) (ix2 (4 : Fin 5) (i 1)) := by
  unfold hostOps5_3
  after_results
  funext i
  rw [eq_ix2 i]
  exact bslice_apply _ (4 : Fin 5) _ _ _ _ _

end Cert.KernelIdeal.Hand

end
-- ==== Proof.KI.Val5.lean ====
import proofs.«405767_j7868380086676_1_alg».proof.Proof.KI.Reg5
import proofs.«405767_j7868380086676_1_alg».proof.Proof.KI.ValAffine

namespace Cert.KernelIdeal.Hand

open Idealize.ShloMosaic Idealize.ShloMosaic.TcCoe Cert.KernelIdeal Cert.KernelIdeal.Gen Affine

/-- The array the region leaves is the affine image of the activation array: each point writes back its block of it, and the blocks tile the rows. -/
theorem final5 (V : (c : Dev nD) → (b : Ref sig .tc) → Buf (Elt Ideal) ((c : Thread nD τ).loc b)) (c : Dev nD) :
    ((dat5 (F := Ideal) V c).arrAt 3 cfg5.N : S40000x128.Idx → EReal)
      = Cert.Spec.affine (N := 40000) (K := 128) (M := 128) (V c main_v68) (V c main_v70) (V c main_v73) :=
  (dat5 (F := Ideal) V c).arrAt_eq_of_cover 3 _
    (fun t _ => by
      show (cfg5.win 3).cut (grid5.coords t) ((dat5 (F := Ideal) V c).after 3 t) = _
      rw [after5_3]
      exact out_affine (V c main_v68) (V c main_v70) (V c main_v73) (fun _ => rfl) (fun _ => rfl) (fun _ => rfl)
        (fun _ => ⟨rfl, rfl⟩) (fun _ => ⟨rfl, rfl⟩) (fun _ => ⟨rfl, rfl⟩) (fun _ => ⟨rfl, rfl⟩))
    fun i => (cover_rows i).imp fun t h => ⟨flush5_3 t, (Finset.ext_iff.mp (View.set_slice_whole main_v74 (win5_3.rect t)) i).mpr (h _ _ rfl rfl)⟩

end Cert.KernelIdeal.Hand
-- ==== Proof.KI.HostValC5.lean ====
import proofs.«405767_j7868380086676_1_alg».proof.Proof.KI.HostValBase
import proofs.«405767_j7868380086676_1_alg».proof.Proof.KI.HostValL5
import proofs.«405767_j7868380086676_1_alg».proof.Proof.KI.Val5

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (c : Dev nD)

theorem c5_hid (H : FVec Ideal S40000x128 .f32)
    (hsrc : ∀ e : Fin 640000, (Cert.Chain.srcOf (A1 m c) (ix1 e)).toNat < 40000)
    (hIn : (X19 m c main_v60 : S40000x128.Idx → EReal)
      = Cert.Spec.affine (N := 40000) (K := 128) (M := 128) H (Wt m c (3 : Fin 5)) (Bt m c (3 : Fin 5))) :
    (X23 m c main_v68 : S40000x128.Idx → EReal)
      = Cert.Chain.step (Cert.Spec.msg H (A5 m c) (A6 m c) (3 : Fin 5) (Cert.Chain.srcOf (A1 m c)) (Cert.Spec.invSq (A2 m c)))
          (Cert.Chain.dstCol (A1 m c)) := by

  have e1 : X23 m c main_v68 = X22 m c main_v68 := X23_of m c main_v68 (by decide)
  have e2 : X22 m c main_v68 = _ := t5_relu (X21 m c)
  have e3 : X21 m c main_v67 = _ := t5_agg (X20 m c)
  have e4 : X20 m c main_v61 = _ := t5_take (X19 m c)

  have k1 : X19 m c main_v1 = Cert.Chain.srcOf (A1 m c) := by xkeep; exact b_src m c
  have k3 : X20 m c main_v3
      = shapeCast S640000 (extractStridedSlice S1x640000 ![1, 0] (A1 m c) slices_S2x640000_S1x640000_1_0) shapeCasts_S1x640000_S640000 := by
    xkeep; exact b_dst m c
  have k8 : X20 m c main_v8 = Cert.Spec.invSq (A2 m c) := by xkeep; exact b_w m c
  rw [hIn, k1] at e4
  rw [e4, k3, k8, msg_eq H (A5 m c) (A6 m c) (3 : Fin 5) (Cert.Chain.srcOf (A1 m c)) (Cert.Spec.invSq (A2 m c)) hsrc
    (Wt m c (3 : Fin 5)) (Bt m c (3 : Fin 5)) (fun k j => rfl) (fun j => rfl)] at e3
  rw [e3] at e2
  exact e1.trans e2

theorem c5_W : X23 m c main_v70 = Wt m c (4 : Fin 5) :=
  t5_W (X22 m c) (A5 m c) (by xkeep; exact b_stack m c)

theorem c5_B : X23 m c main_v73 = Bt m c (4 : Fin 5) := by
  have k : X22 m c main_arg6 = A6 m c := by xkeep; rfl
  exact (t5_B (X22 m c)).trans (by rw [k])

theorem c5_next (H : FVec Ideal S40000x128 .f32) (hH : (X23 m c main_v68 : S40000x128.Idx → EReal) = H) :
    (X24 m c main_v74 : S40000x128.Idx → EReal)
      = Cert.Spec.affine (N := 40000) (K := 128) (M := 128) H (Wt m c (4 : Fin 5)) (Bt m c (4 : Fin 5)) := by
  have e : (X24 m c main_v74 : S40000x128.Idx → EReal)
      = Cert.Spec.affine (N := 40000) (K := 128) (M := 128) (X23 m c main_v68) (X23 m c main_v70) (X23 m c main_v73) :=
    (X24_at m c).trans (final5 (rd (X23 m)) c)
  rw [hH, c5_W, c5_B] at e
  exact e

end Cert.KernelIdeal.Hand

end
-- ==== Proof.KI.HostValL6.lean ====
import proofs.«405767_j7868380086676_1_alg».proof.Proof.KI.HostVal0
import proofs.«405767_j7868380086676_1_alg».proof.Proof.LibAfter
import proofs.«405767_j7868380086676_1_alg».proof.Proof.LibTypedRef

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open Idealize.ShloMosaic.StableHlo (after after_cons after_nil)

variable (V : Valuation τ sig (Elt Ideal))

set_option maxHeartbeats 1000000 in

theorem t6_take : after (hostOps6 (F := Ideal)) V (Proc.devRef .tc main_v75) = take (V main_v74) (V main_v1) := by
  rw [Cert.Lib.after_cut 8, Cert.Lib.after_cut 10]
  simp only [hostOps6, List.take_succ_cons, List.take_zero, List.drop_succ_cons, List.drop_zero]
  generalize hA : after _ V = VA
  generalize hB : after _ VA = VB
  after_results
  rw [← hB]
  after_results
  rw [← hA]
  after_results

  simp only [StableHlo.TRef.ofBuf_toBuf]
  have h1 : ((.of main_v1 : StableHlo.TRef sig ⟨S640000, .i32⟩).ofBuf (V main_v1) : IVec S640000 32) = V main_v1 := rfl
  have h18 : ((.of main_v74 : StableHlo.TRef sig ⟨S40000x128, .f32⟩).ofBuf (V main_v74) : FVec Ideal S40000x128 .f32) = V main_v74 := rfl
  have hto : ∀ v : FVec Ideal S640000x128 .f32,
      ((StableHlo.TRef.of main_v75 : StableHlo.TRef sig ⟨S640000x128, .f32⟩).toBuf (Val := Elt Ideal) v : FVec Ideal S640000x128 .f32) = v :=
    fun v => rfl
  rw [h1, h18, hto]
  unfold take Cert.TakeFacts.kernelTake Cert.TakeFacts.inRangeMask Cert.TakeFacts.wrap
  rfl

theorem t6_agg : after (hostOps6_1 (F := Ideal)) V (Proc.devRef .tc main_v81)
    = Host.scatterAdd scatter_S40000x128_S640000x1_S640000x128_1_0_0_1
        (broadcastInDim S40000x128 ![] bcast_S_S40000x128 (constant (F := Ideal) S_ .f32 0x00000000#32))
        (broadcastInDim S640000x1 ![0] bcast_S640000_S640000x1_0 (V main_v3))
        (mulf (V main_v75) (broadcastInDim S640000x128 ![0, 1] bcast_S640000x1_S640000x128_0_1
          (broadcastInDim S640000x1 ![0] bcast_S640000_S640000x1_0 (V main_v8)))) := by
  unfold hostOps6_1
  after_results

theorem t6_relu : after (hostOps6_2 (F := Ideal)) V (Proc.devRef .tc main_v82)
    = maximumf (V main_v81) (broadcastInDim S40000x128 ![] bcast_S_S40000x128 (constant (F := Ideal) S_ .f32 0x00000000#32)) := by
  unfold hostOps6_2
  after_results
  rfl

end Cert.KernelIdeal.Hand

end
-- ==== Proof.KI.HostValC6.lean ====
import proofs.«405767_j7868380086676_1_alg».proof.Proof.KI.HostValBase
import proofs.«405767_j7868380086676_1_alg».proof.Proof.KI.HostValL6

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (c : Dev nD)

theorem c6_hid (H : FVec Ideal S40000x128 .f32)
    (hsrc : ∀ e : Fin 640000, (Cert.Chain.srcOf (A1 m c) (ix1 e)).toNat < 40000)
    (hIn : (X24 m c main_v74 : S40000x128.Idx → EReal)
      = Cert.Spec.affine (N := 40000) (K := 128) (M := 128) H (Wt m c (4 : Fin 5)) (Bt m c (4 : Fin 5))) :
    (X28 m c main_v82 : S40000x128.Idx → EReal)
      = Cert.Chain.step (Cert.Spec.msg H (A5 m c) (A6 m c) (4 : Fin 5) (Cert.Chain.srcOf (A1 m c)) (Cert.Spec.invSq (A2 m c)))
          (Cert.Chain.dstCol (A1 m c)) := by

  have e1 : X28 m c main_v82 = X27 m c main_v82 := X28_of m c main_v82 (by decide)
  have e2 : X27 m c main_v82 = _ := t6_relu (X26 m c)
  have e3 : X26 m c main_v81 = _ := t6_agg (X25 m c)
  have e4 : X25 m c main_v75 = _ := t6_take (X24 m c)

  have k1 : X24 m c main_v1 = Cert.Chain.srcOf (A1 m c) := by xkeep; exact b_src m c
  have k3 : X25 m c main_v3
      = shapeCast S640000 (extractStridedSlice S1x640000 ![1, 0] (A1 m c) slices_S2x640000_S1x640000_1_0) shapeCasts_S1x640000_S640000 := by
    xkeep; exact b_dst m c
  have k8 : X25 m c main_v8 = Cert.Spec.invSq (A2 m c) := by xkeep; exact b_w m c
  rw [hIn, k1] at e4
  rw [e4, k3, k8, msg_eq H (A5 m c) (A6 m c) (4 : Fin 5) (Cert.Chain.srcOf (A1 m c)) (Cert.Spec.invSq (A2 m c)) hsrc
    (Wt m c (4 : Fin 5)) (Bt m c (4 : Fin 5)) (fun k j => rfl) (fun j => rfl)] at e3
  rw [e3] at e2
  exact e1.trans e2

end Cert.KernelIdeal.Hand

end
-- ==== Proof.KI.HostVal.lean ====
import proofs.«405767_j7868380086676_1_alg».proof.Proof.KI.HostValC2
import proofs.«405767_j7868380086676_1_alg».proof.Proof.KI.HostValC3
import proofs.«405767_j7868380086676_1_alg».proof.Proof.KI.HostValC4
import proofs.«405767_j7868380086676_1_alg».proof.Proof.KI.HostValC5
import proofs.«405767_j7868380086676_1_alg».proof.Proof.KI.HostValC6

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (c : Dev nD)
variable (hsrc : ∀ e : Fin 640000, (Cert.Chain.srcOf (A1 m c) (ix1 e)).toNat < 40000)

theorem hid0 : (X3 m c main_v11 : S40000x128.Idx → EReal) = hidK m c 0 := b_hid0 m c

include hsrc

theorem hid1 : (X8 m c main_v26 : S40000x128.Idx → EReal) = hidK m c 1 :=
  (c2_hid m c (hidK m c 0) hsrc (b_in0 m c)).trans rfl

theorem hid2 : (X13 m c main_v40 : S40000x128.Idx → EReal) = hidK m c 2 :=
  (c3_hid m c (hidK m c 1) hsrc (c2_next m c _ (hid1 m c hsrc))).trans rfl

theorem hid3 : (X18 m c main_v54 : S40000x128.Idx → EReal) = hidK m c 3 :=
  (c4_hid m c (hidK m c 2) hsrc (c3_next m c _ (hid2 m c hsrc))).trans rfl

theorem hid4 : (X23 m c main_v68 : S40000x128.Idx → EReal) = hidK m c 4 :=
  (c5_hid m c (hidK m c 3) hsrc (c4_next m c _ (hid3 m c hsrc))).trans rfl

theorem hid5 : (X28 m c main_v82 : S40000x128.Idx → EReal)
    = Cert.Chain.hid (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) 5 :=
  (c6_hid m c (hidK m c 4) hsrc (c5_next m c _ (hid4 m c hsrc))).trans rfl

end Cert.KernelIdeal.Hand

end
-- ==== Proof.KI.Val6a.lean ====
import proofs.«405767_j7868380086676_1_alg».proof.Proof.KI.Reg6
import proofs.«405767_j7868380086676_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

theorem hz6 : (![0, 0] : Fin 2 → Nat) = fun _ => 0 := funext fun a => by fin_cases a <;> rfl

def softRow (z : Fin 3 → EReal) (q : Fin 3) : EReal :=
  Ideal.div (Ideal.exp (z q - max (Ideal.ofBits .f32 0xFF800000#32) ((Finset.univ : Finset (Fin 3)).fold max (Ideal.ofBits .f32 0xFF800000#32) z)))
    (∑ q' : Fin 3, Ideal.exp (z q' - max (Ideal.ofBits .f32 0xFF800000#32) ((Finset.univ : Finset (Fin 3)).fold max (Ideal.ofBits .f32 0xFF800000#32) z)))

theorem softmax3_apply (z : Cert.Spec.Mat 40000 3) (i : (⟨2, ![40000, 3]⟩ : Shape).Idx) :
    Cert.Spec.softmax3 z i = softRow (fun q => z (ix2 (i 0) q)) (i 1) := by
  unfold Cert.Spec.softmax3 Cert.Spec.rowMax softRow
  have e : z i = z (ix2 (i 0) (i 1)) := congrArg z (eq_ix2 i)
  rw [e]

theorem lhs3_0 (j : S5000x3.Idx) (q : dot_S5000x128_S128x3_S5000x3_1_0_0_1_n_n.contr.Idx) :
    (dot_S5000x128_S128x3_S5000x3_1_0_0_1_n_n.lhsIdx j q 0).val = (j 0).val := by
  unfold DotDims.lhsIdx
  rw [dif_neg (show ¬(0 : Fin S5000x128.rank) ∈ dot_S5000x128_S128x3_S5000x3_1_0_0_1_n_n.lhsBatch by decide), dif_pos (show (0 : Fin S5000x128.rank) ∈ dot_S5000x128_S128x3_S5000x3_1_0_0_1_n_n.lhsNonContracting by decide)]
  rfl
theorem lhs3_1 (j : S5000x3.Idx) (q : dot_S5000x128_S128x3_S5000x3_1_0_0_1_n_n.contr.Idx) :
    (dot_S5000x128_S128x3_S5000x3_1_0_0_1_n_n.lhsIdx j q 1).val = (q ⟨0, by decide⟩).val :=
  dot_S5000x128_S128x3_S5000x3_1_0_0_1_n_n.lhsIdx_val_of_single rfl j q
theorem rhs3_0 (j : S5000x3.Idx) (q : dot_S5000x128_S128x3_S5000x3_1_0_0_1_n_n.contr.Idx) :
    (dot_S5000x128_S128x3_S5000x3_1_0_0_1_n_n.rhsIdx j q 0).val = (q ⟨0, by decide⟩).val :=
  dot_S5000x128_S128x3_S5000x3_1_0_0_1_n_n.rhsIdx_val_of_single rfl j q
theorem rhs3_1 (j : S5000x3.Idx) (q : dot_S5000x128_S128x3_S5000x3_1_0_0_1_n_n.contr.Idx) :
    (dot_S5000x128_S128x3_S5000x3_1_0_0_1_n_n.rhsIdx j q 1).val = (j 1).val := by
  unfold DotDims.rhsIdx
  rw [dif_neg (show ¬(1 : Fin S128x3.rank) ∈ dot_S5000x128_S128x3_S5000x3_1_0_0_1_n_n.rhsBatch by decide), dif_pos (show (1 : Fin S128x3.rank) ∈ dot_S5000x128_S128x3_S5000x3_1_0_0_1_n_n.rhsNonContracting by decide)]
  rfl

theorem dot3_apply (a : FVec Ideal S5000x128 .f32) (b : FVec Ideal S128x3 .f32) (j : S5000x3.Idx) :
    matmul dot_S5000x128_S128x3_S5000x3_1_0_0_1_n_n none a b (constant (F := Ideal) S5000x3 .f32 0x00000000#32) j
      = ∑ k : Fin 128, a (ix2 (j 0) k) * b (ix2 k (j 1)) := by
  simp only [matmul]
  rw [Ideal.matmul_constant_zero_apply, ← Equiv.sum_comp (ValueIdx.contrEquiv1 dot_S5000x128_S128x3_S5000x3_1_0_0_1_n_n 128 rfl rfl).symm]
  refine Finset.sum_congr rfl fun k _ => ?_
  have hk := ValueIdx.contrEquiv1_symm_val dot_S5000x128_S128x3_S5000x3_1_0_0_1_n_n 128 rfl rfl k
  have el : dot_S5000x128_S128x3_S5000x3_1_0_0_1_n_n.lhsIdx j ((ValueIdx.contrEquiv1 dot_S5000x128_S128x3_S5000x3_1_0_0_1_n_n 128 rfl rfl).symm k) = ix2 (j 0) k := funext fun a => Fin.ext (by
    match a with
    | ⟨0, _⟩ => exact lhs3_0 _ _
    | ⟨1, _⟩ => exact (lhs3_1 _ _).trans hk)
  have er : dot_S5000x128_S128x3_S5000x3_1_0_0_1_n_n.rhsIdx j ((ValueIdx.contrEquiv1 dot_S5000x128_S128x3_S5000x3_1_0_0_1_n_n 128 rfl rfl).symm k) = ix2 k (j 1) := funext fun a => Fin.ext (by
    match a with
    | ⟨0, _⟩ => exact (rhs3_0 _ _).trans hk
    | ⟨1, _⟩ => exact rhs3_1 _ _)
  exact congrArg₂ (· * ·) (congrArg a el) (congrArg b er)

theorem biasRow3_apply (x2 : FVec Ideal S1x3 .f32) (j : S5000x3.Idx) :
    broadcastTo S5000x3 x2 broadcasts_S1x3_S5000x3 j = x2 (ix2 0 (j 1)) := by
  conv_lhs => rw [eq_ix2 j]
  exact broadcastTo_1b_ab_apply x2 broadcasts_S1x3_S5000x3 (j 0) (j 1)

theorem perRow3_apply (v : FVec Ideal S5000 .f32) (j : S5000x3.Idx) :
    broadcastTo S5000x3 (shapeCast S5000x1 v shapeCasts_S5000_S5000x1) broadcasts_S5000x1_S5000x3 j = v (ix1 (j 0)) := by
  rw [broadcastTo_apply _ broadcasts_S5000x1_S5000x3 j (ix2 (j 0) (0 : Fin 1)) (fun a => by
    match a with
    | ⟨0, _⟩ => rfl
    | ⟨1, _⟩ => rfl)]
  exact shapeCast_apply v shapeCasts_S5000_S5000x1 _ _ (by
    rw [Shape.rowMajor_val_two, Shape.rowMajor_val_one]
    show (j 0).val = (j 0).val * 1 + 0
    omega)

theorem lift3 (jj : S5000.Idx) (q : Fin (S5000x3.size 1)) :
    reduces_S5000x3_S5000.lift jj q = ix2 (jj 0) (⟨q.val, q.isLt⟩ : Fin 3) := by
  funext c; apply Fin.ext
  fin_cases c <;> rfl

theorem rowSum3_apply (v : FVec Ideal S5000x3 .f32) (hφ : FKind.Formats .f32) (hacc : (0x00000000#32 : BitVec 32) = FKind.add.neutral .f32 hφ)
    (jj : S5000.Idx) :
    multiReduction .add [1] S5000 v 0x00000000#32 reduces_S5000x3_S5000 hφ hacc jj = ∑ q : Fin 3, v (ix2 (jj 0) q) := by
  refine (Ideal.multiReduction_add_single v _ reduces_S5000x3_S5000 hφ hacc jj).trans ?_
  show ∑ q : Fin 3, v (reduces_S5000x3_S5000.lift jj q) = _
  exact Finset.sum_congr rfl fun q _ => congrArg v (lift3 jj q)

theorem rowMax3_apply (v : FVec Ideal S5000x3 .f32) (hφ : FKind.Formats .f32) (hacc : (0xFF800000#32 : BitVec 32) = FKind.maximumf.neutral .f32 hφ)
    (jj : S5000.Idx) :
    multiReduction .maximumf [1] S5000 v 0xFF800000#32 reduces_S5000x3_S5000 hφ hacc jj
      = (Finset.univ : Finset (Fin 3)).fold max (Ideal.ofBits .f32 0xFF800000#32) (fun q => v (ix2 (jj 0) q)) := by
  refine (Ideal.multiReduction_maximumf_single v _ reduces_S5000x3_S5000 hφ hacc jj).trans ?_
  show (Finset.univ : Finset (Fin 3)).fold max (Ideal.ofBits .f32 0xFF800000#32) (fun q => v (reduces_S5000x3_S5000.lift jj q)) = _
  exact congrArg (fun f => (Finset.univ : Finset (Fin 3)).fold max (Ideal.ofBits .f32 0xFF800000#32) f) (funext fun q => congrArg v (lift3 jj q))

theorem exp_apply6 {s : Shape} (a : FVec Ideal s .f32) (i : s.Idx) : exp a i = Ideal.exp (a i) := rfl

def pay3Form (hφ : FKind.Formats .f32) (hmax : (0xFF800000#32 : BitVec 32) = FKind.maximumf.neutral .f32 hφ)
    (hadd : (0x00000000#32 : BitVec 32) = FKind.add.neutral .f32 hφ)
    (x0 : FVec Ideal S5000x128 .f32) (x1 : FVec Ideal S128x3 .f32) (x2 : FVec Ideal S1x3 .f32) : FVec Ideal S5000x3 .f32 :=
  let z : FVec Ideal S5000x3 .f32 := addf (matmul dot_S5000x128_S128x3_S5000x3_1_0_0_1_n_n none x0 x1 (constant (F := Ideal) S5000x3 .f32 0x00000000#32))
    (broadcastTo S5000x3 x2 broadcasts_S1x3_S5000x3)
  let m : FVec Ideal S5000 .f32 := maximumf (broadcast S5000 (Scalar.ofBits (F := Ideal) .f32 0xFF800000#32))
    (multiReduction .maximumf [1] S5000 z 0xFF800000#32 reduces_S5000x3_S5000 hφ hmax)
  let e : FVec Ideal S5000x3 .f32 := exp (subf z (broadcastTo S5000x3 (shapeCast S5000x1 m shapeCasts_S5000_S5000x1) broadcasts_S5000x1_S5000x3))
  divf e (broadcastTo S5000x3 (shapeCast S5000x1 (multiReduction .add [1] S5000 e 0x00000000#32 reduces_S5000x3_S5000 hφ hadd) shapeCasts_S5000_S5000x1) broadcasts_S5000x1_S5000x3)

theorem pay3Form_apply (hφ : FKind.Formats .f32) (hmax : (0xFF800000#32 : BitVec 32) = FKind.maximumf.neutral .f32 hφ)
    (hadd : (0x00000000#32 : BitVec 32) = FKind.add.neutral .f32 hφ)
    (x0 : FVec Ideal S5000x128 .f32) (x1 : FVec Ideal S128x3 .f32) (x2 : FVec Ideal S1x3 .f32) (j : S5000x3.Idx) :
    pay3Form hφ hmax hadd x0 x1 x2 j = softRow (fun q => (∑ k : Fin 128, x0 (ix2 (j 0) k) * x1 (ix2 k q)) + x2 (ix2 0 q)) (j 1) := by
  unfold pay3Form softRow
  simp only [divf_apply, perRow3_apply, rowSum3_apply _ hφ hadd, rowMax3_apply _ hφ hmax, exp_apply6,
    subf_apply, addf_apply, maximumf_apply, broadcast_apply, dot3_apply, biasRow3_apply]
  rfl

theorem head_pay3_apply (x0 : Vec Ideal S5000x128 .f32) (x1 : Vec Ideal S128x3 .f32) (x2 : Vec Ideal S1x3 .f32) (j : S5000x3.Idx) :
    k6_pay3 x0 x1 x2 j = softRow (fun q => (∑ k : Fin 128, x0 (ix2 (j 0) k) * x1 (ix2 k q)) + x2 (ix2 0 q)) (j 1) := by
  unfold k6_pay3 k6_pay2
  simp only [shapeCast_self]
  exact pay3Form_apply (.inl rfl) rfl rfl x0 x1 x2 j

variable (V : (c : Dev nD) → (b : Ref sig .tc) → Buf (Elt Ideal) ((c : Thread nD τ).loc b))

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = 0 ∧ win6_6.index t (1 : Fin 2) = 0 :=
  (by decide +kernel : ∀ t : Fin grid6.N, _)

theorem iblk6_0_apply (c : Dev nD) (t : Fin cfg6.N) (y : S5000x128.Idx) (i : S40000x128.Idx)
    (h0 : (i 0).val = 5000 * t.val + (y 0).val) (h1 : (i 1).val = (y 1).val) :
    (iblk6 V c 0 t : Vec Ideal S5000x128 .f32) y = (V c main_v82 : S40000x128.Idx → EReal) i := by
  obtain ⟨e0, e1, -⟩ := idx_facts6 t
  unfold iblk6
  rw [View.read_apply]
  show V c main_v82 _ = V c main_v82 _
  congr 1
  funext a
  apply Fin.ext
  match a with
  | ⟨0, _⟩ => show win6_0.index t 0 * 5000 + 1 * (y 0).val = (i 0).val; rw [e0, h0]; omega
  | ⟨1, _⟩ => show win6_0.index t 1 * 128 + 1 * (y 1).val = (i 1).val; rw [e1, h1]; omega

theorem iblk6_1_apply (c : Dev nD) (t : Fin cfg6.N) (y : S128x3.Idx) :
    (iblk6 V c 1 t : Vec Ideal S128x3 .f32) y = (V c main_v83 : S128x3.Idx → EReal) y := by
  obtain ⟨-, -, e0, e1, -⟩ := idx_facts6 t
  unfold iblk6
  rw [View.read_apply]
  show V c main_v83 _ = V c main_v83 _
  congr 1
  funext a
  apply Fin.ext
  match a with
  | ⟨0, _⟩ => show win6_1.index t 0 * 128 + 1 * (y 0).val = (y 0).val; rw [e0]; omega
  | ⟨1, _⟩ => show win6_1.index t 1 * 3 + 1 * (y 1).val = (y 1).val; rw [e1]; omega

theorem iblk6_2_apply (c : Dev nD) (t : Fin cfg6.N) (y : S1x3.Idx) :
    (iblk6 V c 2 t : Vec Ideal S1x3 .f32) y = (V c main_v84 : S1x3.Idx → EReal) y := by
  obtain ⟨-, -, -, -, e0, e1, -⟩ := idx_facts6 t
  unfold iblk6
  rw [View.read_apply]
  show V c main_v84 _ = V c main_v84 _
  congr 1
  funext a
  apply Fin.ext
  match a with
  | ⟨0, _⟩ => show win6_2.index t 0 * 1 + 1 * (y 0).val = (y 0).val; rw [e0]; omega
  | ⟨1, _⟩ => show win6_2.index t 1 * 3 + 1 * (y 1).val = (y 1).val; rw [e1]; omega

abbrev G5 (c : Dev nD) : S40000x3.Idx → EReal :=
  Cert.Spec.softmax3 (Cert.Spec.affine (N := 40000) (K := 128) (M := 3) (V c main_v82) (V c main_v83) (V c main_v84))

theorem flushed6_5_eq (c : Dev nD) (t : Fin cfg6.N) :
    (dat6 (F := Ideal) V c).flushed 5 t = ((cfg6.win 5).blk t).view.read (Elt Ideal) (G5 V c) := by
  show (cfg6.win 5).cut (grid6.coords t) ((dat6 V c).after 5 t) = _
  rw [after6_5]
  unfold out6_5
  rw [View.canon_unit_zero hz6]
  simp only [View.ld_unit_zero (S := S5000x128) hz6, View.ld_unit_zero (S := S128x3) hz6, View.ld_unit_zero (S := S1x3) hz6]
  obtain ⟨-, -, -, -, -, -, -, -, -, -, e0, e1, -⟩ := idx_facts6 t
  funext j
  show k6_pay3 (iblk6 V c 0 t) (iblk6 V c 1 t) (iblk6 V c 2 t) j = G5 V c (((cfg6.win 5).blk t).view.emb j)
  refine (head_pay3_apply (iblk6 V c 0 t) (iblk6 V c 1 t) (iblk6 V c 2 t) j).trans ?_
  unfold G5
  rw [softmax3_apply]
  have hq : (((cfg6.win 5).blk t).view.emb j) 1 = j 1 :=
    Fin.ext (by show win6_5.index t 1 * 3 + 1 * (j 1).val = (j 1).val; rw [e1]; omega)
  have hr : ((((cfg6.win 5).blk t).view.emb j) 0).val = 5000 * t.val + (j 0).val := by
    show win6_5.index t 0 * 5000 + 1 * (j 0).val = 5000 * t.val + (j 0).val; rw [e0]; omega
  refine congrArg₂ softRow (funext fun q => ?_) hq.symm
  unfold Cert.Spec.affine
  refine congrArg₂ (· + ·) (Finset.sum_congr rfl fun k _ => congrArg₂ (· * ·) ?_ ?_) ?_
  · exact iblk6_0_apply V c t _ _ hr rfl
  · exact iblk6_1_apply V c t _
  · exact iblk6_2_apply V c t _

theorem mem_blk6_5 (t : Fin cfg6.N) (i : S40000x3.Idx) :
    i ∈ ((cfg6.win 5).blk t).view.set ↔ ∀ a : Fin 2, win6_5.index t a * S5000x3.size a ≤ (i a).val ∧ (i a).val < win6_5.index t a * S5000x3.size a + S5000x3.size a := by
  show i ∈ ((View.whole main_v87_0).slice (win6_5.rect t)).set ↔ _
  rw [View.set_slice_whole, Rect.mem_set_unit]
  exact Iff.rfl

theorem cover6_5_arr (i : S40000x3.Idx) : ∃ t : Fin cfg6.N, (cfg6.win 5).flush t = true ∧ i ∈ ((cfg6.win 5).blk t).view.set := by
  have hi0 : (i 0).val < 40000 := (i 0).isLt
  have hi1 : (i 1).val < 3 := (i 1).isLt
  have hN : cfg6.N = 8 := N_6
  let t : Fin cfg6.N := ⟨(i 0).val / 5000, by rw [hN]; omega⟩
  obtain ⟨-, -, -, -, -, -, -, -, -, -, e0, e1, -⟩ := idx_facts6 t
  have e0' : win6_5.index t 0 = (i 0).val / 5000 := e0
  refine ⟨t, flush6_5 t, ?_⟩
  rw [mem_blk6_5]
  intro a
  match a with
  | ⟨0, _⟩ => show win6_5.index t 0 * 5000 ≤ (i 0).val ∧ (i 0).val < win6_5.index t 0 * 5000 + 5000; rw [e0']; omega
  | ⟨1, _⟩ => show win6_5.index t 1 * 3 ≤ (i 1).val ∧ (i 1).val < win6_5.index t 1 * 3 + 3; rw [e1]; omega

theorem final6_probs (c : Dev nD) :
    ((dat6 (F := Ideal) V c).arrAt 5 cfg6.N : S40000x3.Idx → EReal)
      = Cert.Spec.softmax3 (Cert.Spec.affine (N := 40000) (K := 128) (M := 3) (V c main_v82) (V c main_v83) (V c main_v84)) :=
  (dat6 (F := Ideal) V c).arrAt_eq_of_cover 5 (G5 V c) (fun t _ => flushed6_5_eq V c t) cover6_5_arr

end Cert.KernelIdeal.Hand

end
-- ==== Proof.KI.Val6b.lean ====
import proofs.«405767_j7868380086676_1_alg».proof.Proof.KI.Val6a

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

theorem lift128 (jj : S128.Idx) (r : Fin (S5000x128.size 0)) :
    reduces_S5000x128_S128.lift jj r = ix2 (⟨r.val, r.isLt⟩ : Fin 5000) (jj 0) := by
  funext c; apply Fin.ext
  fin_cases c <;> rfl

theorem colSum_apply (v : FVec Ideal S5000x128 .f32) (hφ : FKind.Formats .f32) (hadd : (0x00000000#32 : BitVec 32) = FKind.add.neutral .f32 hφ)
    (jj : S128.Idx) :
    multiReduction .add [0] S128 v 0x00000000#32 reduces_S5000x128_S128 hφ hadd jj = ∑ r : Fin 5000, v (ix2 r (jj 0)) := by
  refine (Ideal.multiReduction_add_single v _ reduces_S5000x128_S128 hφ hadd jj).trans ?_
  show ∑ r : Fin 5000, v (reduces_S5000x128_S128.lift jj r) = _
  exact Finset.sum_congr rfl fun r _ => congrArg v (lift128 jj r)

def pay4Form (hφ : FKind.Formats .f32) (hadd : (0x00000000#32 : BitVec 32) = FKind.add.neutral .f32 hφ)
    (x0 : FVec Ideal S5000x128 .f32) (s : FVec Ideal S1x128 .f32) : FVec Ideal S1x128 .f32 :=
  addf s (shapeCast S1x128 (multiReduction .add [0] S128 x0 0x00000000#32 reduces_S5000x128_S128 hφ hadd) shapeCasts_S128_S1x128)

theorem pay4Form_apply (hφ : FKind.Formats .f32) (hadd : (0x00000000#32 : BitVec 32) = FKind.add.neutral .f32 hφ)
    (x0 : FVec Ideal S5000x128 .f32) (s : FVec Ideal S1x128 .f32) (k : Fin 128) :
    pay4Form hφ hadd x0 s (ix2 (0 : Fin 1) k) = s (ix2 (0 : Fin 1) k) + ∑ r : Fin 5000, x0 (ix2 r k) := by
  unfold pay4Form
  rw [addf_apply, shapeCast_a_1a_apply, colSum_apply]

theorem head_pay4_apply (x0 : Vec Ideal S5000x128 .f32) (s : Vec Ideal S1x128 .f32) (k : Fin 128) :
    k6_pay4 x0 s (ix2 (0 : Fin 1) k) = s (ix2 (0 : Fin 1) k) + ∑ r : Fin 5000, x0 (ix2 r k) := by
  unfold k6_pay4 k6_pay2
  simp only [shapeCast_self]
  exact pay4Form_apply (.inl rfl) rfl x0 s k

theorem head_pay1_apply (i : S1x128.Idx) : k6_pay1 (F := Ideal) i = 0 := by
  unfold k6_pay1
  simp only [shapeCast_self]
  show Ideal.ofBits .f32 0x00000000#32 = 0
  exact Ideal.ofBits_zero_f32

theorem acc6_zero_apply (i : S1x128.Idx) : acc6_zero (F := Ideal) i = 0 := by
  unfold acc6_zero
  rw [View.canon_unit_zero hz6]
  exact head_pay1_apply i

theorem acc6_step_apply (x0 : Vec Ideal S5000x128 .f32) (s : Vec Ideal S1x128 .f32) (k : Fin 128) :
    acc6_step x0 s (ix2 (0 : Fin 1) k) = s (ix2 (0 : Fin 1) k) + ∑ r : Fin 5000, x0 (ix2 r k) := by
  unfold acc6_step
  rw [View.canon_unit_zero hz6]
  simp only [View.ld_unit_zero (S := S5000x128) hz6, View.ld_unit_zero (S := S1x128) hz6]
  exact head_pay4_apply x0 s k

variable (V : (c : Dev nD) → (b : Ref sig .tc) → Buf (Elt Ideal) ((c : Thread nD τ).loc b))

def blockSum (c : Dev nD) (k : Fin 128) (t : ℕ) : EReal :=
  if h : t < 8 then ∑ r : Fin 5000, (V c main_v82 : S40000x128.Idx → EReal) (ix2 (⟨5000 * t + r.val, by omega⟩ : Fin 40000) k) else 0

theorem iblk6_colsum (c : Dev nD) (t : Fin cfg6.N) (k : Fin 128) (x0 : Vec Ideal S5000x128 .f32) (hx : x0 = iblk6 V c 0 t) :
    ∑ r : Fin 5000, x0 (ix2 r k) = blockSum V c k t.val := by
  subst hx
  have hN : t.val < 8 := lt_of_lt_of_eq t.isLt (show cfg6.N = 8 from N_6)
  unfold blockSum
  rw [dif_pos hN]
  exact Finset.sum_congr rfl fun r _ => iblk6_0_apply V c t _ _ rfl rfl

theorem acc6_col (c : Dev nD) (k : Fin 128) : ∀ n : ℕ, n < 8 →
    acc6 V c n (ix2 (0 : Fin 1) k) = ∑ t ∈ Finset.range (n + 1), blockSum V c k t
  | 0, _ => by
    have h : 0 < cfg6.N := by rw [show cfg6.N = 8 from N_6]; decide
    refine (acc6_step_apply (iblk6 V c 0 ⟨0, h⟩) (acc6_zero (F := Ideal)) k).trans ?_
    rw [acc6_zero_apply, zero_add, Finset.sum_range_one]
    exact iblk6_colsum V c ⟨0, h⟩ k _ rfl
  | n + 1, hn => by
    have h : n + 1 < cfg6.N := by rw [show cfg6.N = 8 from N_6]; exact hn
    have e : acc6 V c (n + 1) = acc6_step (iblk6 V c 0 ⟨n + 1, h⟩) (acc6 V c n) := dif_pos h
    rw [e]
    refine (acc6_step_apply (iblk6 V c 0 ⟨n + 1, h⟩) (acc6 V c n) k).trans ?_
    rw [acc6_col c k n (by omega), Finset.sum_range_succ _ (n + 1)]
    exact congrArg (_ + ·) (iblk6_colsum V c ⟨n + 1, h⟩ k _ rfl)

theorem acc6_last (c : Dev nD) (k : Fin 128) :
    acc6 V c 7 (ix2 (0 : Fin 1) k) = Cert.Spec.colSum (V c main_v82) k := by
  rw [acc6_col V c k 7 (by decide), Finset.sum_range]
  unfold Cert.Spec.colSum
  rw [Cert.Spec.sum_blocks]
  refine Finset.sum_congr rfl fun t _ => ?_
  unfold blockSum
  rw [dif_pos t.isLt]

theorem lhs5_0 (j : S1x1.Idx) (q : dot_S1x128_S128x1_S1x1_1_0_0_1_n_n.contr.Idx) :
    (dot_S1x128_S128x1_S1x1_1_0_0_1_n_n.lhsIdx j q 0).val = (j 0).val := by
  unfold DotDims.lhsIdx
  rw [dif_neg (show ¬(0 : Fin S1x128.rank) ∈ dot_S1x128_S128x1_S1x1_1_0_0_1_n_n.lhsBatch by decide), dif_pos (show (0 : Fin S1x128.rank) ∈ dot_S1x128_S128x1_S1x1_1_0_0_1_n_n.lhsNonContracting by decide)]
  rfl
theorem lhs5_1 (j : S1x1.Idx) (q : dot_S1x128_S128x1_S1x1_1_0_0_1_n_n.contr.Idx) :
    (dot_S1x128_S128x1_S1x1_1_0_0_1_n_n.lhsIdx j q 1).val = (q ⟨0, by decide⟩).val :=
  dot_S1x128_S128x1_S1x1_1_0_0_1_n_n.lhsIdx_val_of_single rfl j q
theorem rhs5_0 (j : S1x1.Idx) (q : dot_S1x128_S128x1_S1x1_1_0_0_1_n_n.contr.Idx) :
    (dot_S1x128_S128x1_S1x1_1_0_0_1_n_n.rhsIdx j q 0).val = (q ⟨0, by decide⟩).val :=
  dot_S1x128_S128x1_S1x1_1_0_0_1_n_n.rhsIdx_val_of_single rfl j q
theorem rhs5_1 (j : S1x1.Idx) (q : dot_S1x128_S128x1_S1x1_1_0_0_1_n_n.contr.Idx) :
    (dot_S1x128_S128x1_S1x1_1_0_0_1_n_n.rhsIdx j q 1).val = (j 1).val := by
  unfold DotDims.rhsIdx
  rw [dif_neg (show ¬(1 : Fin S128x1.rank) ∈ dot_S1x128_S128x1_S1x1_1_0_0_1_n_n.rhsBatch by decide), dif_pos (show (1 : Fin S128x1.rank) ∈ dot_S1x128_S128x1_S1x1_1_0_0_1_n_n.rhsNonContracting by decide)]
  rfl

theorem dot5_apply (a : FVec Ideal S1x128 .f32) (b : FVec Ideal S128x1 .f32) (j : S1x1.Idx) :
    matmul dot_S1x128_S128x1_S1x1_1_0_0_1_n_n none a b (constant (F := Ideal) S1x1 .f32 0x00000000#32) j
      = ∑ k : Fin 128, a (ix2 (j 0) k) * b (ix2 k (j 1)) := by
  simp only [matmul]
  rw [Ideal.matmul_constant_zero_apply, ← Equiv.sum_comp (ValueIdx.contrEquiv1 dot_S1x128_S128x1_S1x1_1_0_0_1_n_n 128 rfl rfl).symm]
  refine Finset.sum_congr rfl fun k _ => ?_
  have hk := ValueIdx.contrEquiv1_symm_val dot_S1x128_S128x1_S1x1_1_0_0_1_n_n 128 rfl rfl k
  have el : dot_S1x128_S128x1_S1x1_1_0_0_1_n_n.lhsIdx j ((ValueIdx.contrEquiv1 dot_S1x128_S128x1_S1x1_1_0_0_1_n_n 128 rfl rfl).symm k) = ix2 (j 0) k := funext fun a => Fin.ext (by
    match a with
    | ⟨0, _⟩ => exact lhs5_0 _ _
    | ⟨1, _⟩ => exact (lhs5_1 _ _).trans hk)
  have er : dot_S1x128_S128x1_S1x1_1_0_0_1_n_n.rhsIdx j ((ValueIdx.contrEquiv1 dot_S1x128_S128x1_S1x1_1_0_0_1_n_n 128 rfl rfl).symm k) = ix2 k (j 1) := funext fun a => Fin.ext (by
    match a with
    | ⟨0, _⟩ => exact (rhs5_0 _ _).trans hk
    | ⟨1, _⟩ => exact rhs5_1 _ _)
  exact congrArg₂ (· * ·) (congrArg a el) (congrArg b er)

theorem inv_40000 : Named.named (F := Ideal) κ "inv_40000" (φ := .f32) 0x37D1B717#32 = ((1 / 40000 : ℝ) : EReal) :=
  IdealRules.named_const.ideal_named_scalar _ _ _ _ rfl

theorem idx11 (j : S1x1.Idx) : j = ix2 (0 : Fin 1) (0 : Fin 1) := by
  funext a; apply Fin.ext
  match a with
  | ⟨0, _⟩ => have h : (j 0).val < 1 := (j 0).isLt; show (j 0).val = 0; omega
  | ⟨1, _⟩ => have h : (j 1).val < 1 := (j 1).isLt; show (j 1).val = 0; omega

theorem head_pay5_apply (s : Vec Ideal S1x128 .f32) (x3 : Vec Ideal S128x1 .f32) (x4 : Vec Ideal S1x1 .f32) (j : S1x1.Idx) :
    k6_pay5 s x3 x4 j
      = (∑ k : Fin 128, (s (ix2 (0 : Fin 1) k) * ((1 / 40000 : ℝ) : EReal)) * x3 (ix2 k (0 : Fin 1))) + x4 (ix2 (0 : Fin 1) (0 : Fin 1)) := by
  unfold k6_pay5
  simp only [shapeCast_self]
  rw [idx11 j, addf_apply, dot5_apply]
  simp only [mulf_apply, broadcast_apply, inv_40000]

theorem iblk6_3_apply (c : Dev nD) (t : Fin cfg6.N) (y : S128x1.Idx) :
    (iblk6 V c 3 t : Vec Ideal S128x1 .f32) y = (V c main_v85 : S128x1.Idx → EReal) y := by
  obtain ⟨-, -, -, -, -, -, e0, e1, -⟩ := idx_facts6 t
  unfold iblk6
  rw [View.read_apply]
  show V c main_v85 _ = V c main_v85 _
  congr 1
  funext a
  apply Fin.ext
  match a with
  | ⟨0, _⟩ => show win6_3.index t 0 * 128 + 1 * (y 0).val = (y 0).val; rw [e0]; omega
  | ⟨1, _⟩ => show win6_3.index t 1 * 1 + 1 * (y 1).val = (y 1).val; rw [e1]; omega

theorem iblk6_4_apply (c : Dev nD) (t : Fin cfg6.N) (y : S1x1.Idx) :
    (iblk6 V c 4 t : Vec Ideal S1x1 .f32) y = (V c main_v86 : S1x1.Idx → EReal) y := by
  obtain ⟨-, -, -, -, -, -, -, -, e0, e1, -⟩ := idx_facts6 t
  unfold iblk6
  rw [View.read_apply]
  show V c main_v86 _ = V c main_v86 _
  congr 1
  funext a
  apply Fin.ext
  match a with
  | ⟨0, _⟩ => show win6_4.index t 0 * 1 + 1 * (y 0).val = (y 0).val; rw [e0]; omega
  | ⟨1, _⟩ => show win6_4.index t 1 * 1 + 1 * (y 1).val = (y 1).val; rw [e1]; omega

abbrev E6 (c : Dev nD) : EReal :=
  (∑ k : Fin 128, (Cert.Spec.colSum (V c main_v82) k * ((1 / 40000 : ℝ) : EReal)) * (V c main_v85 : S128x1.Idx → EReal) (ix2 k 0))
    + (V c main_v86 : S1x1.Idx → EReal) (ix2 0 0)

theorem flushed6_6_eq (c : Dev nD) (t : Fin cfg6.N) (hf : (cfg6.win 6).flush t = true) :
    (dat6 (F := Ideal) V c).flushed 6 t = ((cfg6.win 6).blk t).view.read (Elt Ideal) (fun _ => E6 V c) := by
  have hN : cfg6.N = 8 := N_6
  have h7 : t.val = 7 := by have := (flush6_6 t).mp hf; have := t.isLt; omega
  show (cfg6.win 6).cut (grid6.coords t) ((dat6 V c).after 6 t) = _
  rw [after6_6, h7]
  unfold out6_6
  rw [View.canon_unit_zero hz6]
  simp only [View.ld_unit_zero (S := S1x128) hz6, View.ld_unit_zero (S := S128x1) hz6, View.ld_unit_zero (S := S1x1) hz6]
  funext j
  show k6_pay5 (acc6 V c 7) (iblk6 V c 3 t) (iblk6 V c 4 t) j = E6 V c
  refine (head_pay5_apply (acc6 V c 7) (iblk6 V c 3 t) (iblk6 V c 4 t) j).trans ?_
  refine congrArg₂ (· + ·) (Finset.sum_congr rfl fun k _ => congrArg₂ (· * ·) (congrArg (· * _) (acc6_last V c k)) (iblk6_3_apply V c t _)) (iblk6_4_apply V c t _)

theorem cover6_6_arr (i : S1x1.Idx) : ∃ t : Fin cfg6.N, (cfg6.win 6).flush t = true ∧ i ∈ ((cfg6.win 6).blk t).view.set := by
  have hi0 : (i 0).val < 1 := (i 0).isLt
  have hi1 : (i 1).val < 1 := (i 1).isLt
  obtain ⟨-, -, -, -, -, -, -, -, -, -, -, -, e0, e1⟩ := idx_facts6 t6_7
  refine ⟨t6_7, (flush6_6 t6_7).mpr rfl, ?_⟩
  show i ∈ ((View.whole main_v87_1).slice (win6_6.rect t6_7)).set
  rw [View.set_slice_whole, Rect.mem_set_unit]
  intro a
  match a with
  | ⟨0, _⟩ => show win6_6.index t6_7 0 * 1 ≤ (i 0).val ∧ (i 0).val < win6_6.index t6_7 0 * 1 + 1; rw [e0]; omega
  | ⟨1, _⟩ => show win6_6.index t6_7 1 * 1 ≤ (i 1).val ∧ (i 1).val < win6_6.index t6_7 1 * 1 + 1; rw [e1]; omega

theorem final6_energy (c : Dev nD) :
    ((dat6 (F := Ideal) V c).arrAt 6 cfg6.N : S1x1.Idx → EReal)
      = fun _ => (∑ k : Fin 128, (Cert.Spec.colSum (V c main_v82) k * ((1 / 40000 : ℝ) : EReal)) * (V c main_v85 : S128x1.Idx → EReal) (ValueIdx.ix2 k 0))
          + (V c main_v86 : S1x1.Idx → EReal) (ValueIdx.ix2 0 0) :=
  (dat6 (F := Ideal) V c).arrAt_eq_of_cover 6 (fun _ => E6 V c) (flushed6_6_eq V c) cover6_6_arr

end Cert.KernelIdeal.Hand

end
-- ==== Proof.RefVal.lean ====
import proofs.«405767_j7868380086676_1_alg».proof.Proof.Gen.ReferenceIdeal.Run
import proofs.«405767_j7868380086676_1_alg».proof.Proof.Gen.ReferenceIdeal.Read
import proofs.«405767_j7868380086676_1_alg».proof.Proof.Chain
import proofs.«405767_j7868380086676_1_alg».proof.Proof.Spec
import proofs.«405767_j7868380086676_1_alg».proof.Proof.TakeFacts
import Idealize.ShloMosaic.PureOps.Ideal.Laws
import Idealize.ShloMosaic.PureOps.Reduce
import Idealize.ShloMosaic.Lib.Pipeline.Value
import Idealize.ShloMosaic.Lib.ValueIdx

noncomputable section

namespace Cert.RefVal

open Idealize.ShloMosaic Idealize.ShloMosaic.ValueIdx
open Cert.ReferenceIdeal Cert.ReferenceIdeal.Read

variable [hK : Cert.KernelIdeal.Facts] [hR : Cert.ReferenceIdeal.Facts]
open Cert.ReferenceIdeal.Facts₀

theorem layerW_apply (x5 : FVec Ideal S5x128x128 .f32) (o : Nat) (ho : o < 5) (hs : S5x128x128.Slices ![o, 0, 0] S1x128x128)
    (k j : Fin 128) :
    transpose S128x128 [1, 0] (shapeCast S128x128 (extractStridedSlice S1x128x128 ![o, 0, 0] x5 hs)
      shapeCasts_S1x128x128_S128x128) transposes_S128x128_S128x128_1_0 (ix2 k j) = x5 (ix3 (⟨o, ho⟩ : Fin 5) j k) := by
  refine (transpose_apply [1, 0] _ transposes_S128x128_S128x128_1_0 (ix2 k j) (ix2 j k) (fun b => match b with
    | ⟨0, _⟩ => rfl
    | ⟨1, _⟩ => rfl)).trans ?_
  refine (shapeCast_apply _ shapeCasts_S1x128x128_S128x128 (ix2 j k) (ix3 (0 : Fin 1) j k) ?_).trans ?_
  · rewrite [Shape.rowMajor_val_three, Shape.rowMajor_val_two]
    show (0 * 128 + j.val) * 128 + k.val = j.val * 128 + k.val
    omega
  exact extractStridedSlice_apply _ x5 hs (ix3 (0 : Fin 1) j k) (ix3 (⟨o, ho⟩ : Fin 5) j k) (fun a => match a with
    | ⟨0, _⟩ => by show o = o + 0; omega
    | ⟨1, _⟩ => by show j.val = 0 + j.val; omega
    | ⟨2, _⟩ => by show k.val = 0 + k.val; omega)

theorem layerB_apply (x6 : FVec Ideal S5x128 .f32) (o : Nat) (ho : o < 5) (hs : S5x128.Slices ![o, 0] S1x128)
    (i : S640000x128.Idx) :
    broadcastInDim S640000x128 ![0, 1] bcast_S1x128_S640000x128_0_1 (broadcastInDim S1x128 ![1] bcast_S128_S1x128_1
      (shapeCast S128 (extractStridedSlice S1x128 ![o, 0] x6 hs) shapeCasts_S1x128_S128)) i
      = x6 (ix2 (⟨o, ho⟩ : Fin 5) (i 1)) := by
  refine (broadcastInDim_apply _ bcast_S1x128_S640000x128_0_1 _ i (ix2 (0 : Fin 1) (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  refine (broadcastInDim_apply _ bcast_S128_S1x128_1 _ (ix2 (0 : Fin 1) (i 1)) (ix1 (i 1)) (fun a => match a with
    | ⟨0, _⟩ => by show (i 1).val = if (128 : Nat) = 1 then 0 else (i 1).val; rw [if_neg (by decide)])).trans ?_
  refine (shapeCast_apply _ shapeCasts_S1x128_S128 (ix1 (i 1)) (ix2 (0 : Fin 1) (i 1)) ?_).trans ?_
  · rewrite [Shape.rowMajor_val_two, Shape.rowMajor_val_one]
    show 0 * 128 + (i 1).val = (i 1).val
    omega
  exact extractStridedSlice_apply _ x6 hs (ix2 (0 : Fin 1) (i 1)) (ix2 (⟨o, ho⟩ : Fin 5) (i 1)) (fun a => match a with
    | ⟨0, _⟩ => by show o = o + 0; omega
    | ⟨1, _⟩ => by show (i 1).val = 0 + (i 1).val; omega)

theorem edgeW_apply (w : FVec Ideal S640000 .f32) (i : S640000x128.Idx) :
    broadcastInDim S640000x128 ![0, 1] bcast_S640000x1_S640000x128_0_1
      (broadcastInDim S640000x1 ![0] bcast_S640000_S640000x1_0 w) i = w (ix1 (i 0)) := by
  refine (broadcastInDim_apply _ bcast_S640000x1_S640000x128_0_1 _ i (ix2 (i 0) (0 : Fin 1)) (fun a => match a with
    | ⟨0, _⟩ => by show (i 0).val = if (640000 : Nat) = 1 then 0 else (i 0).val; rw [if_neg (by decide)]
    | ⟨1, _⟩ => by show 0 = if (1 : Nat) = 1 then 0 else (i 1).val; rw [if_pos rfl])).trans ?_
  exact broadcastInDim_apply _ bcast_S640000_S640000x1_0 w (ix2 (i 0) (0 : Fin 1)) (ix1 (i 0)) (fun a => match a with
    | ⟨0, _⟩ => by show (i 0).val = if (640000 : Nat) = 1 then 0 else (i 0).val; rw [if_neg (by decide)])

theorem invSq_eq (x2 : FVec Ideal S640000 .f32) : val_main_v8 (F := Ideal) x2 = Cert.Spec.invSq x2 := by
  funext i
  rfl

theorem edgeDot_apply (y0 : FVec Ideal S640000x128 .f32) (y1 : FVec Ideal S128x128 .f32) (i : S640000x128.Idx) :
    Host.dotGeneral dot_S640000x128_S128x128_S640000x128_1_0_0_1_n_n none y0 y1 i
      = ∑ k : Fin 128, y0 (ix2 (i 0) k) * y1 (ix2 k (i 1)) := by
  simp only [Host.dotGeneral]
  rw [Ideal.dotGeneral_apply,
    ← Equiv.sum_comp (ValueIdx.contrEquiv1 dot_S640000x128_S128x128_S640000x128_1_0_0_1_n_n 128 rfl rfl).symm]
  refine Finset.sum_congr rfl fun k _ => ?_
  have hk := ValueIdx.contrEquiv1_symm_val dot_S640000x128_S128x128_S640000x128_1_0_0_1_n_n 128 rfl rfl k
  have el : dot_S640000x128_S128x128_S640000x128_1_0_0_1_n_n.lhsIdx i
      ((ValueIdx.contrEquiv1 dot_S640000x128_S128x128_S640000x128_1_0_0_1_n_n 128 rfl rfl).symm k) = ix2 (i 0) k :=
    funext fun a => Fin.ext (by
      match a with
      | ⟨0, _⟩ => exact lhs_main_v24_0 _ _
      | ⟨1, _⟩ => exact (lhs_main_v24_1 _ _).trans hk)
  have er : dot_S640000x128_S128x128_S640000x128_1_0_0_1_n_n.rhsIdx i
      ((ValueIdx.contrEquiv1 dot_S640000x128_S128x128_S640000x128_1_0_0_1_n_n 128 rfl rfl).symm k) = ix2 k (i 1) :=
    funext fun a => Fin.ext (by
      match a with
      | ⟨0, _⟩ => exact (rhs_main_v24_0 _ _).trans hk
      | ⟨1, _⟩ => exact rhs_main_v24_1 _ _)
  exact congrArg₂ (· * ·) (congrArg y0 el) (congrArg y1 er)

theorem take_apply (h : FVec Ideal S40000x128 .f32) (src : IVec S640000 32)
    (hs : ∀ e : Fin 640000, (src (ix1 e)).toNat < 40000) (e : Fin 640000) (k : Fin 128) :
    Host.gather gather_S40000x128_S640000x1_S640000x128_1_0_n_n_0_1_1128 h
      (broadcastInDim S640000x1 ![0] bcast_S640000_S640000x1_0 (Cert.TakeFacts.wrap bcast_S_S640000 src)) (ix2 e k)
      = h (ix2 (Cert.Spec.rowOf src e) k) :=
  Cert.TakeFacts.refTake_apply gather_S40000x128_S640000x1_S640000x128_1_0_n_n_0_1_1128 rfl rfl rfl rfl rfl
    bcast_S_S640000 bcast_S640000_S640000x1_0 h src hs e k

theorem scatterDims_eq : Cert.ReferenceIdeal.scatter_S40000x128_S640000x1_S640000x128_1_0_0_1
    = Cert.KernelIdeal.scatter_S40000x128_S640000x1_S640000x128_1_0_0_1 := rfl

def refRound (h : FVec Ideal S40000x128 .f32) (idx : IVec S640000x1 32) (wt : FVec Ideal S128x128 .f32)
    (brow wcol : FVec Ideal S640000x128 .f32) (dc : IVec S640000x1 32) : FVec Ideal S40000x128 .f32 :=
  maximumf
    (Host.scatterAdd scatter_S40000x128_S640000x1_S640000x128_1_0_0_1
      (broadcastInDim S40000x128 ![] bcast_S_S40000x128 (constant (F := Ideal) S_ .f32 0x00000000#32)) dc
      (mulf (addf (Host.dotGeneral dot_S640000x128_S128x128_S640000x128_1_0_0_1_n_n none
        (Host.gather gather_S40000x128_S640000x1_S640000x128_1_0_n_n_0_1_1128 h idx) wt) brow) wcol))
    (broadcastInDim S40000x128 ![] bcast_S_S40000x128 (constant (F := Ideal) S_ .f32 0x00000000#32))

theorem refRound_eq (h : FVec Ideal S40000x128 .f32) (src : IVec S640000 32)
    (hs : ∀ e : Fin 640000, (src (ix1 e)).toNat < 40000)
    (W : Cert.Spec.Ten5) (B : Cert.Spec.Mat 5 128) (l : Fin 5) (w : Cert.Spec.RVec 640000)
    (wt : FVec Ideal S128x128 .f32) (brow wcol : FVec Ideal S640000x128 .f32)
    (hwt : ∀ k j : Fin 128, wt (ix2 k j) = W (ix3 l j k)) (hb : ∀ i : S640000x128.Idx, brow i = B (ix2 l (i 1)))
    (hw : ∀ i : S640000x128.Idx, wcol i = w (ix1 (i 0))) (dc : IVec S640000x1 32) :
    refRound h (broadcastInDim S640000x1 ![0] bcast_S640000_S640000x1_0 (Cert.TakeFacts.wrap bcast_S_S640000 src))
      wt brow wcol dc = Cert.Chain.step (Cert.Spec.msg h W B l src w) dc := by
  have hM : mulf (addf (Host.dotGeneral dot_S640000x128_S128x128_S640000x128_1_0_0_1_n_n none
      (Host.gather gather_S40000x128_S640000x1_S640000x128_1_0_n_n_0_1_1128 h
        (broadcastInDim S640000x1 ![0] bcast_S640000_S640000x1_0 (Cert.TakeFacts.wrap bcast_S_S640000 src))) wt) brow) wcol
      = Cert.Spec.msg h W B l src w := by
    funext i
    show (Host.dotGeneral dot_S640000x128_S128x128_S640000x128_1_0_0_1_n_n none _ wt i + brow i) * wcol i = _
    rw [edgeDot_apply, hb, hw]
    refine congrArg (fun s => (s + B (ix2 l (i 1))) * w (ix1 (i 0))) (Finset.sum_congr rfl fun k _ => ?_)
    exact congrArg₂ (· * ·) (take_apply h src hs (i 0) k) (hwt k (i 1))
  unfold refRound
  rw [hM, scatterDims_eq]
  rfl

theorem enc_eq (x0 : FVec Ideal S40000x7 .f32) (x3 : FVec Ideal S128x7 .f32) (x4 : FVec Ideal S128 .f32) :
    val_main_v13 (F := Ideal) x0 x3 x4
      = Cert.Spec.affine (N := 40000) (K := 7) (M := 128) x0 (fun i => x3 (ix2 (i 1) (i 0))) (fun i => x4 (ix1 (i 1))) := by
  funext i
  show val_main_v10 (F := Ideal) x0 x3 i + val_main_v12 (F := Ideal) x4 i = _
  rw [val_main_v10_apply, val_main_v12_apply, val_main_v11_apply]
  unfold Cert.Spec.affine
  refine congrArg₂ (· + ·) (Finset.sum_congr rfl fun k _ => ?_) ?_
  · rw [val_main_v9_apply]
    refine congrArg₂ (· * ·) (congrArg x0 ?_) (congrArg x3 ?_)
    · funext a; match a with
      | ⟨0, _⟩ => rfl
      | ⟨1, _⟩ => rfl
    · funext a; match a with
      | ⟨0, _⟩ => rfl
      | ⟨1, _⟩ => rfl
  · refine congrArg x4 (funext fun a => ?_)
    match a with
    | ⟨0, _⟩ => rfl

section Rounds

variable (a0 : FVec Ideal S40000x7 .f32) (a1 : IVec S2x640000 32) (a2 : FVec Ideal S640000 .f32)
  (a3 : FVec Ideal S128x7 .f32) (a4 : FVec Ideal S128 .f32) (a5 : FVec Ideal S5x128x128 .f32) (a6 : FVec Ideal S5x128 .f32)

theorem hid_succ (l : ℕ) : Cert.Chain.hid a0 a1 a2 a3 a4 a5 a6 (l + 1)
    = Cert.Chain.step (Cert.Spec.msg (Cert.Chain.hid a0 a1 a2 a3 a4 a5 a6 l) a5 a6 ⟨l % 5, Nat.mod_lt _ (by decide)⟩
        (Cert.Chain.srcOf a1) (Cert.Spec.invSq a2)) (Cert.Chain.dstCol a1) := rfl

theorem hid_zero : Cert.Chain.hid a0 a1 a2 a3 a4 a5 a6 0
    = Cert.Spec.affine (N := 40000) (K := 7) (M := 128) a0 (fun i => a3 (ix2 (i 1) (i 0))) (fun i => a4 (ix1 (i 1))) := rfl

variable (hsrc : ∀ e : Fin 640000, (Cert.Chain.srcOf a1 (ix1 e)).toNat < 40000)
include hsrc

theorem round_succ (o : Nat) (ho : o < 5) (V : FVec Ideal S40000x128 .f32) (hV : V = Cert.Chain.hid a0 a1 a2 a3 a4 a5 a6 o)
    (hsW : S5x128x128.Slices ![o, 0, 0] S1x128x128) (hsB : S5x128.Slices ![o, 0] S1x128) :
    refRound V (val_main_v19 (F := Ideal) a1)
      (transpose S128x128 [1, 0] (shapeCast S128x128 (extractStridedSlice S1x128x128 ![o, 0, 0] a5 hsW)
        shapeCasts_S1x128x128_S128x128) transposes_S128x128_S128x128_1_0)
      (broadcastInDim S640000x128 ![0, 1] bcast_S1x128_S640000x128_0_1 (broadcastInDim S1x128 ![1] bcast_S128_S1x128_1
        (shapeCast S128 (extractStridedSlice S1x128 ![o, 0] a6 hsB) shapeCasts_S1x128_S128)))
      (val_main_v31 (F := Ideal) a2) (val_main_v34 (F := Ideal) a1)
      = Cert.Chain.hid a0 a1 a2 a3 a4 a5 a6 (o + 1) := by
  have e19 : val_main_v19 (F := Ideal) a1 = broadcastInDim S640000x1 ![0] bcast_S640000_S640000x1_0
      (Cert.TakeFacts.wrap bcast_S_S640000 (Cert.Chain.srcOf a1)) := rfl
  have e34 : val_main_v34 (F := Ideal) a1 = Cert.Chain.dstCol a1 := rfl
  have eo : (⟨o % 5, Nat.mod_lt _ (by decide)⟩ : Fin 5) = ⟨o, ho⟩ := Fin.ext (Nat.mod_eq_of_lt ho)
  rw [e19, e34, hid_succ, eo, hV]
  exact refRound_eq _ (Cert.Chain.srcOf a1) hsrc a5 a6 ⟨o, ho⟩ (Cert.Spec.invSq a2) _ _ _
    (fun k j => layerW_apply a5 o ho hsW k j) (fun i => layerB_apply a6 o ho hsB i)
    (fun i => by rw [← invSq_eq]; exact edgeW_apply _ i) _

theorem round1 : val_main_v36 (F := Ideal) a0 a1 a2 a3 a4 a5 a6 = Cert.Chain.hid a0 a1 a2 a3 a4 a5 a6 1 :=
  round_succ a0 a1 a2 a3 a4 a5 a6 hsrc 0 (by decide) _ ((enc_eq a0 a3 a4).trans (hid_zero a0 a1 a2 a3 a4 a5 a6).symm)
    slices_S5x128x128_S1x128x128_0_0_0 slices_S5x128_S1x128_0_0

theorem round2 : val_main_v59 (F := Ideal) a0 a1 a2 a3 a4 a5 a6 = Cert.Chain.hid a0 a1 a2 a3 a4 a5 a6 2 :=
  round_succ a0 a1 a2 a3 a4 a5 a6 hsrc 1 (by decide) _ (round1 a0 a1 a2 a3 a4 a5 a6 hsrc)
    slices_S5x128x128_S1x128x128_1_0_0 slices_S5x128_S1x128_1_0

theorem round3 : val_main_v82 (F := Ideal) a0 a1 a2 a3 a4 a5 a6 = Cert.Chain.hid a0 a1 a2 a3 a4 a5 a6 3 :=
  round_succ a0 a1 a2 a3 a4 a5 a6 hsrc 2 (by decide) _ (round2 a0 a1 a2 a3 a4 a5 a6 hsrc)
    slices_S5x128x128_S1x128x128_2_0_0 slices_S5x128_S1x128_2_0

theorem round4 : val_main_v105 (F := Ideal) a0 a1 a2 a3 a4 a5 a6 = Cert.Chain.hid a0 a1 a2 a3 a4 a5 a6 4 :=
  round_succ a0 a1 a2 a3 a4 a5 a6 hsrc 3 (by decide) _ (round3 a0 a1 a2 a3 a4 a5 a6 hsrc)
    slices_S5x128x128_S1x128x128_3_0_0 slices_S5x128_S1x128_3_0

theorem round5 : val_main_v128 (F := Ideal) a0 a1 a2 a3 a4 a5 a6 = Cert.Chain.hid a0 a1 a2 a3 a4 a5 a6 5 :=
  round_succ a0 a1 a2 a3 a4 a5 a6 hsrc 4 (by decide) _ (round4 a0 a1 a2 a3 a4 a5 a6 hsrc)
    slices_S5x128x128_S1x128x128_4_0_0 slices_S5x128_S1x128_4_0

end Rounds

theorem nodeDot_apply (y0 : FVec Ideal S40000x128 .f32) (y1 : FVec Ideal S128x3 .f32) (i : S40000x3.Idx) :
    Host.dotGeneral dot_S40000x128_S128x3_S40000x3_1_0_0_1_n_n none y0 y1 i
      = ∑ k : Fin 128, y0 (ix2 (i 0) k) * y1 (ix2 k (i 1)) := by
  simp only [Host.dotGeneral]
  rw [Ideal.dotGeneral_apply,
    ← Equiv.sum_comp (ValueIdx.contrEquiv1 dot_S40000x128_S128x3_S40000x3_1_0_0_1_n_n 128 rfl rfl).symm]
  refine Finset.sum_congr rfl fun k _ => ?_
  have hk := ValueIdx.contrEquiv1_symm_val dot_S40000x128_S128x3_S40000x3_1_0_0_1_n_n 128 rfl rfl k
  have el : dot_S40000x128_S128x3_S40000x3_1_0_0_1_n_n.lhsIdx i
      ((ValueIdx.contrEquiv1 dot_S40000x128_S128x3_S40000x3_1_0_0_1_n_n 128 rfl rfl).symm k) = ix2 (i 0) k :=
    funext fun a => Fin.ext (by
      match a with
      | ⟨0, _⟩ => exact lhs_main_v130_0 _ _
      | ⟨1, _⟩ => exact (lhs_main_v130_1 _ _).trans hk)
  have er : dot_S40000x128_S128x3_S40000x3_1_0_0_1_n_n.rhsIdx i
      ((ValueIdx.contrEquiv1 dot_S40000x128_S128x3_S40000x3_1_0_0_1_n_n 128 rfl rfl).symm k) = ix2 k (i 1) :=
    funext fun a => Fin.ext (by
      match a with
      | ⟨0, _⟩ => exact (rhs_main_v130_0 _ _).trans hk
      | ⟨1, _⟩ => exact rhs_main_v130_1 _ _)
  exact congrArg₂ (· * ·) (congrArg y0 el) (congrArg y1 er)

theorem meanDot_apply (y0 : FVec Ideal S1x128 .f32) (y1 : FVec Ideal S128x1 .f32) (i : S1x1.Idx) :
    Host.dotGeneral dot_S1x128_S128x1_S1x1_1_0_0_1_n_n none y0 y1 i
      = ∑ k : Fin 128, y0 (ix2 (i 0) k) * y1 (ix2 k (i 1)) := by
  simp only [Host.dotGeneral]
  rw [Ideal.dotGeneral_apply,
    ← Equiv.sum_comp (ValueIdx.contrEquiv1 dot_S1x128_S128x1_S1x1_1_0_0_1_n_n 128 rfl rfl).symm]
  refine Finset.sum_congr rfl fun k _ => ?_
  have hk := ValueIdx.contrEquiv1_symm_val dot_S1x128_S128x1_S1x1_1_0_0_1_n_n 128 rfl rfl k
  have el : dot_S1x128_S128x1_S1x1_1_0_0_1_n_n.lhsIdx i
      ((ValueIdx.contrEquiv1 dot_S1x128_S128x1_S1x1_1_0_0_1_n_n 128 rfl rfl).symm k) = ix2 (i 0) k :=
    funext fun a => Fin.ext (by
      match a with
      | ⟨0, _⟩ => exact lhs_main_v150_0 _ _
      | ⟨1, _⟩ => exact (lhs_main_v150_1 _ _).trans hk)
  have er : dot_S1x128_S128x1_S1x1_1_0_0_1_n_n.rhsIdx i
      ((ValueIdx.contrEquiv1 dot_S1x128_S128x1_S1x1_1_0_0_1_n_n 128 rfl rfl).symm k) = ix2 k (i 1) :=
    funext fun a => Fin.ext (by
      match a with
      | ⟨0, _⟩ => exact (rhs_main_v150_0 _ _).trans hk
      | ⟨1, _⟩ => exact rhs_main_v150_1 _ _)
  exact congrArg₂ (· * ·) (congrArg y0 el) (congrArg y1 er)

theorem rowBcast_apply (v : FVec Ideal S40000 .f32) (i : S40000x3.Idx) :
    broadcastInDim S40000x3 ![0, 1] bcast_S40000x1_S40000x3_0_1
      (broadcastInDim S40000x1 ![0] bcast_S40000_S40000x1_0 v) i = v (ix1 (i 0)) := by
  refine (broadcastInDim_apply _ bcast_S40000x1_S40000x3_0_1 _ i (ix2 (i 0) (0 : Fin 1)) (fun a => match a with
    | ⟨0, _⟩ => by show (i 0).val = if (40000 : Nat) = 1 then 0 else (i 0).val; rw [if_neg (by decide)]
    | ⟨1, _⟩ => by show 0 = if (1 : Nat) = 1 then 0 else (i 1).val; rw [if_pos rfl])).trans ?_
  exact broadcastInDim_apply _ bcast_S40000_S40000x1_0 v (ix2 (i 0) (0 : Fin 1)) (ix1 (i 0)) (fun a => match a with
    | ⟨0, _⟩ => by show (i 0).val = if (40000 : Nat) = 1 then 0 else (i 0).val; rw [if_neg (by decide)])

def refLogits (h : FVec Ideal S40000x128 .f32) (x7 : FVec Ideal S3x128 .f32) (x8 : FVec Ideal S3 .f32) :
    FVec Ideal S40000x3 .f32 :=
  addf (Host.dotGeneral dot_S40000x128_S128x3_S40000x3_1_0_0_1_n_n none h
      (transpose S128x3 [1, 0] x7 transposes_S3x128_S128x3_1_0))
    (broadcastInDim S40000x3 ![0, 1] bcast_S1x3_S40000x3_0_1 (broadcastInDim S1x3 ![1] bcast_S3_S1x3_1 x8))

theorem refLogits_eq (h : FVec Ideal S40000x128 .f32) (x7 : FVec Ideal S3x128 .f32) (x8 : FVec Ideal S3 .f32) :
    refLogits h x7 x8 = Cert.Spec.logits h x7 x8 := by
  funext i
  show Host.dotGeneral dot_S40000x128_S128x3_S40000x3_1_0_0_1_n_n none h _ i + _ = _
  rw [nodeDot_apply]
  unfold Cert.Spec.logits
  refine congrArg₂ (· + ·) (Finset.sum_congr rfl fun k _ => congrArg (h (ix2 (i 0) k) * ·) ?_) ?_
  · exact transpose_apply [1, 0] x7 transposes_S3x128_S128x3_1_0 (ix2 k (i 1)) (ix2 (i 1) k) (fun b => match b with
      | ⟨0, _⟩ => rfl
      | ⟨1, _⟩ => rfl)
  · refine (broadcastInDim_apply _ bcast_S1x3_S40000x3_0_1 _ i (ix2 (0 : Fin 1) (i 1)) (fun a => match a with
      | ⟨0, _⟩ => by show 0 = if (1 : Nat) = 1 then 0 else (i 0).val; rw [if_pos rfl]
      | ⟨1, _⟩ => by show (i 1).val = if (3 : Nat) = 1 then 0 else (i 1).val; rw [if_neg (by decide)])).trans ?_
    exact broadcastInDim_apply _ bcast_S3_S1x3_1 x8 (ix2 (0 : Fin 1) (i 1)) (ix1 (i 1)) (fun a => match a with
      | ⟨0, _⟩ => by show (i 1).val = if (3 : Nat) = 1 then 0 else (i 1).val; rw [if_neg (by decide)])

theorem lift_logit (h : S40000x3.Reduces [1] S40000) (n : Fin 40000) (q : Fin (S40000x3.size 1)) :
    h.lift (ix1 n) q = ix2 n (⟨q.val, q.isLt⟩ : Fin 3) := by
  funext c
  apply Fin.ext
  match c with
  | ⟨0, _⟩ => rfl
  | ⟨1, _⟩ => rfl

def refRowMax (z : FVec Ideal S40000x3 .f32) : FVec Ideal S40000 .f32 :=
  maximumf (broadcastInDim S40000 ![] bcast_S_S40000 (constant (F := Ideal) S_ .f32 0xFF800000#32))
    (Host.reduce FloatOps.maximumf z (constant (F := Ideal) S_ .f32 0xFF800000#32) reducesTo_S40000x3_S40000_d1 h_S_)

theorem refRowMax_apply (z : FVec Ideal S40000x3 .f32) (n : Fin 40000) : refRowMax z (ix1 n) = Cert.Spec.rowMax z n := by
  have h : S40000x3.Reduces [1] S40000 := by decide
  show max (Ideal.ofBits .f32 0xFF800000#32)
    (Host.reduce FloatOps.maximumf z (constant (F := Ideal) S_ .f32 0xFF800000#32) reducesTo_S40000x3_S40000_d1 h_S_ (ix1 n)) = _
  rw [Host.reduce_eq_fold_single FloatOps.maximumf z _ reducesTo_S40000x3_S40000_d1 h h_S_]
  unfold Cert.Spec.rowMax
  refine congrArg (max (Ideal.ofBits .f32 0xFF800000#32)) ?_
  have hf : (z ∘ h.lift (ix1 n)) = fun q : Fin 3 => z (ix2 n q) := funext fun q => congrArg z (lift_logit h n q)
  exact congrArg (fun f => Finset.fold max (Ideal.ofBits .f32 0xFF800000#32) f (Finset.univ : Finset (Fin 3))) hf

def refExp (z : FVec Ideal S40000x3 .f32) : FVec Ideal S40000x3 .f32 :=
  Host.exp (subf z (broadcastInDim S40000x3 ![0, 1] bcast_S40000x1_S40000x3_0_1
    (broadcastInDim S40000x1 ![0] bcast_S40000_S40000x1_0 (refRowMax z))))

theorem refExp_apply (z : FVec Ideal S40000x3 .f32) (i : S40000x3.Idx) :
    refExp z i = Ideal.exp (z i - Cert.Spec.rowMax z (i 0)) := by
  show Ideal.exp (z i - broadcastInDim S40000x3 ![0, 1] bcast_S40000x1_S40000x3_0_1
    (broadcastInDim S40000x1 ![0] bcast_S40000_S40000x1_0 (refRowMax z)) i) = _
  exact congrArg (fun t => Ideal.exp (z i - t)) ((rowBcast_apply (refRowMax z) i).trans (refRowMax_apply z (i 0)))

def refSoftmax (z : FVec Ideal S40000x3 .f32) : FVec Ideal S40000x3 .f32 :=
  Host.divf (refExp z) (broadcastInDim S40000x3 ![0, 1] bcast_S40000x1_S40000x3_0_1
    (broadcastInDim S40000x1 ![0] bcast_S40000_S40000x1_0
      (Host.reduceAdd (refExp z) (constant (F := Ideal) S_ .f32 0x00000000#32) reducesTo_S40000x3_S40000_d1 h_S_)))

theorem refSum_apply (z : FVec Ideal S40000x3 .f32) (n : Fin 40000) :
    Host.reduceAdd (refExp z) (constant (F := Ideal) S_ .f32 0x00000000#32) reducesTo_S40000x3_S40000_d1 h_S_ (ix1 n)
      = ∑ q : Fin 3, Ideal.exp (z (ix2 n q) - Cert.Spec.rowMax z n) := by
  have h : S40000x3.Reduces [1] S40000 := by decide
  simp only [Host.reduceAdd, Ideal.hostReduceAdd_def]
  rw [Ideal.hostReduceAdd_single reducesTo_S40000x3_S40000_d1 h]
  show Ideal.ofBits .f32 0x00000000#32 + _ = _
  rw [Ideal.ofBits_zero_f32, zero_add]
  refine Finset.sum_congr rfl fun q _ => ?_
  rw [lift_logit h n q]
  exact refExp_apply z _

theorem refSoftmax_eq (z : FVec Ideal S40000x3 .f32) : refSoftmax z = Cert.Spec.softmax3 z := by
  funext i
  have e1 := refExp_apply z i
  have e2 := (rowBcast_apply (Host.reduceAdd (refExp z) (constant (F := Ideal) S_ .f32 0x00000000#32)
    reducesTo_S40000x3_S40000_d1 h_S_) i).trans (refSum_apply z (i 0))
  have e0 : refSoftmax z i = FloatOps.hostDivf (F := Ideal) (refExp z i)
      (broadcastInDim S40000x3 ![0, 1] bcast_S40000x1_S40000x3_0_1 (broadcastInDim S40000x1 ![0] bcast_S40000_S40000x1_0
        (Host.reduceAdd (refExp z) (constant (F := Ideal) S_ .f32 0x00000000#32) reducesTo_S40000x3_S40000_d1 h_S_)) i) := rfl
  rw [e0, Ideal.hostDivf_def, e1, e2]
  rfl

theorem ofBits_nodes : Ideal.ofBits .f32 0x471C4000#32 = ((40000 : ℝ) : EReal) := by
  simp [Ideal.ofBits, Ideal.ieee, -EReal.coe_mul]; norm_num

theorem lift_node (h : S40000x128.Reduces [0] S128) (k : Fin 128) (n : Fin (S40000x128.size 0)) :
    h.lift (ix1 k) n = ix2 (⟨n.val, n.isLt⟩ : Fin 40000) k := by
  funext c
  apply Fin.ext
  match c with
  | ⟨0, _⟩ => rfl
  | ⟨1, _⟩ => rfl

def refMean (h : FVec Ideal S40000x128 .f32) : FVec Ideal S1x128 .f32 :=
  Host.divf (broadcastInDim S1x128 ![1] bcast_S128_S1x128_1
      (Host.reduceAdd h (constant (F := Ideal) S_ .f32 0x00000000#32) reducesTo_S40000x128_S128_d0 h_S_))
    (broadcastInDim S1x128 ![] bcast_S_S1x128 (constant (F := Ideal) S_ .f32 0x471C4000#32))

theorem refMean_apply (h : FVec Ideal S40000x128 .f32) (r : Fin 1) (k : Fin 128) :
    refMean h (ix2 r k) = Cert.Spec.colSum h k * ((1 / 40000 : ℝ) : EReal) := by
  have hr : S40000x128.Reduces [0] S128 := by decide
  have e0 : refMean h (ix2 r k) = FloatOps.hostDivf (F := Ideal) (broadcastInDim S1x128 ![1] bcast_S128_S1x128_1
      (Host.reduceAdd h (constant (F := Ideal) S_ .f32 0x00000000#32) reducesTo_S40000x128_S128_d0 h_S_) (ix2 r k))
    (Ideal.ofBits .f32 0x471C4000#32) := rfl
  rw [e0, Ideal.hostDivf_def, ofBits_nodes, Ideal.div_coe (by norm_num)]
  refine congrArg (· * ((1 / 40000 : ℝ) : EReal)) ?_
  refine (broadcastInDim_apply _ bcast_S128_S1x128_1 _ (ix2 r k) (ix1 k) (fun a => match a with
    | ⟨0, _⟩ => by show k.val = if (128 : Nat) = 1 then 0 else k.val; rw [if_neg (by decide)])).trans ?_
  simp only [Host.reduceAdd, Ideal.hostReduceAdd_def]
  rw [Ideal.hostReduceAdd_single reducesTo_S40000x128_S128_d0 hr]
  show Ideal.ofBits .f32 0x00000000#32 + _ = _
  rw [Ideal.ofBits_zero_f32, zero_add]
  unfold Cert.Spec.colSum
  exact Finset.sum_congr rfl fun n _ => congrArg h (lift_node hr k n)

def refEnergy (h : FVec Ideal S40000x128 .f32) (x9 : FVec Ideal S1x128 .f32) (x10 : FVec Ideal S1 .f32) :
    FVec Ideal S1x1 .f32 :=
  addf (Host.dotGeneral dot_S1x128_S128x1_S1x1_1_0_0_1_n_n none (refMean h)
      (transpose S128x1 [1, 0] x9 transposes_S1x128_S128x1_1_0))
    (broadcastInDim S1x1 ![1] bcast_S1_S1x1_1 x10)

theorem refEnergy_eq (h : FVec Ideal S40000x128 .f32) (x9 : FVec Ideal S1x128 .f32) (x10 : FVec Ideal S1 .f32) :
    refEnergy h x9 x10 = Cert.Spec.energy h x9 x10 := by
  funext i
  show Host.dotGeneral dot_S1x128_S128x1_S1x1_1_0_0_1_n_n none (refMean h) _ i + _ = _
  rw [meanDot_apply]
  unfold Cert.Spec.energy
  refine congrArg₂ (· + ·) (Finset.sum_congr rfl fun k _ => congrArg₂ (· * ·) (refMean_apply h (i 0) k) ?_) ?_
  · refine (transpose_apply [1, 0] x9 transposes_S1x128_S128x1_1_0 (ix2 k (i 1)) (ix2 (i 1) k) (fun b => match b with
      | ⟨0, _⟩ => rfl
      | ⟨1, _⟩ => rfl)).trans ?_
    exact congrArg (fun r : Fin 1 => x9 (ix2 r k)) (Subsingleton.elim _ _)
  · exact broadcastInDim_apply _ bcast_S1_S1x1_1 x10 i (ix1 (0 : Fin 1)) (fun a => match a with
      | ⟨0, _⟩ => by show 0 = if (1 : Nat) = 1 then 0 else (i 1).val; rw [if_pos rfl])

section Results

open Idealize.ShloMosaic.TcCoe Idealize.SL.Sem

variable (m' : (ℓ : Loc nD τ sig) → Buf (Elt Ideal) ℓ) (c : Dev nD)
  (hsrc : ∀ e : Fin 640000, (Cert.Chain.srcOf (m' ((c.tc : Thread nD τ).loc main_arg1)) (ix1 e)).toNat < 40000)
include hsrc

theorem ref_probs : Cert.ReferenceIdeal.Value.res_main_v144 (F := Ideal) m' c
    = Cert.Chain.probs (Cert.Chain.hid (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) 5) (m' ((c.tc : Thread nD τ).loc main_arg7)) (m' ((c.tc : Thread nD τ).loc main_arg8)) := by
  rw [val_main_v144_eq]
  have e : val_main_v144 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8))
      = refSoftmax (refLogits (val_main_v128 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6))) (m' ((c.tc : Thread nD τ).loc main_arg7)) (m' ((c.tc : Thread nD τ).loc main_arg8))) := rfl
  rw [e, round5 _ _ _ _ _ _ _ hsrc, refLogits_eq, refSoftmax_eq]
  rfl

theorem ref_energy : Cert.ReferenceIdeal.Value.res_main_v152 (F := Ideal) m' c
    = Cert.Chain.energy (Cert.Chain.hid (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) 5) (m' ((c.tc : Thread nD τ).loc main_arg9)) (m' ((c.tc : Thread nD τ).loc main_arg10)) := by
  rw [val_main_v152_eq]
  have e : val_main_v152 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg9)) (m' ((c.tc : Thread nD τ).loc main_arg10))
      = refEnergy (val_main_v128 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6))) (m' ((c.tc : Thread nD τ).loc main_arg9)) (m' ((c.tc : Thread nD τ).loc main_arg10)) := rfl
  rw [e, round5 _ _ _ _ _ _ _ hsrc, refEnergy_eq]
  rfl

theorem ref_stable : Cert.ReferenceIdeal.Value.res_main_v154 (F := Ideal) m' c
    = Cert.Chain.stable (Cert.Chain.energy (Cert.Chain.hid (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) 5) (m' ((c.tc : Thread nD τ).loc main_arg9)) (m' ((c.tc : Thread nD τ).loc main_arg10))) := by
  rw [val_main_v154_eq]
  have e : val_main_v154 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg9)) (m' ((c.tc : Thread nD τ).loc main_arg10))
      = cmpf .olt (Cert.ReferenceIdeal.Value.res_main_v152 (F := Ideal) m' c)
          (broadcastInDim S1x1 ![] bcast_S_S1x1 (constant (F := Ideal) S_ .f32 0xBF800000#32)) := by
    rw [val_main_v152_eq]
    rfl
  rw [e, ref_energy m' c hsrc]
  rfl

end Results

end Cert.RefVal

end
-- ==== Proof.PreFacts.lean ====
import proofs.«405767_j7868380086676_1_alg».proof.Pre_finite_inputs
import Idealize.ShloMosaic.Lib.StableHlo.Predicate
import Idealize.ShloMosaic.Lib.ReduceAll
import Idealize.ShloMosaic.Lib.ValueIdx
import Idealize.ShloMosaic.Lib.ValueLayout
import Idealize.ShloMosaic.Lib.Pipeline.Value

noncomputable section

namespace Cert.PreFacts

open Idealize.ShloMosaic Idealize.ShloMosaic.ValueIdx Cert.Pre_finite_inputs

instance : Subsingleton S_.Idx := ⟨fun _ _ => funext fun d => d.elim0⟩

theorem toNat_lt_of_sge_slt (x : BitVec 32) (h0 : IntOp.cmpi .sge x 0#32 = 1#1) (h1 : IntOp.cmpi .slt x 40000#32 = 1#1) :
    x.toNat < 40000 := by
  unfold IntOp.cmpi at h0 h1
  rw [StableHlo.Predicate.ofBool_eq_one_iff] at h0 h1
  simp only [BitVec.sle, BitVec.slt, decide_eq_true_eq] at h0 h1
  have hx := BitVec.toInt_eq_toNat_cond x
  have e0 : (0#32).toInt = 0 := by decide
  have e1 : (40000#32).toInt = 40000 := by decide
  have := x.isLt
  rw [e0] at h0; rw [e1] at h1
  split at hx <;> omega

variable [hP : Cert.Pre_finite_inputs.Facts]

def srcOf (ei : IVec S2x640000 32) : IVec S640000 32 :=
  shapeCast S640000 (extractStridedSlice S1x640000 ![0, 0] ei Facts.slices_S2x640000_S1x640000_0_0)
    Facts.shapeCasts_S1x640000_S640000

theorem srcOf_apply (ei : IVec S2x640000 32) (e : Fin 640000) : srcOf ei (ix1 e) = ei (ix2 (0 : Fin 2) e) := by
  unfold srcOf
  rw [shapeCast_1a_a_apply]
  refine extractStridedSlice_apply _ _ _ _ _ fun a => ?_
  match a with
  | ⟨0, _⟩ => rfl
  | ⟨1, _⟩ => show e.val = 0 + e.val; omega

theorem src_range {F : FTy → Type} [FloatOps F]
    (a0 : FVec F S40000x7 .f32) (a1 : IVec S2x640000 32) (a2 : FVec F S640000 .f32) (a3 : FVec F S128x7 .f32)
    (a4 : FVec F S128 .f32) (a5 : FVec F S5x128x128 .f32) (a6 : FVec F S5x128 .f32) (a7 : FVec F S3x128 .f32)
    (a8 : FVec F S3 .f32) (a9 : FVec F S1x128 .f32) (a10 : FVec F S1 .f32)
    (h : Cert.Pre_finite_inputs.fn (F := F) a0 a1 a2 a3 a4 a5 a6 a7 a8 a9 a10 = fun _ => 1#1) (e : Fin 640000) :
    (srcOf a1 (ix1 e)).toNat < 40000 := by
  have h0 := congrFun h ix0

  obtain ⟨h1, hlt⟩ := IntOp.andi_eq_one.1 h0
  obtain ⟨-, hge⟩ := IntOp.andi_eq_one.1 h1
  have hlt' := Host.reduce_andi_all _ _ _ _ ix0 hlt (ix1 e)
  have hge' := Host.reduce_andi_all _ _ _ _ ix0 hge (ix1 e)
  exact toNat_lt_of_sge_slt _ hge' hlt'

end Cert.PreFacts

end
-- ==== Proof.PreUse.lean ====
import proofs.«405767_j7868380086676_1_alg».proof.Defs
import proofs.«405767_j7868380086676_1_alg».proof.Proof.PreFacts
import proofs.«405767_j7868380086676_1_alg».proof.Proof.Chain

noncomputable section

namespace Cert.PreUse

open Idealize.ShloMosaic Idealize.ShloMosaic.ValueIdx Idealize.SL.Sem

variable [hK : Cert.KernelIdeal.Facts] [hP : Cert.Pre_finite_inputs.Facts]

theorem src_range (m : (ℓ : Loc Cert.KernelIdeal.nD Cert.KernelIdeal.τ Cert.KernelIdeal.sig) → Buf (Elt Ideal) ℓ)
    (h : Cert.Pre_KernelIdeal m) (c : Dev Cert.KernelIdeal.nD) (e : Fin 640000) :
    (Cert.Chain.srcOf (m ((c.tc : Thread Cert.KernelIdeal.nD Cert.KernelIdeal.τ).loc Cert.KernelIdeal.main_arg1))
      (ix1 e)).toNat < 40000 :=
  Cert.PreFacts.src_range (F := Ideal) _ _ _ _ _ _ _ _ _ _ _ (h c) e

end Cert.PreUse

end
-- ==== Proof.lean ====
import proofs.«405767_j7868380086676_1_alg».proof.Defs
import proofs.«405767_j7868380086676_1_alg».proof.Proof.Gen.Kernel
import proofs.«405767_j7868380086676_1_alg».proof.Proof.Gen.KernelIdeal
import proofs.«405767_j7868380086676_1_alg».proof.Proof.Gen.ReferenceIdeal
import proofs.«405767_j7868380086676_1_alg».proof.Proof.Gen.Pre_finite_inputs
import proofs.«405767_j7868380086676_1_alg».proof.Proof.Gen.ReferenceIdeal.Run
import proofs.«405767_j7868380086676_1_alg».proof.Proof.Gen.ReferenceIdeal.Read
import proofs.«405767_j7868380086676_1_alg».proof.Proof.K.Run
import proofs.«405767_j7868380086676_1_alg».proof.Proof.KI.RunNamed
import proofs.«405767_j7868380086676_1_alg».proof.Proof.KI.HostValEnd
import proofs.«405767_j7868380086676_1_alg».proof.Proof.KI.HostVal
import proofs.«405767_j7868380086676_1_alg».proof.Proof.KI.Val6a
import proofs.«405767_j7868380086676_1_alg».proof.Proof.KI.Val6b
import proofs.«405767_j7868380086676_1_alg».proof.Proof.RefVal
import proofs.«405767_j7868380086676_1_alg».proof.Proof.PreUse
import Idealize.ShloMosaic.PureOps.IdealRules
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := Cert.Kernel.Hand.frame

theorem frame_ki : Cert.frame_KernelIdeal := fun m ρ _ =>
  (θ_run Cert.KernelIdeal.defs _ _).mono (fun _ h c => (h c).2.2.2) (Cert.KernelIdeal.Hand.run_named (F := Ideal) m ρ)

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal :=
  IdealRules.named_const.statement Cert.KernelIdeal.κ "inv_40000" .f32 0x37D1B717#32 ((1 / 40000 : ℝ) : EReal) rfl

/-- The node states after the five rounds, from a device's argument arrays. -/
abbrev nodes5 (m : (ℓ : Loc Cert.KernelIdeal.nD Cert.KernelIdeal.τ Cert.KernelIdeal.sig) → Buf (Elt Ideal) ℓ) (c : Dev Cert.KernelIdeal.nD) :=
  Cert.Chain.hid
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) 5

theorem algebraic : Cert.algebraic_KernelIdeal_ReferenceIdeal := by
  intro m ρ m' ρ' hpre hagree
  have hsrc := Cert.PreUse.src_range m hpre
  refine ⟨fun c => Cert.Chain.probs (nodes5 m c)
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)),
      fun c => Cert.Chain.energy (nodes5 m c)
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)),
      fun c => Cert.Chain.stable (Cert.Chain.energy (nodes5 m c)
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))), ?_, ?_⟩
  ·
    refine (θ_run Cert.KernelIdeal.defs _ _).mono (fun r h c => ?_) (Cert.KernelIdeal.Hand.run_named (F := Ideal) m ρ)
    have hh := Cert.KernelIdeal.Hand.hid5 m c (hsrc c)
    exact ⟨(h c).1.trans (Cert.KernelIdeal.Hand.kernel_probs m (fun V c => Cert.KernelIdeal.Hand.final6_probs V c) c _ hh),
      (h c).2.1.trans (Cert.KernelIdeal.Hand.kernel_energy m (fun V c => Cert.KernelIdeal.Hand.final6_energy V c) c _ hh),
      (h c).2.2.1.trans (Cert.KernelIdeal.Hand.kernel_stable m (fun V c => Cert.KernelIdeal.Hand.final6_energy V c) c _ hh),
      (h c).2.2.2⟩
  ·
    refine (θ_run Cert.ReferenceIdeal.defs _ _).mono (fun r h c => ?_) (Cert.ReferenceIdeal.Value.run (F := Ideal) m' ρ')
    have hsrc' : ∀ e : Fin 640000, (Cert.Chain.srcOf (m' ((c.tc : Thread Cert.ReferenceIdeal.nD Cert.ReferenceIdeal.τ).loc Cert.ReferenceIdeal.main_arg1)) (ix1 e)).toNat < 40000 := by
      rw [(hagree c).2.1]; exact hsrc c
    refine ⟨(h c).1.trans ((Cert.RefVal.ref_probs m' c hsrc').trans ?_), (h c).2.1.trans ((Cert.RefVal.ref_energy m' c hsrc').trans ?_),
      (h c).2.2.1.trans ((Cert.RefVal.ref_stable m' c hsrc').trans ?_), (h c).2.2.2⟩
    all_goals
      simp only [(hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1, (hagree c).2.2.2.2.2.2.2.2.2.1,
        (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
